-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S600 : Shape := ⟨1, ![600]⟩
abbrev S_ : Shape := ⟨0, ![]⟩
abbrev S1024x600 : Shape := ⟨2, ![1024, 600]⟩
abbrev S20000 : Shape := ⟨1, ![20000]⟩
abbrev S20000x48 : Shape := ⟨2, ![20000, 48]⟩

class Facts : Prop where
  bcast_S_S1024 : S_.BroadcastsInDim S1024 (![] : Fin 0 → Fin S1024.rank)
  reducesTo_S1024_S_d0 : S1024.ReducesTo [0] S_
  h_S_ : 0 < S_.numel
  bcast_S_S600 : S_.BroadcastsInDim S600 (![] : Fin 0 → Fin S600.rank)
  reducesTo_S600_S_d0 : S600.ReducesTo [0] S_
  reducesTo_S_S_d : S_.ReducesTo [] S_
  bcast_S_S1024x600 : S_.BroadcastsInDim S1024x600 (![] : Fin 0 → Fin S1024x600.rank)
  reducesTo_S1024x600_S_d0_1 : S1024x600.ReducesTo [0, 1] S_
  bcast_S_S20000 : S_.BroadcastsInDim S20000 (![] : Fin 0 → Fin S20000.rank)
  reducesTo_S20000_S_d0 : S20000.ReducesTo [0] S_
  bcast_S_S20000x48 : S_.BroadcastsInDim S20000x48 (![] : Fin 0 → Fin S20000x48.rank)
  reducesTo_S20000x48_S_d0_1 : S20000x48.ReducesTo [0, 1] S_

variable [Facts]

def fn_part3 {F : FTy → Type} [FloatOps F] (main_arg11 : FVec F S20000x48 .f32) (main_arg12 : FVec F S_ .f32) (main_arg13 : FVec F S_ .f32) (main_v47 : IVec S_ 1) (main_v50 : IVec S20000x48 1) : IVec S_ 1 :=
  let main_c_19 : IVec S_ 1 := constantI S_ 1 1#1
  let main_v51 : IVec S_ 1 := (fun x v => Host.reduce IntOp.andi x v reducesTo_S20000x48_S_d0_1 h_S_) main_v50 main_c_19
  let main_v52 : IVec S_ 1 := andi main_v47 main_v51
  let main_v53 : FVec F S20000x48 .f32 := Host.absf main_arg11
  let main_cst_20 : FVec F S_ .f32 := constant S_ .f32 0x7F800000#32
  let main_v54 : FVec F S20000x48 .f32 := broadcastInDim S20000x48 ![] bcast_S_S20000x48 main_cst_20
  let main_v55 : IVec S20000x48 1 := cmpf .olt main_v53 main_v54
  let main_c_21 : IVec S_ 1 := constantI S_ 1 1#1
  let main_v56 : IVec S_ 1 := (fun x v => Host.reduce IntOp.andi x v reducesTo_S20000x48_S_d0_1 h_S_) main_v55 main_c_21
  let main_v57 : IVec S_ 1 := andi main_v52 main_v56
  let main_v58 : FVec F S_ .f32 := Host.absf main_arg12
  let main_cst_22 : FVec F S_ .f32 := constant S_ .f32 0x7F800000#32
  let main_v59 : IVec S_ 1 := cmpf .olt main_v58 main_cst_22
  let main_c_23 : IVec S_ 1 := constantI S_ 1 1#1
  let main_v60 : IVec S_ 1 := (fun x v => Host.reduce IntOp.andi x v reducesTo_S_S_d h_S_) main_v59 main_c_23
  let main_v61 : IVec S_ 1 := andi main_v57 main_v60
  let main_v62 : FVec F S_ .f32 := Host.absf main_arg13
  let main_cst_24 : FVec F S_ .f32 := constant S_ .f32 0x7F800000#32
  let main_v63 : IVec S_ 1 := cmpf .olt main_v62 main_cst_24
  let main_c_25 : IVec S_ 1 := constantI S_ 1 1#1
  let main_v64 : IVec S_ 1 := (fun x v => Host.reduce IntOp.andi x v reducesTo_S_S_d h_S_) main_v63 main_c_25
  let main_v65 : IVec S_ 1 := andi main_v61 main_v64
  main_v65

def fn_part2 {F : FTy → Type} [FloatOps F] (main_arg8 : FVec F S20000x48 .f32) (main_arg9 : FVec F S20000x48 .f32) (main_arg10 : FVec F S20000x48 .f32) (main_arg11 : FVec F S20000x48 .f32) (main_arg12 : FVec F S_ .f32) (main_arg13 : FVec F S_ .f32) (main_v32 : IVec S_ 1) (main_v33 : FVec F S20000 .f32) : IVec S_ 1 :=
  let main_cst_12 : FVec F S_ .f32 := constant S_ .f32 0x7F800000#32
  let main_v34 : FVec F S20000 .f32 := broadcastInDim S20000 ![] bcast_S_S20000 main_cst_12
  let main_v35 : IVec S20000 1 := cmpf .olt main_v33 main_v34
  let main_c_13 : IVec S_ 1 := constantI S_ 1 1#1
  let main_v36 : IVec S_ 1 := (fun x v => Host.reduce IntOp.andi x v reducesTo_S20000_S_d0 h_S_) main_v35 main_c_13
  let main_v37 : IVec S_ 1 := andi main_v32 main_v36
  let main_v38 : FVec F S20000x48 .f32 := Host.absf main_arg8
  let main_cst_14 : FVec F S_ .f32 := constant S_ .f32 0x7F800000#32
  let main_v39 : FVec F S20000x48 .f32 := broadcastInDim S20000x48 ![] bcast_S_S20000x48 main_cst_14
  let main_v40 : IVec S20000x48 1 := cmpf .olt main_v38 main_v39
  let main_c_15 : IVec S_ 1 := constantI S_ 1 1#1
  let main_v41 : IVec S_ 1 := (fun x v => Host.reduce IntOp.andi x v reducesTo_S20000x48_S_d0_1 h_S_) main_v40 main_c_15
  let main_v42 : IVec S_ 1 := andi main_v37 main_v41
  let main_v43 : FVec F S20000x48 .f32 := Host.absf main_arg9
  let main_cst_16 : FVec F S_ .f32 := constant S_ .f32 0x7F800000#32
  let main_v44 : FVec F S20000x48 .f32 := broadcastInDim S20000x48 ![] bcast_S_S20000x48 main_cst_16
  let main_v45 : IVec S20000x48 1 := cmpf .olt main_v43 main_v44
  let main_c_17 : IVec S_ 1 := constantI S_ 1 1#1
  let main_v46 : IVec S_ 1 := (fun x v => Host.reduce IntOp.andi x v reducesTo_S20000x48_S_d0_1 h_S_) main_v45 main_c_17
  let main_v47 : IVec S_ 1 := andi main_v42 main_v46
  let main_v48 : FVec F S20000x48 .f32 := Host.absf main_arg10
  let main_cst_18 : FVec F S_ .f32 := constant S_ .f32 0x7F800000#32
  let main_v49 : FVec F S20000x48 .f32 := broadcastInDim S20000x48 ![] bcast_S_S20000x48 main_cst_18
  let main_v50 : IVec S20000x48 1 := cmpf .olt main_v48 main_v49
  fn_part3 (F := F) main_arg11 main_arg12 main_arg13 main_v47 main_v50

def fn_part1 {F : FTy → Type} [FloatOps F] (main_arg4 : FVec F S1024x600 .f32) (main_arg5 : FVec F S1024x600 .f32) (main_arg6 : FVec F S1024x600 .f32) (main_arg7 : FVec F S20000 .f32) (main_arg8 : FVec F S20000x48 .f32) (main_arg9 : FVec F S20000x48 .f32) (main_arg10 : FVec F S20000x48 .f32) (main_arg11 : FVec F S20000x48 .f32) (main_arg12 : FVec F S_ .f32) (main_arg13 : FVec F S_ .f32) (main_v12 : IVec S_ 1) (main_v15 : IVec S1024x600 1) (main_c_5 : IVec S_ 1) : IVec S_ 1 :=
  let main_v16 : IVec S_ 1 := (fun x v => Host.reduce IntOp.andi x v reducesTo_S1024x600_S_d0_1 h_S_) main_v15 main_c_5
  let main_v17 : IVec S_ 1 := andi main_v12 main_v16
  let main_v18 : FVec F S1024x600 .f32 := Host.absf main_arg4
  let main_cst_6 : FVec F S_ .f32 := constant S_ .f32 0x7F800000#32
  let main_v19 : FVec F S1024x600 .f32 := broadcastInDim S1024x600 ![] bcast_S_S1024x600 main_cst_6
  let main_v20 : IVec S1024x600 1 := cmpf .olt main_v18 main_v19
  let main_c_7 : IVec S_ 1 := constantI S_ 1 1#1
  let main_v21 : IVec S_ 1 := (fun x v => Host.reduce IntOp.andi x v reducesTo_S1024x600_S_d0_1 h_S_) main_v20 main_c_7
  let main_v22 : IVec S_ 1 := andi main_v17 main_v21
  let main_v23 : FVec F S1024x600 .f32 := Host.absf main_arg5
  let main_cst_8 : FVec F S_ .f32 := constant S_ .f32 0x7F800000#32
  let main_v24 : FVec F S1024x600 .f32 := broadcastInDim S1024x600 ![] bcast_S_S1024x600 main_cst_8
  let main_v25 : IVec S1024x600 1 := cmpf .olt main_v23 main_v24
  let main_c_9 : IVec S_ 1 := constantI S_ 1 1#1
  let main_v26 : IVec S_ 1 := (fun x v => Host.reduce IntOp.andi x v reducesTo_S1024x600_S_d0_1 h_S_) main_v25 main_c_9
  let main_v27 : IVec S_ 1 := andi main_v22 main_v26
  let main_v28 : FVec F S1024x600 .f32 := Host.absf main_arg6
  let main_cst_10 : FVec F S_ .f32 := constant S_ .f32 0x7F800000#32
  let main_v29 : FVec F S1024x600 .f32 := broadcastInDim S1024x600 ![] bcast_S_S1024x600 main_cst_10
  let main_v30 : IVec S1024x600 1 := cmpf .olt main_v28 main_v29
  let main_c_11 : IVec S_ 1 := constantI S_ 1 1#1
  let main_v31 : IVec S_ 1 := (fun x v => Host.reduce IntOp.andi x v reducesTo_S1024x600_S_d0_1 h_S_) main_v30 main_c_11
  let main_v32 : IVec S_ 1 := andi main_v27 main_v31
  let main_v33 : FVec F S20000 .f32 := Host.absf main_arg7
  fn_part2 (F := F) main_arg8 main_arg9 main_arg10 main_arg11 main_arg12 main_arg13 main_v32 main_v33

def fn {F : FTy → Type} [FloatOps F] (main_arg0 : FVec F S1024 .f32) (main_arg1 : FVec F S600 .f32) (main_arg2 : FVec F S_ .f32) (main_arg3 : FVec F S1024x600 .f32) (main_arg4 : FVec F S1024x600 .f32) (main_arg5 : FVec F S1024x600 .f32) (main_arg6 : FVec F S1024x600 .f32) (main_arg7 : FVec F S20000 .f32) (main_arg8 : FVec F S20000x48 .f32) (main_arg9 : FVec F S20000x48 .f32) (main_arg10 : FVec F S20000x48 .f32) (main_arg11 : FVec F S20000x48 .f32) (main_arg12 : FVec F S_ .f32) (main_arg13 : FVec F S_ .f32) : IVec S_ 1 :=
  let main_v0 : FVec F S1024 .f32 := Host.absf main_arg0
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S600 .f32 := Host.absf main_arg1
  let main_cst_0 : FVec F S_ .f32 := constant S_ .f32 0x7F800000#32
  let main_v5 : FVec F S600 .f32 := broadcastInDim S600 ![] bcast_S_S600 main_cst_0
  let main_v6 : IVec S600 1 := cmpf .olt main_v4 main_v5
  let main_c_1 : IVec S_ 1 := constantI S_ 1 1#1
  let main_v7 : IVec S_ 1 := (fun x v => Host.reduce IntOp.andi x v reducesTo_S600_S_d0 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S1024x600 .f32 := Host.absf main_arg3
  let main_cst_4 : FVec F S_ .f32 := constant S_ .f32 0x7F800000#32
  let main_v14 : FVec F S1024x600 .f32 := broadcastInDim S1024x600 ![] bcast_S_S1024x600 main_cst_4
  let main_v15 : IVec S1024x600 1 := cmpf .olt main_v13 main_v14
  let main_c_5 : IVec S_ 1 := constantI S_ 1 1#1
  fn_part1 (F := F) main_arg4 main_arg5 main_arg6 main_arg7 main_arg8 main_arg9 main_arg10 main_arg11 main_arg12 main_arg13 main_v12 main_v15 main_c_5
-- ==== Kernel.lean ====
abbrev S1024 : Shape := ⟨1, ![1024]⟩
abbrev S600 : Shape := ⟨1, ![600]⟩
abbrev S_ : Shape := ⟨0, ![]⟩
abbrev S1024x600 : Shape := ⟨2, ![1024, 600]⟩
abbrev S20000 : Shape := ⟨1, ![20000]⟩
abbrev S20000x48 : Shape := ⟨2, ![20000, 48]⟩
abbrev S1 : Shape := ⟨1, ![1]⟩
abbrev S1024x1 : Shape := ⟨2, ![1024, 1]⟩
abbrev S1x600 : Shape := ⟨2, ![1, 600]⟩
abbrev S20000x192 : Shape := ⟨2, ![20000, 192]⟩
abbrev S20224x192 : Shape := ⟨2, ![20224, 192]⟩
abbrev S599 : Shape := ⟨1, ![599]⟩
abbrev S598 : Shape := ⟨1, ![598]⟩
abbrev S1024x48 : Shape := ⟨2, ![1024, 48]⟩
abbrev S8x600 : Shape := ⟨2, ![8, 600]⟩
abbrev S256x192 : Shape := ⟨2, ![256, 192]⟩
abbrev S8x48 : Shape := ⟨2, ![8, 48]⟩
abbrev S8x600x192 : Shape := ⟨3, ![8, 600, 192]⟩
abbrev S8x600x256 : Shape := ⟨3, ![8, 600, 256]⟩
abbrev S8x600x1 : Shape := ⟨3, ![8, 600, 1]⟩
abbrev S1x256x192 : Shape := ⟨3, ![1, 256, 192]⟩
abbrev S8x256x192 : Shape := ⟨3, ![8, 256, 192]⟩
abbrev S8x600x48 : Shape := ⟨3, ![8, 600, 48]⟩
abbrev S1x600x1 : Shape := ⟨3, ![1, 600, 1]⟩
abbrev S1023 : Shape := ⟨1, ![1023]⟩
abbrev S1022 : Shape := ⟨1, ![1022]⟩
abbrev S3x48 : Shape := ⟨2, ![3, 48]⟩
abbrev S48 : Shape := ⟨1, ![48]⟩
abbrev S1x48 : Shape := ⟨2, ![1, 48]⟩

abbrev nBuf : Space → Nat
  | .hbm => 117
  | .vmem => 24
  | .smem => 0
  | _ => 0

abbrev bufTy : (tb : Table) → Fin (tcTables nBuf tb) → BufTy
  | .hbm, ⟨0, _⟩ => ⟨S1024, .f32⟩
  | .hbm, ⟨1, _⟩ => ⟨S600, .f32⟩
  | .hbm, ⟨2, _⟩ => ⟨S_, .f32⟩
  | .hbm, ⟨3, _⟩ => ⟨S1024x600, .f32⟩
  | .hbm, ⟨4, _⟩ => ⟨S1024x600, .f32⟩
  | .hbm, ⟨5, _⟩ => ⟨S1024x600, .f32⟩
  | .hbm, ⟨6, _⟩ => ⟨S1024x600, .f32⟩
  | .hbm, ⟨7, _⟩ => ⟨S20000, .f32⟩
  | .hbm, ⟨8, _⟩ => ⟨S20000x48, .f32⟩
  | .hbm, ⟨9, _⟩ => ⟨S20000x48, .f32⟩
  | .hbm, ⟨10, _⟩ => ⟨S20000x48, .f32⟩
  | .hbm, ⟨11, _⟩ => ⟨S20000x48, .f32⟩
  | .hbm, ⟨12, _⟩ => ⟨S_, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S1024x1, .f32⟩
  | .hbm, ⟨19, _⟩ => ⟨S600, .f32⟩
  | .hbm, ⟨20, _⟩ => ⟨S600, .f32⟩
  | .hbm, ⟨21, _⟩ => ⟨S1x600, .f32⟩
  | .hbm, ⟨22, _⟩ => ⟨S1024x600, .f32⟩
  | .hbm, ⟨23, _⟩ => ⟨S1024x600, .f32⟩
  | .hbm, ⟨24, _⟩ => ⟨S1024x600, .f32⟩
  | .hbm, ⟨25, _⟩ => ⟨S1024x600, .f32⟩
  | .hbm, ⟨26, _⟩ => ⟨S1024x600, .f32⟩
  | .hbm, ⟨27, _⟩ => ⟨S_, .f32⟩
  | .hbm, ⟨28, _⟩ => ⟨S1024x600, .f32⟩
  | .hbm, ⟨29, _⟩ => ⟨S1024x600, .f32⟩
  | .hbm, ⟨30, _⟩ => ⟨S_, .f32⟩
  | .hbm, ⟨31, _⟩ => ⟨S1024x600, .f32⟩
  | .hbm, ⟨32, _⟩ => ⟨S1024x600, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1024x600, .f32⟩
  | .hbm, ⟨37, _⟩ => ⟨S1024x600, .f32⟩
  | .hbm, ⟨38, _⟩ => ⟨S_, .f32⟩
  | .hbm, ⟨39, _⟩ => ⟨S1024x600, .f32⟩
  | .hbm, ⟨40, _⟩ => ⟨S1024x600, .f32⟩
  | .hbm, ⟨41, _⟩ => ⟨S1024x600, .f32⟩
  | .hbm, ⟨42, _⟩ => ⟨S1024x600, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1024x600, .i32⟩
  | .hbm, ⟨47, _⟩ => ⟨S1024x600, .i32⟩
  | .hbm, ⟨48, _⟩ => ⟨S_, .i32⟩
  | .hbm, ⟨49, _⟩ => ⟨S1024x600, .i32⟩
  | .hbm, ⟨50, _⟩ => ⟨S1024x600, .i32⟩
  | .hbm, ⟨51, _⟩ => ⟨S1024x600, .f32⟩
  | .hbm, ⟨52, _⟩ => ⟨S1024x600, .f32⟩
  | .hbm, ⟨53, _⟩ => ⟨S20000x192, .f32⟩
  | .hbm, ⟨54, _⟩ => ⟨S_, .i32⟩
  | .hbm, ⟨55, _⟩ => ⟨S_, .f32⟩
  | .hbm, ⟨56, _⟩ => ⟨S20224x192, .f32⟩
  | .hbm, ⟨57, _⟩ => ⟨S20224x192, .bf16⟩
  | .hbm, ⟨58, _⟩ => ⟨S599, .f32⟩
  | .hbm, ⟨59, _⟩ => ⟨S599, .f32⟩
  | .hbm, ⟨60, _⟩ => ⟨S599, .f32⟩
  | .hbm, ⟨61, _⟩ => ⟨S1, .f32⟩
  | .hbm, ⟨62, _⟩ => ⟨S_, .f32⟩
  | .hbm, ⟨63, _⟩ => ⟨S1, .f32⟩
  | .hbm, ⟨64, _⟩ => ⟨S1, .f32⟩
  | .hbm, ⟨65, _⟩ => ⟨S1, .f32⟩
  | .hbm, ⟨66, _⟩ => ⟨S_, .f32⟩
  | .hbm, ⟨67, _⟩ => ⟨S1, .f32⟩
  | .hbm, ⟨68, _⟩ => ⟨S1, .f32⟩
  | .hbm, ⟨69, _⟩ => ⟨S598, .f32⟩
  | .hbm, ⟨70, _⟩ => ⟨S598, .f32⟩
  | .hbm, ⟨71, _⟩ => ⟨S598, .f32⟩
  | .hbm, ⟨72, _⟩ => ⟨S_, .f32⟩
  | .hbm, ⟨73, _⟩ => ⟨S598, .f32⟩
  | .hbm, ⟨74, _⟩ => ⟨S598, .f32⟩
  | .hbm, ⟨75, _⟩ => ⟨S600, .f32⟩
  | .hbm, ⟨76, _⟩ => ⟨S1x600, .f32⟩
  | .hbm, ⟨77, _⟩ => ⟨S1024x48, .f32⟩
  | .hbm, ⟨78, _⟩ => ⟨S1024x48, .f32⟩
  | .hbm, ⟨79, _⟩ => ⟨S_, .f32⟩
  | .hbm, ⟨80, _⟩ => ⟨S1024, .f32⟩
  | .hbm, ⟨81, _⟩ => ⟨S1024, .f32⟩
  | .hbm, ⟨82, _⟩ => ⟨S_, .f32⟩
  | .hbm, ⟨83, _⟩ => ⟨S_, .f32⟩
  | .hbm, ⟨84, _⟩ => ⟨S1024, .f32⟩
  | .hbm, ⟨85, _⟩ => ⟨S1024, .f32⟩
  | .hbm, ⟨86, _⟩ => ⟨S1024, .f32⟩
  | .hbm, ⟨87, _⟩ => ⟨S1024, .f32⟩
  | .hbm, ⟨88, _⟩ => ⟨S1024, .f32⟩
  | .hbm, ⟨89, _⟩ => ⟨S1024, .f32⟩
  | .hbm, ⟨90, _⟩ => ⟨S_, .f32⟩
  | .hbm, ⟨91, _⟩ => ⟨S1024, .f32⟩
  | .hbm, ⟨92, _⟩ => ⟨S1024, .f32⟩
  | .hbm, ⟨93, _⟩ => ⟨S1024, .f32⟩
  | .hbm, ⟨94, _⟩ => ⟨S1023, .f32⟩
  | .hbm, ⟨95, _⟩ => ⟨S1023, .f32⟩
  | .hbm, ⟨96, _⟩ => ⟨S1023, .f32⟩
  | .hbm, ⟨97, _⟩ => ⟨S1, .f32⟩
  | .hbm, ⟨98, _⟩ => ⟨S_, .f32⟩
  | .hbm, ⟨99, _⟩ => ⟨S1, .f32⟩
  | .hbm, ⟨100, _⟩ => ⟨S1, .f32⟩
  | .hbm, ⟨101, _⟩ => ⟨S1, .f32⟩
  | .hbm, ⟨102, _⟩ => ⟨S_, .f32⟩
  | .hbm, ⟨103, _⟩ => ⟨S1, .f32⟩
  | .hbm, ⟨104, _⟩ => ⟨S1, .f32⟩
  | .hbm, ⟨105, _⟩ => ⟨S1022, .f32⟩
  | .hbm, ⟨106, _⟩ => ⟨S1022, .f32⟩
  | .hbm, ⟨107, _⟩ => ⟨S1022, .f32⟩
  | .hbm, ⟨108, _⟩ => ⟨S_, .f32⟩
  | .hbm, ⟨109, _⟩ => ⟨S1022, .f32⟩
  | .hbm, ⟨110, _⟩ => ⟨S1022, .f32⟩
  | .hbm, ⟨111, _⟩ => ⟨S1024, .f32⟩
  | .hbm, ⟨112, _⟩ => ⟨S1024, .f32⟩
  | .hbm, ⟨113, _⟩ => ⟨S1024, .f32⟩
  | .hbm, ⟨114, _⟩ => ⟨S1024, .f32⟩
  | .hbm, ⟨115, _⟩ => ⟨S1024x1, .f32⟩
  | .hbm, ⟨116, _⟩ => ⟨S3x48, .f32⟩
  | .local _ .vmem, ⟨0, _⟩ => ⟨S8x600, .i32⟩
  | .local _ .vmem, ⟨1, _⟩ => ⟨S8x600, .i32⟩
  | .local _ .vmem, ⟨2, _⟩ => ⟨S8x600, .f32⟩
  | .local _ .vmem, ⟨3, _⟩ => ⟨S8x600, .f32⟩
  | .local _ .vmem, ⟨4, _⟩ => ⟨S256x192, .bf16⟩
  | .local _ .vmem, ⟨5, _⟩ => ⟨S256x192, .bf16⟩
  | .local _ .vmem, ⟨6, _⟩ => ⟨S8x600, .f32⟩
  | .local _ .vmem, ⟨7, _⟩ => ⟨S8x600, .f32⟩
  | .local _ .vmem, ⟨8, _⟩ => ⟨S8x600, .f32⟩
  | .local _ .vmem, ⟨9, _⟩ => ⟨S8x600, .f32⟩
  | .local _ .vmem, ⟨10, _⟩ => ⟨S8x600, .f32⟩
  | .local _ .vmem, ⟨11, _⟩ => ⟨S8x600, .f32⟩
  | .local _ .vmem, ⟨12, _⟩ => ⟨S8x600, .f32⟩
  | .local _ .vmem, ⟨13, _⟩ => ⟨S8x600, .f32⟩
  | .local _ .vmem, ⟨14, _⟩ => ⟨S1x600, .f32⟩
  | .local _ .vmem, ⟨15, _⟩ => ⟨S8x48, .f32⟩
  | .local _ .vmem, ⟨16, _⟩ => ⟨S8x48, .f32⟩
  | .local _ .vmem, ⟨17, _⟩ => ⟨S8x48, .f32⟩
  | .local _ .vmem, ⟨18, _⟩ => ⟨S8x48, .f32⟩
  | .local _ .vmem, ⟨19, _⟩ => ⟨S8x600x192, .f32⟩
  | .local _ .vmem, ⟨20, _⟩ => ⟨S1024x48, .f32⟩
  | .local _ .vmem, ⟨21, _⟩ => ⟨S1024x48, .f32⟩
  | .local _ .vmem, ⟨22, _⟩ => ⟨S1024x1, .f32⟩
  | .local _ .vmem, ⟨23, _⟩ => ⟨S3x48, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_c_2 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_3 : Ref sig .tc := ⟨.hbm, 54, rfl⟩
abbrev main_call2_v0 : Ref sig .tc := ⟨.hbm, 55, rfl⟩
abbrev main_v25 : Ref sig .tc := ⟨.hbm, 56, rfl⟩
abbrev main_v26 : Ref sig .tc := ⟨.hbm, 57, rfl⟩
abbrev main_call3_v0 : Ref sig .tc := ⟨.hbm, 58, rfl⟩
abbrev main_call3_v1 : Ref sig .tc := ⟨.hbm, 59, rfl⟩
abbrev main_v27 : Ref sig .tc := ⟨.hbm, 60, rfl⟩
abbrev main_v28 : Ref sig .tc := ⟨.hbm, 61, rfl⟩
abbrev main_cst_4 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_5 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_6 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41_0 : Ref sig .tc := ⟨.hbm, 77, rfl⟩
abbrev main_v41_1 : Ref sig .tc := ⟨.hbm, 78, rfl⟩
abbrev main_cst_7 : Ref sig .tc := ⟨.hbm, 79, rfl⟩
abbrev main_v42 : Ref sig .tc := ⟨.hbm, 80, rfl⟩
abbrev main_v43 : Ref sig .tc := ⟨.hbm, 81, rfl⟩
abbrev main_cst_8 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_9 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_call4_v0 : Ref sig .tc := ⟨.hbm, 94, rfl⟩
abbrev main_call4_v1 : Ref sig .tc := ⟨.hbm, 95, rfl⟩
abbrev main_v54 : Ref sig .tc := ⟨.hbm, 96, rfl⟩
abbrev main_v55 : Ref sig .tc := ⟨.hbm, 97, rfl⟩
abbrev main_cst_10 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_11 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_12 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg3_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem1_0 : DmaSem sig := 20
abbrev cc1_sem2_0 : DmaSem sig := 21
abbrev cc1_sem3_0 : DmaSem sig := 22

abbrev nD : Nat := 1
abbrev τ : Topo := Topo.v7x

variable {F : FTy → Type} [FloatOps F]

abbrev grid0 : Pipeline.Grid := ⟨2, ![128, 79], ![false, false]⟩

def k0_cond2 (i : grid0.Coords) : BitVec 1 :=
  let arg1 : BitVec 32 := BitVec.ofNat 32 (i 1).val
  let c78_i32 : BitVec 32 := 78#32
  let v40 : BitVec 1 := Scalar.cmpi .eq arg1 c78_i32
  let v41 : BitVec 32 := Scalar.extui v40
  let c0_i32_14 : BitVec 32 := 0#32
  let v42 : BitVec 1 := Scalar.cmpi .ne v41 c0_i32_14
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x600 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x600 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x600 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x48 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x48 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x48 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x48 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x48 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  slices_S20000_S1_0 : S20000.Slices ![0] S1
  shapeCasts_S1_S_ : S1.ShapeCasts S_
  slices_S20000_S1_19999 : S20000.Slices ![19999] S1
  bcast_S1024_S1024x1_0 : S1024.BroadcastsInDim S1024x1 (![0] : Fin 1 → Fin S1024x1.rank)
  bcast_S_S600 : S_.BroadcastsInDim S600 (![] : Fin 0 → Fin S600.rank)
  bcast_S600_S1x600_1 : S600.BroadcastsInDim S1x600 (![1] : Fin 1 → Fin S1x600.rank)
  bcast_S1024x1_S1024x600_0_1 : S1024x1.BroadcastsInDim S1024x600 (![0, 1] : Fin 2 → Fin S1024x600.rank)
  bcast_S1x600_S1024x600_0_1 : S1x600.BroadcastsInDim S1024x600 (![0, 1] : Fin 2 → Fin S1024x600.rank)
  bcast_S_S1024x600 : S_.BroadcastsInDim S1024x600 (![] : Fin 0 → Fin S1024x600.rank)
  concatenates_S20000x48_S20000x48_S20000x48_S20000x48_S20000x192_d1 : Shape.Concatenates [S20000x48, S20000x48, S20000x48, S20000x48] S20000x192 1
  pads_S20000x192_S20224x192_02240_000 : S20000x192.Pads (![0, 0] : Fin 2 → Nat) ![224, 0] ![0, 0] S20224x192
  h_S_ : 0 < S_.numel
  bitsLt_bf16_f32 : FTy.bits .bf16 < FTy.bits .f32
  slices_S600_S599_1 : S600.Slices ![1] S599
  slices_S600_S599_0 : S600.Slices ![0] S599
  slices_S599_S1_0 : S599.Slices ![0] S1
  bcast_S_S1 : S_.BroadcastsInDim S1 (![] : Fin 0 → Fin S1.rank)
  slices_S599_S1_598 : S599.Slices ![598] S1
  slices_S599_S598_0 : S599.Slices ![0] S598
  slices_S599_S598_1 : S599.Slices ![1] S598
  bcast_S_S598 : S_.BroadcastsInDim S598 (![] : Fin 0 → Fin S598.rank)
  concatenates_S1_S598_S1_S600_d0 : Shape.Concatenates [S1, S598, S1] S600 0
  inb_S8x600x192_S8x600x192_0_0_0 : ∀ a, (![0, 0, 0] : Fin 3 → Nat) a + S8x600x192.size a ≤ S8x600x192.size a
  h_S8x600x192 : 0 < S8x600x192.numel
  shapeCasts_S8x600x192_S8x600x192 : S8x600x192.ShapeCasts S8x600x192
  inb_S8x600_S8x600_0_0 : ∀ a, (![0, 0] : Fin 2 → Nat) a + S8x600.size a ≤ S8x600.size a
  h_S8x600 : 0 < S8x600.numel
  shapeCasts_S8x600_S8x600 : S8x600.ShapeCasts S8x600
  iota_S8x600x256_d2_w32 : S8x600x256.Iotas .tc 32 [2]
  shapeCasts_S8x600_S8x600x1 : S8x600.ShapeCasts S8x600x1
  broadcasts_S8x600x1_S8x600x256 : S8x600x1.Broadcasts S8x600x256
  shapeCasts_S8x600x1_S8x600x1 : S8x600x1.ShapeCasts S8x600x1
  inb_S256x192_S256x192_0_0 : ∀ a, (![0, 0] : Fin 2 → Nat) a + S256x192.size a ≤ S256x192.size a
  h_S256x192 : 0 < S256x192.numel
  shapeCasts_S256x192_S256x192 : S256x192.ShapeCasts S256x192
  shapeCasts_S256x192_S1x256x192 : S256x192.ShapeCasts S1x256x192
  shapeCasts_S1x256x192_S1x256x192 : S1x256x192.ShapeCasts S1x256x192
  broadcasts_S1x256x192_S8x256x192 : S1x256x192.Broadcasts S8x256x192
  slices_S8x600x192_o0_0_0_S8x600x48 : S8x600x192.Slices ![0, 0, 0] S8x600x48
  slices_S8x600x192_o0_0_48_S8x600x48 : S8x600x192.Slices ![0, 0, 48] S8x600x48
  slices_S8x600x192_o0_0_96_S8x600x48 : S8x600x192.Slices ![0, 0, 96] S8x600x48
  slices_S8x600x192_o0_0_144_S8x600x48 : S8x600x192.Slices ![0, 0, 144] S8x600x48
  inb_S1x600_S1x600_0_0 : ∀ a, (![0, 0] : Fin 2 → Nat) a + S1x600.size a ≤ S1x600.size a
  h_S1x600 : 0 < S1x600.numel
  shapeCasts_S1x600_S1x600 : S1x600.ShapeCasts S1x600
  shapeCasts_S1x600_S1x600x1 : S1x600.ShapeCasts S1x600x1
  broadcasts_S8x600x1_S8x600x48 : S8x600x1.Broadcasts S8x600x48
  broadcasts_S1x600x1_S8x600x48 : S1x600x1.Broadcasts S8x600x48
  reduces_S8x600x48_S8x48 : S8x600x48.Reduces [1] S8x48
  inb_S8x48_S8x48_0_0 : ∀ a, (![0, 0] : Fin 2 → Nat) a + S8x48.size a ≤ S8x48.size a
  h_S8x48 : 0 < S8x48.numel
  bcast_S_S1024 : S_.BroadcastsInDim S1024 (![] : Fin 0 → Fin S1024.rank)
  slices_S1024_S1023_1 : S1024.Slices ![1] S1023
  slices_S1024_S1023_0 : S1024.Slices ![0] S1023
  slices_S1023_S1_0 : S1023.Slices ![0] S1
  slices_S1023_S1_1022 : S1023.Slices ![1022] S1
  slices_S1023_S1022_0 : S1023.Slices ![0] S1022
  slices_S1023_S1022_1 : S1023.Slices ![1] S1022
  bcast_S_S1022 : S_.BroadcastsInDim S1022 (![] : Fin 0 → Fin S1022.rank)
  concatenates_S1_S1022_S1_S1024_d0 : Shape.Concatenates [S1, S1022, S1] S1024 0
  inb_S1024x48_S1024x48_0_0 : ∀ a, (![0, 0] : Fin 2 → Nat) a + S1024x48.size a ≤ S1024x48.size a
  h_S1024x48 : 0 < S1024x48.numel
  shapeCasts_S1024x48_S1024x48 : S1024x48.ShapeCasts S1024x48
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x48 : S1024x1.Broadcasts S1024x48
  reduces_S1024x48_S48 : S1024x48.Reduces [0] S48
  shapeCasts_S48_S1x48 : S48.ShapeCasts S1x48
  concatenates_S1x48_S1x48_S1x48_S3x48_d0 : Shape.Concatenates [S1x48, S1x48, S1x48] S3x48 0
  inb_S3x48_S3x48_0_0 : ∀ a, (![0, 0] : Fin 2 → Nat) a + S3x48.size a ≤ S3x48.size a
  h_S3x48 : 0 < S3x48.numel
  dot_S8x600x256_S8x256x192_S8x600x192_2_1_1_2_0_0_wf : DotDims.WF S8x600x256 S8x256x192 S8x600x192 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x600.size a ≤ S1024x600.size a
  hwx0_0 : ∀ i : grid0.Coords, EltTy.bits .i32 = 32 ∨ (Rect.block (s := S1024x600) S8x600.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x600.size a ≤ S1024x600.size a
  hwx0_1 : ∀ i : grid0.Coords, EltTy.bits .f32 = 32 ∨ (Rect.block (s := S1024x600) S8x600.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x192.size a ≤ S20224x192.size a
  hwx0_2 : ∀ i : grid0.Coords, EltTy.bits .bf16 = 32 ∨ (Rect.block (s := S20224x192) S256x192.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x600.size a ≤ S1024x600.size a
  hwx0_3 : ∀ i : grid0.Coords, EltTy.bits .f32 = 32 ∨ (Rect.block (s := S1024x600) S8x600.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x600.size a ≤ S1024x600.size a
  hwx0_4 : ∀ i : grid0.Coords, EltTy.bits .f32 = 32 ∨ (Rect.block (s := S1024x600) S8x600.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x600.size a ≤ S1024x600.size a
  hwx0_5 : ∀ i : grid0.Coords, EltTy.bits .f32 = 32 ∨ (Rect.block (s := S1024x600) S8x600.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x600.size a ≤ S1024x600.size a
  hwx0_6 : ∀ i : grid0.Coords, EltTy.bits .f32 = 32 ∨ (Rect.block (s := S1024x600) S8x600.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x600.size a ≤ S1x600.size a
  hwx0_7 : ∀ i : grid0.Coords, EltTy.bits .f32 = 32 ∨ (Rect.block (s := S1x600) S1x600.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x48.size a ≤ S1024x48.size a
  hwx0_8 : ∀ i : grid0.Coords, EltTy.bits .f32 = 32 ∨ (Rect.block (s := S1024x48) S8x48.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x48.size a ≤ S1024x48.size a
  hwx0_9 : ∀ i : grid0.Coords, EltTy.bits .f32 = 32 ∨ (Rect.block (s := S1024x48) S8x48.size (cc0_transform_9 i) (hinb0_9 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x48.size a ≤ S1024x48.size a
  hwx1_0 : ∀ i : grid1.Coords, EltTy.bits .f32 = 32 ∨ (Rect.block (s := S1024x48) S1024x48.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x48.size a ≤ S1024x48.size a
  hwx1_1 : ∀ i : grid1.Coords, EltTy.bits .f32 = 32 ∨ (Rect.block (s := S1024x48) S1024x48.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S1024x1.size a
  hwx1_2 : ∀ i : grid1.Coords, EltTy.bits .f32 = 32 ∨ (Rect.block (s := S1024x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x48.size a ≤ S3x48.size a
  hwx1_3 : ∀ i : grid1.Coords, EltTy.bits .f32 = 32 ∨ (Rect.block (s := S3x48) S3x48.size (cc1_transform_3 i) (hinb1_3 i)).WholeWords (EltTy.packing .f32)

variable [Facts₀]

def dot_S8x600x256_S8x256x192_S8x600x192_2_1_1_2_0_0 : DotDims S8x600x256 S8x256x192 S8x600x192 where
  lhsContracting := [2]
  rhsContracting := [1]
  lhsNonContracting := [1]
  rhsNonContracting := [2]
  lhsBatch := [0]
  rhsBatch := [0]
  wf := dot_S8x600x256_S8x256x192_S8x600x192_2_1_1_2_0_0_wf

abbrev win0_0 : Pipeline.Window sig grid0 :=
  Pipeline.Window.ofSpec (Memref.whole main_v21) S8x600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S8x600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S256x192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x600.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x600.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x600.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8x600.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v40) S1x600.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41_0) S8x48.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v41_1) S8x48.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

abbrev win1_0 : Pipeline.Window sig grid1 :=
  Pipeline.Window.ofSpec (Memref.whole main_v41_0) S1024x48.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v41_1) S1024x48.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v70) S1024x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v71) S3x48.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024 : Shape := ⟨1, ![1024]⟩
abbrev S600 : Shape := ⟨1, ![600]⟩
abbrev S_ : Shape := ⟨0, ![]⟩
abbrev S1024x600 : Shape := ⟨2, ![1024, 600]⟩
abbrev S20000 : Shape := ⟨1, ![20000]⟩
abbrev S20000x48 : Shape := ⟨2, ![20000, 48]⟩
abbrev S1 : Shape := ⟨1, ![1]⟩
abbrev S1024x1 : Shape := ⟨2, ![1024, 1]⟩
abbrev S1x600 : Shape := ⟨2, ![1, 600]⟩
abbrev S1024x600x1 : Shape := ⟨3, ![1024, 600, 1]⟩
abbrev S48x20000 : Shape := ⟨2, ![48, 20000]⟩
abbrev S48x1024x600 : Shape := ⟨3, ![48, 1024, 600]⟩
abbrev S1x1024x600 : Shape := ⟨3, ![1, 1024, 600]⟩
abbrev S599 : Shape := ⟨1, ![599]⟩
abbrev S48x1024x599 : Shape := ⟨3, ![48, 1024, 599]⟩
abbrev S1x599 : Shape := ⟨2, ![1, 599]⟩
abbrev S1x1x599 : Shape := ⟨3, ![1, 1, 599]⟩
abbrev S48x1024 : Shape := ⟨2, ![48, 1024]⟩
abbrev S1x1024 : Shape := ⟨2, ![1, 1024]⟩
abbrev S1023 : Shape := ⟨1, ![1023]⟩
abbrev S48x1023 : Shape := ⟨2, ![48, 1023]⟩
abbrev S1x1023 : Shape := ⟨2, ![1, 1023]⟩
abbrev S48 : Shape := ⟨1, ![48]⟩
abbrev S1x48 : Shape := ⟨2, ![1, 48]⟩
abbrev S3x48 : Shape := ⟨2, ![3, 48]⟩

abbrev nBuf : Space → Nat
  | .hbm => 397
  | .vmem => 0
  | .smem => 0
  | _ => 0

abbrev hbmTy0_0 (i : Nat) : BufTy := match i % 128 with
  | 0 => ⟨S1024, .f32⟩
  | 1 => ⟨S600, .f32⟩
  | 2 => ⟨S_, .f32⟩
  | 3 => ⟨S1024x600, .f32⟩
  | 4 => ⟨S1024x600, .f32⟩
  | 5 => ⟨S1024x600, .f32⟩
  | 6 => ⟨S1024x600, .f32⟩
  | 7 => ⟨S20000, .f32⟩
  | 8 => ⟨S20000x48, .f32⟩
  | 9 => ⟨S20000x48, .f32⟩
  | 10 => ⟨S20000x48, .f32⟩
  | 11 => ⟨S20000x48, .f32⟩
  | 12 => ⟨S_, .f32⟩
  | 13 => ⟨S_, .f32⟩
  | 14 => ⟨S1, .f32⟩
  | 15 => ⟨S_, .f32⟩
  | 16 => ⟨S1, .f32⟩
  | 17 => ⟨S_, .f32⟩
  | 18 => ⟨S1024x1, .f32⟩
  | 19 => ⟨S600, .f32⟩
  | 20 => ⟨S600, .f32⟩
  | 21 => ⟨S1x600, .f32⟩
  | 22 => ⟨S1024x600, .f32⟩
  | 23 => ⟨S1024x600, .f32⟩
  | 24 => ⟨S1024x600, .f32⟩
  | 25 => ⟨S1024x600, .f32⟩
  | 26 => ⟨S1024x600, .f32⟩
  | 27 => ⟨S_, .f32⟩
  | 28 => ⟨S1024x600, .f32⟩
  | 29 => ⟨S1024x600, .f32⟩
  | 30 => ⟨S_, .f32⟩
  | 31 => ⟨S1024x600, .f32⟩
  | 32 => ⟨S1024x600, .f32⟩
  | 33 => ⟨S_, .f32⟩
  | 34 => ⟨S_, .f32⟩
  | 35 => ⟨S_, .f32⟩
  | 36 => ⟨S1024x600, .f32⟩
  | 37 => ⟨S1024x600, .f32⟩
  | 38 => ⟨S_, .f32⟩
  | 39 => ⟨S1024x600, .f32⟩
  | 40 => ⟨S1024x600, .f32⟩
  | 41 => ⟨S1024x600, .f32⟩
  | 42 => ⟨S1024x600, .i32⟩
  | 43 => ⟨S_, .i32⟩
  | 44 => ⟨S_, .i32⟩
  | 45 => ⟨S_, .i32⟩
  | 46 => ⟨S1024x600, .i32⟩
  | 47 => ⟨S1024x600, .i32⟩
  | 48 => ⟨S_, .i32⟩
  | 49 => ⟨S1024x600, .i32⟩
  | 50 => ⟨S1024x600, .i32⟩
  | 51 => ⟨S1024x600, .f32⟩
  | 52 => ⟨S1024x600, .f32⟩
  | 53 => ⟨S_, .i32⟩
  | 54 => ⟨S1024x600, .i32⟩
  | 55 => ⟨S1024x600, .i1⟩
  | 56 => ⟨S_, .i32⟩
  | 57 => ⟨S1024x600, .i32⟩
  | 58 => ⟨S1024x600, .i32⟩
  | 59 => ⟨S1024x600, .i32⟩
  | 60 => ⟨S1024x600x1, .i32⟩
  | 61 => ⟨S48x20000, .f32⟩
  | 62 => ⟨S48x1024x600, .f32⟩
  | 63 => ⟨S_, .f32⟩
  | 64 => ⟨S1024x600, .f32⟩
  | 65 => ⟨S1024x600, .f32⟩
  | 66 => ⟨S1x1024x600, .f32⟩
  | 67 => ⟨S48x1024x600, .f32⟩
  | 68 => ⟨S48x1024x600, .f32⟩
  | 69 => ⟨S_, .i32⟩
  | 70 => ⟨S1024x600, .i32⟩
  | 71 => ⟨S1024x600, .i32⟩
  | 72 => ⟨S_, .i32⟩
  | 73 => ⟨S1024x600, .i32⟩
  | 74 => ⟨S1024x600, .i1⟩
  | 75 => ⟨S_, .i32⟩
  | 76 => ⟨S1024x600, .i32⟩
  | 77 => ⟨S1024x600, .i32⟩
  | 78 => ⟨S1024x600, .i32⟩
  | 79 => ⟨S1024x600x1, .i32⟩
  | 80 => ⟨S48x20000, .f32⟩
  | 81 => ⟨S48x1024x600, .f32⟩
  | 82 => ⟨S1x1024x600, .f32⟩
  | 83 => ⟨S48x1024x600, .f32⟩
  | 84 => ⟨S48x1024x600, .f32⟩
  | 85 => ⟨S48x1024x600, .f32⟩
  | 86 => ⟨S1x1024x600, .f32⟩
  | 87 => ⟨S48x1024x600, .f32⟩
  | 88 => ⟨S48x1024x600, .f32⟩
  | 89 => ⟨S1024x600, .f32⟩
  | 90 => ⟨S1024x600, .f32⟩
  | 91 => ⟨S_, .f32⟩
  | 92 => ⟨S1024x600, .f32⟩
  | 93 => ⟨S1024x600, .f32⟩
  | 94 => ⟨S_, .f32⟩
  | 95 => ⟨S1024x600, .f32⟩
  | 96 => ⟨S1024x600, .f32⟩
  | 97 => ⟨S_, .f32⟩
  | 98 => ⟨S_, .f32⟩
  | 99 => ⟨S_, .f32⟩
  | 100 => ⟨S1024x600, .f32⟩
  | 101 => ⟨S1024x600, .f32⟩
  | 102 => ⟨S_, .f32⟩
  | 103 => ⟨S1024x600, .f32⟩
  | 104 => ⟨S1024x600, .f32⟩
  | 105 => ⟨S1024x600, .f32⟩
  | 106 => ⟨S1024x600, .i32⟩
  | 107 => ⟨S_, .i32⟩
  | 108 => ⟨S_, .i32⟩
  | 109 => ⟨S_, .i32⟩
  | 110 => ⟨S1024x600, .i32⟩
  | 111 => ⟨S1024x600, .i32⟩
  | 112 => ⟨S_, .i32⟩
  | 113 => ⟨S1024x600, .i32⟩
  | 114 => ⟨S1024x600, .i32⟩
  | 115 => ⟨S1024x600, .f32⟩
  | 116 => ⟨S1024x600, .f32⟩
  | 117 => ⟨S_, .i32⟩
  | 118 => ⟨S1024x600, .i32⟩
  | 119 => ⟨S1024x600, .i1⟩
  | 120 => ⟨S_, .i32⟩
  | 121 => ⟨S1024x600, .i32⟩
  | 122 => ⟨S1024x600, .i32⟩
  | 123 => ⟨S1024x600, .i32⟩
  | 124 => ⟨S1024x600x1, .i32⟩
  | 125 => ⟨S48x20000, .f32⟩
  | 126 => ⟨S48x1024x600, .f32⟩
  | 127 => ⟨S_, .f32⟩
  | _ => ⟨S1024, .f32⟩

abbrev hbmTy0_1 (i : Nat) : BufTy := match i % 128 with
  | 0 => ⟨S1024x600, .f32⟩
  | 1 => ⟨S1024x600, .f32⟩
  | 2 => ⟨S1x1024x600, .f32⟩
  | 3 => ⟨S48x1024x600, .f32⟩
  | 4 => ⟨S48x1024x600, .f32⟩
  | 5 => ⟨S_, .i32⟩
  | 6 => ⟨S1024x600, .i32⟩
  | 7 => ⟨S1024x600, .i32⟩
  | 8 => ⟨S_, .i32⟩
  | 9 => ⟨S1024x600, .i32⟩
  | 10 => ⟨S1024x600, .i1⟩
  | 11 => ⟨S_, .i32⟩
  | 12 => ⟨S1024x600, .i32⟩
  | 13 => ⟨S1024x600, .i32⟩
  | 14 => ⟨S1024x600, .i32⟩
  | 15 => ⟨S1024x600x1, .i32⟩
  | 16 => ⟨S48x20000, .f32⟩
  | 17 => ⟨S48x1024x600, .f32⟩
  | 18 => ⟨S1x1024x600, .f32⟩
  | 19 => ⟨S48x1024x600, .f32⟩
  | 20 => ⟨S48x1024x600, .f32⟩
  | 21 => ⟨S48x1024x600, .f32⟩
  | 22 => ⟨S1x1024x600, .f32⟩
  | 23 => ⟨S48x1024x600, .f32⟩
  | 24 => ⟨S48x1024x600, .f32⟩
  | 25 => ⟨S48x1024x600, .f32⟩
  | 26 => ⟨S1024x600, .f32⟩
  | 27 => ⟨S1024x600, .f32⟩
  | 28 => ⟨S_, .f32⟩
  | 29 => ⟨S1024x600, .f32⟩
  | 30 => ⟨S1024x600, .f32⟩
  | 31 => ⟨S_, .f32⟩
  | 32 => ⟨S1024x600, .f32⟩
  | 33 => ⟨S1024x600, .f32⟩
  | 34 => ⟨S_, .f32⟩
  | 35 => ⟨S_, .f32⟩
  | 36 => ⟨S_, .f32⟩
  | 37 => ⟨S1024x600, .f32⟩
  | 38 => ⟨S1024x600, .f32⟩
  | 39 => ⟨S_, .f32⟩
  | 40 => ⟨S1024x600, .f32⟩
  | 41 => ⟨S1024x600, .f32⟩
  | 42 => ⟨S1024x600, .f32⟩
  | 43 => ⟨S1024x600, .i32⟩
  | 44 => ⟨S_, .i32⟩
  | 45 => ⟨S_, .i32⟩
  | 46 => ⟨S_, .i32⟩
  | 47 => ⟨S1024x600, .i32⟩
  | 48 => ⟨S1024x600, .i32⟩
  | 49 => ⟨S_, .i32⟩
  | 50 => ⟨S1024x600, .i32⟩
  | 51 => ⟨S1024x600, .i32⟩
  | 52 => ⟨S1024x600, .f32⟩
  | 53 => ⟨S1024x600, .f32⟩
  | 54 => ⟨S_, .i32⟩
  | 55 => ⟨S1024x600, .i32⟩
  | 56 => ⟨S1024x600, .i1⟩
  | 57 => ⟨S_, .i32⟩
  | 58 => ⟨S1024x600, .i32⟩
  | 59 => ⟨S1024x600, .i32⟩
  | 60 => ⟨S1024x600, .i32⟩
  | 61 => ⟨S1024x600x1, .i32⟩
  | 62 => ⟨S48x20000, .f32⟩
  | 63 => ⟨S48x1024x600, .f32⟩
  | 64 => ⟨S_, .f32⟩
  | 65 => ⟨S1024x600, .f32⟩
  | 66 => ⟨S1024x600, .f32⟩
  | 67 => ⟨S1x1024x600, .f32⟩
  | 68 => ⟨S48x1024x600, .f32⟩
  | 69 => ⟨S48x1024x600, .f32⟩
  | 70 => ⟨S_, .i32⟩
  | 71 => ⟨S1024x600, .i32⟩
  | 72 => ⟨S1024x600, .i32⟩
  | 73 => ⟨S_, .i32⟩
  | 74 => ⟨S1024x600, .i32⟩
  | 75 => ⟨S1024x600, .i1⟩
  | 76 => ⟨S_, .i32⟩
  | 77 => ⟨S1024x600, .i32⟩
  | 78 => ⟨S1024x600, .i32⟩
  | 79 => ⟨S1024x600, .i32⟩
  | 80 => ⟨S1024x600x1, .i32⟩
  | 81 => ⟨S48x20000, .f32⟩
  | 82 => ⟨S48x1024x600, .f32⟩
  | 83 => ⟨S1x1024x600, .f32⟩
  | 84 => ⟨S48x1024x600, .f32⟩
  | 85 => ⟨S48x1024x600, .f32⟩
  | 86 => ⟨S48x1024x600, .f32⟩
  | 87 => ⟨S1x1024x600, .f32⟩
  | 88 => ⟨S48x1024x600, .f32⟩
  | 89 => ⟨S48x1024x600, .f32⟩
  | 90 => ⟨S48x1024x600, .f32⟩
  | 91 => ⟨S599, .f32⟩
  | 92 => ⟨S599, .f32⟩
  | 93 => ⟨S599, .f32⟩
  | 94 => ⟨S48x1024x599, .f32⟩
  | 95 => ⟨S48x1024x599, .f32⟩
  | 96 => ⟨S48x1024x599, .f32⟩
  | 97 => ⟨S1x599, .f32⟩
  | 98 => ⟨S1x1x599, .f32⟩
  | 99 => ⟨S48x1024x599, .f32⟩
  | 100 => ⟨S48x1024x599, .f32⟩
  | 101 => ⟨S_, .f32⟩
  | 102 => ⟨S48x1024, .f32⟩
  | 103 => ⟨S_, .f32⟩
  | 104 => ⟨S48x1024, .f32⟩
  | 105 => ⟨S48x1024, .f32⟩
  | 106 => ⟨S1024x600, .f32⟩
  | 107 => ⟨S1024x600, .f32⟩
  | 108 => ⟨S_, .f32⟩
  | 109 => ⟨S1024x600, .f32⟩
  | 110 => ⟨S1024x600, .f32⟩
  | 111 => ⟨S_, .f32⟩
  | 112 => ⟨S1024x600, .f32⟩
  | 113 => ⟨S1024x600, .f32⟩
  | 114 => ⟨S_, .f32⟩
  | 115 => ⟨S_, .f32⟩
  | 116 => ⟨S_, .f32⟩
  | 117 => ⟨S1024x600, .f32⟩
  | 118 => ⟨S1024x600, .f32⟩
  | 119 => ⟨S_, .f32⟩
  | 120 => ⟨S1024x600, .f32⟩
  | 121 => ⟨S1024x600, .f32⟩
  | 122 => ⟨S1024x600, .f32⟩
  | 123 => ⟨S1024x600, .i32⟩
  | 124 => ⟨S_, .i32⟩
  | 125 => ⟨S_, .i32⟩
  | 126 => ⟨S_, .i32⟩
  | 127 => ⟨S1024x600, .i32⟩
  | _ => ⟨S1024, .f32⟩

abbrev hbmTy0_2 (i : Nat) : BufTy := match i % 128 with
  | 0 => ⟨S1024x600, .i32⟩
  | 1 => ⟨S_, .i32⟩
  | 2 => ⟨S1024x600, .i32⟩
  | 3 => ⟨S1024x600, .i32⟩
  | 4 => ⟨S1024x600, .f32⟩
  | 5 => ⟨S1024x600, .f32⟩
  | 6 => ⟨S_, .i32⟩
  | 7 => ⟨S1024x600, .i32⟩
  | 8 => ⟨S1024x600, .i1⟩
  | 9 => ⟨S_, .i32⟩
  | 10 => ⟨S1024x600, .i32⟩
  | 11 => ⟨S1024x600, .i32⟩
  | 12 => ⟨S1024x600, .i32⟩
  | 13 => ⟨S1024x600x1, .i32⟩
  | 14 => ⟨S48x20000, .f32⟩
  | 15 => ⟨S48x1024x600, .f32⟩
  | 16 => ⟨S_, .f32⟩
  | 17 => ⟨S1024x600, .f32⟩
  | 18 => ⟨S1024x600, .f32⟩
  | 19 => ⟨S1x1024x600, .f32⟩
  | 20 => ⟨S48x1024x600, .f32⟩
  | 21 => ⟨S48x1024x600, .f32⟩
  | 22 => ⟨S_, .i32⟩
  | 23 => ⟨S1024x600, .i32⟩
  | 24 => ⟨S1024x600, .i32⟩
  | 25 => ⟨S_, .i32⟩
  | 26 => ⟨S1024x600, .i32⟩
  | 27 => ⟨S1024x600, .i1⟩
  | 28 => ⟨S_, .i32⟩
  | 29 => ⟨S1024x600, .i32⟩
  | 30 => ⟨S1024x600, .i32⟩
  | 31 => ⟨S1024x600, .i32⟩
  | 32 => ⟨S1024x600x1, .i32⟩
  | 33 => ⟨S48x20000, .f32⟩
  | 34 => ⟨S48x1024x600, .f32⟩
  | 35 => ⟨S1x1024x600, .f32⟩
  | 36 => ⟨S48x1024x600, .f32⟩
  | 37 => ⟨S48x1024x600, .f32⟩
  | 38 => ⟨S48x1024x600, .f32⟩
  | 39 => ⟨S1x1024x600, .f32⟩
  | 40 => ⟨S48x1024x600, .f32⟩
  | 41 => ⟨S48x1024x600, .f32⟩
  | 42 => ⟨S599, .f32⟩
  | 43 => ⟨S599, .f32⟩
  | 44 => ⟨S599, .f32⟩
  | 45 => ⟨S48x1024x599, .f32⟩
  | 46 => ⟨S48x1024x599, .f32⟩
  | 47 => ⟨S48x1024x599, .f32⟩
  | 48 => ⟨S1x599, .f32⟩
  | 49 => ⟨S1x1x599, .f32⟩
  | 50 => ⟨S48x1024x599, .f32⟩
  | 51 => ⟨S48x1024x599, .f32⟩
  | 52 => ⟨S_, .f32⟩
  | 53 => ⟨S48x1024, .f32⟩
  | 54 => ⟨S_, .f32⟩
  | 55 => ⟨S48x1024, .f32⟩
  | 56 => ⟨S48x1024, .f32⟩
  | 57 => ⟨S_, .f32⟩
  | 58 => ⟨S1024, .f32⟩
  | 59 => ⟨S1024, .f32⟩
  | 60 => ⟨S_, .f32⟩
  | 61 => ⟨S_, .f32⟩
  | 62 => ⟨S1024, .f32⟩
  | 63 => ⟨S1024, .f32⟩
  | 64 => ⟨S1024, .f32⟩
  | 65 => ⟨S1024, .f32⟩
  | 66 => ⟨S1024, .f32⟩
  | 67 => ⟨S1024, .f32⟩
  | 68 => ⟨S_, .f32⟩
  | 69 => ⟨S1024, .f32⟩
  | 70 => ⟨S1024, .f32⟩
  | 71 => ⟨S1024, .f32⟩
  | 72 => ⟨S1024, .f32⟩
  | 73 => ⟨S1024, .f32⟩
  | 74 => ⟨S1x1024, .f32⟩
  | 75 => ⟨S48x1024, .f32⟩
  | 76 => ⟨S48x1024, .f32⟩
  | 77 => ⟨S48x1024, .f32⟩
  | 78 => ⟨S1023, .f32⟩
  | 79 => ⟨S1023, .f32⟩
  | 80 => ⟨S1023, .f32⟩
  | 81 => ⟨S48x1023, .f32⟩
  | 82 => ⟨S48x1023, .f32⟩
  | 83 => ⟨S48x1023, .f32⟩
  | 84 => ⟨S1x1023, .f32⟩
  | 85 => ⟨S48x1023, .f32⟩
  | 86 => ⟨S48x1023, .f32⟩
  | 87 => ⟨S_, .f32⟩
  | 88 => ⟨S48, .f32⟩
  | 89 => ⟨S_, .f32⟩
  | 90 => ⟨S48, .f32⟩
  | 91 => ⟨S48, .f32⟩
  | 92 => ⟨S_, .f32⟩
  | 93 => ⟨S48, .f32⟩
  | 94 => ⟨S48, .f32⟩
  | 95 => ⟨S1x1024, .f32⟩
  | 96 => ⟨S48x1024, .f32⟩
  | 97 => ⟨S48x1024, .f32⟩
  | 98 => ⟨S48x1024, .f32⟩
  | 99 => ⟨S1023, .f32⟩
  | 100 => ⟨S1023, .f32⟩
  | 101 => ⟨S1023, .f32⟩
  | 102 => ⟨S48x1023, .f32⟩
  | 103 => ⟨S48x1023, .f32⟩
  | 104 => ⟨S48x1023, .f32⟩
  | 105 => ⟨S1x1023, .f32⟩
  | 106 => ⟨S48x1023, .f32⟩
  | 107 => ⟨S48x1023, .f32⟩
  | 108 => ⟨S_, .f32⟩
  | 109 => ⟨S48, .f32⟩
  | 110 => ⟨S_, .f32⟩
  | 111 => ⟨S48, .f32⟩
  | 112 => ⟨S48, .f32⟩
  | 113 => ⟨S_, .f32⟩
  | 114 => ⟨S48, .f32⟩
  | 115 => ⟨S48, .f32⟩
  | 116 => ⟨S1x1024, .f32⟩
  | 117 => ⟨S48x1024, .f32⟩
  | 118 => ⟨S48x1024, .f32⟩
  | 119 => ⟨S48x1024, .f32⟩
  | 120 => ⟨S1023, .f32⟩
  | 121 => ⟨S1023, .f32⟩
  | 122 => ⟨S1023, .f32⟩
  | 123 => ⟨S48x1023, .f32⟩
  | 124 => ⟨S48x1023, .f32⟩
  | 125 => ⟨S48x1023, .f32⟩
  | 126 => ⟨S1x1023, .f32⟩
  | 127 => ⟨S48x1023, .f32⟩
  | _ => ⟨S1024, .f32⟩

abbrev hbmTy0_3 (i : Nat) : BufTy := match i % 128 with
  | 0 => ⟨S48x1023, .f32⟩
  | 1 => ⟨S_, .f32⟩
  | 2 => ⟨S48, .f32⟩
  | 3 => ⟨S_, .f32⟩
  | 4 => ⟨S48, .f32⟩
  | 5 => ⟨S48, .f32⟩
  | 6 => ⟨S_, .f32⟩
  | 7 => ⟨S48, .f32⟩
  | 8 => ⟨S48, .f32⟩
  | 9 => ⟨S1x48, .f32⟩
  | 10 => ⟨S1x48, .f32⟩
  | 11 => ⟨S1x48, .f32⟩
  | 12 => ⟨S3x48, .f32⟩
  | _ => ⟨S1024, .f32⟩

abbrev hbmTy (i : Nat) : BufTy := match i / 128 with
  | 0 => hbmTy0_0 i
  | 1 => hbmTy0_1 i
  | 2 => hbmTy0_2 i
  | 3 => hbmTy0_3 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_c_2 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_3 : Ref sig .tc := ⟨.hbm, 53, rfl⟩
abbrev main_v24 : Ref sig .tc := ⟨.hbm, 54, rfl⟩
abbrev main_v25 : Ref sig .tc := ⟨.hbm, 55, rfl⟩
abbrev main_c_4 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_5 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_c_6 : Ref sig .tc := ⟨.hbm, 69, rfl⟩
abbrev main_v37 : Ref sig .tc := ⟨.hbm, 70, rfl⟩
abbrev main_v38 : Ref sig .tc := ⟨.hbm, 71, rfl⟩
abbrev main_c_7 : Ref sig .tc := ⟨.hbm, 72, rfl⟩
abbrev main_v39 : Ref sig .tc := ⟨.hbm, 73, rfl⟩
abbrev main_v40 : Ref sig .tc := ⟨.hbm, 74, rfl⟩
abbrev main_c_8 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_9 : Ref sig .tc := ⟨.hbm, 94, rfl⟩
abbrev main_v59 : Ref sig .tc := ⟨.hbm, 95, rfl⟩
abbrev main_v60 : Ref sig .tc := ⟨.hbm, 96, rfl⟩
abbrev main_cst_10 : Ref sig .tc := ⟨.hbm, 97, rfl⟩
abbrev main_cst_11 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_c_12 : Ref sig .tc := ⟨.hbm, 107, rfl⟩
abbrev main_c_13 : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_c_14 : Ref sig .tc := ⟨.hbm, 117, rfl⟩
abbrev main_v67 : Ref sig .tc := ⟨.hbm, 118, rfl⟩
abbrev main_v68 : Ref sig .tc := ⟨.hbm, 119, rfl⟩
abbrev main_c_15 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_cst_16 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_c_17 : Ref sig .tc := ⟨.hbm, 133, rfl⟩
abbrev main_v80 : Ref sig .tc := ⟨.hbm, 134, rfl⟩
abbrev main_v81 : Ref sig .tc := ⟨.hbm, 135, rfl⟩
abbrev main_c_18 : Ref sig .tc := ⟨.hbm, 136, rfl⟩
abbrev main_v82 : Ref sig .tc := ⟨.hbm, 137, rfl⟩
abbrev main_v83 : Ref sig .tc := ⟨.hbm, 138, rfl⟩
abbrev main_c_19 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_cst_20 : Ref sig .tc := ⟨.hbm, 159, rfl⟩
abbrev main_v103 : Ref sig .tc := ⟨.hbm, 160, rfl⟩
abbrev main_v104 : Ref sig .tc := ⟨.hbm, 161, rfl⟩
abbrev main_cst_21 : Ref sig .tc := ⟨.hbm, 162, rfl⟩
abbrev main_cst_22 : Ref sig .tc := ⟨.hbm, 163, rfl⟩
abbrev main_call4_v0 : Ref sig .tc := ⟨.hbm, 164, rfl⟩
abbrev main_call4_v1 : Ref sig .tc := ⟨.hbm, 165, rfl⟩
abbrev main_call4_v2 : Ref sig .tc := ⟨.hbm, 166, rfl⟩
abbrev main_call4_v3 : Ref sig .tc := ⟨.hbm, 167, rfl⟩
abbrev main_call4_v4 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_c_23 : Ref sig .tc := ⟨.hbm, 172, rfl⟩
abbrev main_c_24 : Ref sig .tc := ⟨.hbm, 173, rfl⟩
abbrev main_call5_v0 : Ref sig .tc := ⟨.hbm, 174, rfl⟩
abbrev main_call5_v1 : Ref sig .tc := ⟨.hbm, 175, rfl⟩
abbrev main_call5_v2 : Ref sig .tc := ⟨.hbm, 176, rfl⟩
abbrev main_call5_v3 : Ref sig .tc := ⟨.hbm, 177, rfl⟩
abbrev main_call5_v4 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_c_25 : Ref sig .tc := ⟨.hbm, 182, rfl⟩
abbrev main_v111 : Ref sig .tc := ⟨.hbm, 183, rfl⟩
abbrev main_v112 : Ref sig .tc := ⟨.hbm, 184, rfl⟩
abbrev main_c_26 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_cst_27 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_c_28 : Ref sig .tc := ⟨.hbm, 198, rfl⟩
abbrev main_v124 : Ref sig .tc := ⟨.hbm, 199, rfl⟩
abbrev main_v125 : Ref sig .tc := ⟨.hbm, 200, rfl⟩
abbrev main_c_29 : Ref sig .tc := ⟨.hbm, 201, rfl⟩
abbrev main_v126 : Ref sig .tc := ⟨.hbm, 202, rfl⟩
abbrev main_v127 : Ref sig .tc := ⟨.hbm, 203, rfl⟩
abbrev main_c_30 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_call6_call0_v0 : Ref sig .tc := ⟨.hbm, 219, rfl⟩
abbrev main_call6_call0_v1 : Ref sig .tc := ⟨.hbm, 220, rfl⟩
abbrev main_call6_v0 : Ref sig .tc := ⟨.hbm, 221, rfl⟩
abbrev main_call6_v1 : Ref sig .tc := ⟨.hbm, 222, rfl⟩
abbrev main_call6_v2 : Ref sig .tc := ⟨.hbm, 223, rfl⟩
abbrev main_call6_v3 : Ref sig .tc := ⟨.hbm, 224, rfl⟩
abbrev main_call6_v4 : Ref sig .tc := ⟨.hbm, 225, rfl⟩
abbrev main_call6_v5 : Ref sig .tc := ⟨.hbm, 226, rfl⟩
abbrev main_call6_v6 : Ref sig .tc := ⟨.hbm, 227, rfl⟩
abbrev main_call6_v7 : Ref sig .tc := ⟨.hbm, 228, rfl⟩
abbrev main_call6_cst : Ref sig .tc := ⟨.hbm, 229, rfl⟩
abbrev main_call6_v8 : Ref sig .tc := ⟨.hbm, 230, rfl⟩
abbrev main_call6_cst_0 : Ref sig .tc := ⟨.hbm, 231, rfl⟩
abbrev main_call6_v9 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_cst_31 : Ref sig .tc := ⟨.hbm, 239, rfl⟩
abbrev main_v148 : Ref sig .tc := ⟨.hbm, 240, rfl⟩
abbrev main_v149 : Ref sig .tc := ⟨.hbm, 241, rfl⟩
abbrev main_cst_32 : Ref sig .tc := ⟨.hbm, 242, rfl⟩
abbrev main_cst_33 : Ref sig .tc := ⟨.hbm, 243, rfl⟩
abbrev main_call7_v0 : Ref sig .tc := ⟨.hbm, 244, rfl⟩
abbrev main_call7_v1 : Ref sig .tc := ⟨.hbm, 245, rfl⟩
abbrev main_call7_v2 : Ref sig .tc := ⟨.hbm, 246, rfl⟩
abbrev main_call7_v3 : Ref sig .tc := ⟨.hbm, 247, rfl⟩
abbrev main_call7_v4 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_c_34 : Ref sig .tc := ⟨.hbm, 252, rfl⟩
abbrev main_c_35 : Ref sig .tc := ⟨.hbm, 253, rfl⟩
abbrev main_call8_v0 : Ref sig .tc := ⟨.hbm, 254, rfl⟩
abbrev main_call8_v1 : Ref sig .tc := ⟨.hbm, 255, rfl⟩
abbrev main_call8_v2 : Ref sig .tc := ⟨.hbm, 256, rfl⟩
abbrev main_call8_v3 : Ref sig .tc := ⟨.hbm, 257, rfl⟩
abbrev main_call8_v4 : Ref sig .tc := ⟨.hbm, 258, rfl⟩
abbrev main_v153 : Ref sig .tc := ⟨.hbm, 259, rfl⟩
abbrev main_v154 : Ref sig .tc := ⟨.hbm, 260, rfl⟩
abbrev main_v155 : Ref sig .tc := ⟨.hbm, 261, rfl⟩
abbrev main_c_36 : Ref sig .tc := ⟨.hbm, 262, rfl⟩
abbrev main_v156 : Ref sig .tc := ⟨.hbm, 263, rfl⟩
abbrev main_v157 : Ref sig .tc := ⟨.hbm, 264, rfl⟩
abbrev main_c_37 : Ref sig .tc := ⟨.hbm, 265, rfl⟩
abbrev main_v158 : Ref sig .tc := ⟨.hbm, 266, rfl⟩
abbrev main_v159 : Ref sig .tc := ⟨.hbm, 267, rfl⟩
abbrev main_v160 : Ref sig .tc := ⟨.hbm, 268, rfl⟩
abbrev main_v161 : Ref sig .tc := ⟨.hbm, 269, rfl⟩
abbrev main_v162 : Ref sig .tc := ⟨.hbm, 270, rfl⟩
abbrev main_v163 : Ref sig .tc := ⟨.hbm, 271, rfl⟩
abbrev main_cst_38 : Ref sig .tc := ⟨.hbm, 272, rfl⟩
abbrev main_v164 : Ref sig .tc := ⟨.hbm, 273, rfl⟩
abbrev main_v165 : Ref sig .tc := ⟨.hbm, 274, rfl⟩
abbrev main_v166 : Ref sig .tc := ⟨.hbm, 275, rfl⟩
abbrev main_v167 : Ref sig .tc := ⟨.hbm, 276, rfl⟩
abbrev main_v168 : Ref sig .tc := ⟨.hbm, 277, rfl⟩
abbrev main_c_39 : Ref sig .tc := ⟨.hbm, 278, rfl⟩
abbrev main_v169 : Ref sig .tc := ⟨.hbm, 279, rfl⟩
abbrev main_v170 : Ref sig .tc := ⟨.hbm, 280, rfl⟩
abbrev main_c_40 : Ref sig .tc := ⟨.hbm, 281, rfl⟩
abbrev main_v171 : Ref sig .tc := ⟨.hbm, 282, rfl⟩
abbrev main_v172 : Ref sig .tc := ⟨.hbm, 283, rfl⟩
abbrev main_c_41 : Ref sig .tc := ⟨.hbm, 284, rfl⟩
abbrev main_v173 : Ref sig .tc := ⟨.hbm, 285, rfl⟩
abbrev main_v174 : Ref sig .tc := ⟨.hbm, 286, rfl⟩
abbrev main_v175 : Ref sig .tc := ⟨.hbm, 287, rfl⟩
abbrev main_v176 : Ref sig .tc := ⟨.hbm, 288, rfl⟩
abbrev main_v177 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_v181 : Ref sig .tc := ⟨.hbm, 293, rfl⟩
abbrev main_v182 : Ref sig .tc := ⟨.hbm, 294, rfl⟩
abbrev main_v183 : Ref sig .tc := ⟨.hbm, 295, rfl⟩
abbrev main_v184 : Ref sig .tc := ⟨.hbm, 296, rfl⟩
abbrev main_v185 : Ref sig .tc := ⟨.hbm, 297, rfl⟩
abbrev main_call9_call0_v0 : Ref sig .tc := ⟨.hbm, 298, rfl⟩
abbrev main_call9_call0_v1 : Ref sig .tc := ⟨.hbm, 299, rfl⟩
abbrev main_call9_v0 : Ref sig .tc := ⟨.hbm, 300, rfl⟩
abbrev main_call9_v1 : Ref sig .tc := ⟨.hbm, 301, rfl⟩
abbrev main_call9_v2 : Ref sig .tc := ⟨.hbm, 302, rfl⟩
abbrev main_call9_v3 : Ref sig .tc := ⟨.hbm, 303, rfl⟩
abbrev main_call9_v4 : Ref sig .tc := ⟨.hbm, 304, rfl⟩
abbrev main_call9_v5 : Ref sig .tc := ⟨.hbm, 305, rfl⟩
abbrev main_call9_v6 : Ref sig .tc := ⟨.hbm, 306, rfl⟩
abbrev main_call9_v7 : Ref sig .tc := ⟨.hbm, 307, rfl⟩
abbrev main_call9_cst : Ref sig .tc := ⟨.hbm, 308, rfl⟩
abbrev main_call9_v8 : Ref sig .tc := ⟨.hbm, 309, rfl⟩
abbrev main_call9_cst_0 : Ref sig .tc := ⟨.hbm, 310, rfl⟩
abbrev main_call9_v9 : Ref sig .tc := ⟨.hbm, 311, rfl⟩
abbrev main_v186 : Ref sig .tc := ⟨.hbm, 312, rfl⟩
abbrev main_cst_42 : Ref sig .tc := ⟨.hbm, 313, rfl⟩
abbrev main_v187 : Ref sig .tc := ⟨.hbm, 314, rfl⟩
abbrev main_v188 : Ref sig .tc := ⟨.hbm, 315, rfl⟩
abbrev main_cst_43 : Ref sig .tc := ⟨.hbm, 316, rfl⟩
abbrev main_v189 : Ref sig .tc := ⟨.hbm, 317, rfl⟩
abbrev main_v190 : Ref sig .tc := ⟨.hbm, 318, rfl⟩
abbrev main_v191 : Ref sig .tc := ⟨.hbm, 319, rfl⟩
abbrev main_v192 : Ref sig .tc := ⟨.hbm, 320, rfl⟩
abbrev main_v193 : Ref sig .tc := ⟨.hbm, 321, rfl⟩
abbrev main_v194 : Ref sig .tc := ⟨.hbm, 322, rfl⟩
abbrev main_v195 : Ref sig .tc := ⟨.hbm, 323, rfl⟩
abbrev main_cst_44 : Ref sig .tc := ⟨.hbm, 324, rfl⟩
abbrev main_v196 : Ref sig .tc := ⟨.hbm, 325, rfl⟩
abbrev main_v197 : Ref sig .tc := ⟨.hbm, 326, rfl⟩
abbrev main_v198 : Ref sig .tc := ⟨.hbm, 327, rfl⟩
abbrev main_v199 : Ref sig .tc := ⟨.hbm, 328, rfl⟩
abbrev main_v200 : Ref sig .tc := ⟨.hbm, 329, rfl⟩
abbrev main_v201 : Ref sig .tc := ⟨.hbm, 330, rfl⟩
abbrev main_v202 : Ref sig .tc := ⟨.hbm, 331, rfl⟩
abbrev main_v203 : Ref sig .tc := ⟨.hbm, 332, rfl⟩
abbrev main_v204 : Ref sig .tc := ⟨.hbm, 333, rfl⟩
abbrev main_call10_call0_v0 : Ref sig .tc := ⟨.hbm, 334, rfl⟩
abbrev main_call10_call0_v1 : Ref sig .tc := ⟨.hbm, 335, rfl⟩
abbrev main_call10_v0 : Ref sig .tc := ⟨.hbm, 336, rfl⟩
abbrev main_call10_v1 : Ref sig .tc := ⟨.hbm, 337, rfl⟩
abbrev main_call10_v2 : Ref sig .tc := ⟨.hbm, 338, rfl⟩
abbrev main_call10_v3 : Ref sig .tc := ⟨.hbm, 339, rfl⟩
abbrev main_call10_v4 : Ref sig .tc := ⟨.hbm, 340, rfl⟩
abbrev main_call10_v5 : Ref sig .tc := ⟨.hbm, 341, rfl⟩
abbrev main_call10_v6 : Ref sig .tc := ⟨.hbm, 342, rfl⟩
abbrev main_call10_cst : Ref sig .tc := ⟨.hbm, 343, rfl⟩
abbrev main_call10_v7 : Ref sig .tc := ⟨.hbm, 344, rfl⟩
abbrev main_call10_cst_0 : Ref sig .tc := ⟨.hbm, 345, rfl⟩
abbrev main_call10_v8 : Ref sig .tc := ⟨.hbm, 346, rfl⟩
abbrev main_v205 : Ref sig .tc := ⟨.hbm, 347, rfl⟩
abbrev main_cst_45 : Ref sig .tc := ⟨.hbm, 348, rfl⟩
abbrev main_v206 : Ref sig .tc := ⟨.hbm, 349, rfl⟩
abbrev main_v207 : Ref sig .tc := ⟨.hbm, 350, rfl⟩
abbrev main_v208 : Ref sig .tc := ⟨.hbm, 351, rfl⟩
abbrev main_v209 : Ref sig .tc := ⟨.hbm, 352, rfl⟩
abbrev main_v210 : Ref sig .tc := ⟨.hbm, 353, rfl⟩
abbrev main_v211 : Ref sig .tc := ⟨.hbm, 354, rfl⟩
abbrev main_call11_call0_v0 : Ref sig .tc := ⟨.hbm, 355, rfl⟩
abbrev main_call11_call0_v1 : Ref sig .tc := ⟨.hbm, 356, rfl⟩
abbrev main_call11_v0 : Ref sig .tc := ⟨.hbm, 357, rfl⟩
abbrev main_call11_v1 : Ref sig .tc := ⟨.hbm, 358, rfl⟩
abbrev main_call11_v2 : Ref sig .tc := ⟨.hbm, 359, rfl⟩
abbrev main_call11_v3 : Ref sig .tc := ⟨.hbm, 360, rfl⟩
abbrev main_call11_v4 : Ref sig .tc := ⟨.hbm, 361, rfl⟩
abbrev main_call11_v5 : Ref sig .tc := ⟨.hbm, 362, rfl⟩
abbrev main_call11_v6 : Ref sig .tc := ⟨.hbm, 363, rfl⟩
abbrev main_call11_cst : Ref sig .tc := ⟨.hbm, 364, rfl⟩
abbrev main_call11_v7 : Ref sig .tc := ⟨.hbm, 365, rfl⟩
abbrev main_call11_cst_0 : Ref sig .tc := ⟨.hbm, 366, rfl⟩
abbrev main_call11_v8 : Ref sig .tc := ⟨.hbm, 367, rfl⟩
abbrev main_v212 : Ref sig .tc := ⟨.hbm, 368, rfl⟩
abbrev main_cst_46 : Ref sig .tc := ⟨.hbm, 369, rfl⟩
abbrev main_v213 : Ref sig .tc := ⟨.hbm, 370, rfl⟩
abbrev main_v214 : Ref sig .tc := ⟨.hbm, 371, rfl⟩
abbrev main_v215 : Ref sig .tc := ⟨.hbm, 372, rfl⟩
abbrev main_v216 : Ref sig .tc := ⟨.hbm, 373, rfl⟩
abbrev main_v217 : Ref sig .tc := ⟨.hbm, 374, rfl⟩
abbrev main_v218 : Ref sig .tc := ⟨.hbm, 375, rfl⟩
abbrev main_call12_call0_v0 : Ref sig .tc := ⟨.hbm, 376, rfl⟩
abbrev main_call12_call0_v1 : Ref sig .tc := ⟨.hbm, 377, rfl⟩
abbrev main_call12_v0 : Ref sig .tc := ⟨.hbm, 378, rfl⟩
abbrev main_call12_v1 : Ref sig .tc := ⟨.hbm, 379, rfl⟩
abbrev main_call12_v2 : Ref sig .tc := ⟨.hbm, 380, rfl⟩
abbrev main_call12_v3 : Ref sig .tc := ⟨.hbm, 381, rfl⟩
abbrev main_call12_v4 : Ref sig .tc := ⟨.hbm, 382, rfl⟩
abbrev main_call12_v5 : Ref sig .tc := ⟨.hbm, 383, rfl⟩
abbrev main_call12_v6 : Ref sig .tc := ⟨.hbm, 384, rfl⟩
abbrev main_call12_cst : Ref sig .tc := ⟨.hbm, 385, rfl⟩
abbrev main_call12_v7 : Ref sig .tc := ⟨.hbm, 386, rfl⟩
abbrev main_call12_cst_0 : Ref sig .tc := ⟨.hbm, 387, rfl⟩
abbrev main_call12_v8 : Ref sig .tc := ⟨.hbm, 388, rfl⟩
abbrev main_v219 : Ref sig .tc := ⟨.hbm, 389, rfl⟩
abbrev main_cst_47 : Ref sig .tc := ⟨.hbm, 390, rfl⟩
abbrev main_v220 : Ref sig .tc := ⟨.hbm, 391, rfl⟩
abbrev main_v221 : Ref sig .tc := ⟨.hbm, 392, rfl⟩
abbrev main_v222 : Ref sig .tc := ⟨.hbm, 393, rfl⟩
abbrev main_v223 : Ref sig .tc := ⟨.hbm, 394, rfl⟩
abbrev main_v224 : Ref sig .tc := ⟨.hbm, 395, rfl⟩
abbrev main_v225 : Ref sig .tc := ⟨.hbm, 396, rfl⟩

abbrev nD : Nat := 1
abbrev τ : Topo := Topo.v7x

variable {F : FTy → Type} [FloatOps F]

class Facts₀ : Prop where
  slices_S20000_S1_0 : S20000.Slices ![0] S1
  shapeCasts_S1_S_ : S1.ShapeCasts S_
  slices_S20000_S1_19999 : S20000.Slices ![19999] S1
  bcast_S1024_S1024x1_0 : S1024.BroadcastsInDim S1024x1 (![0] : Fin 1 → Fin S1024x1.rank)
  bcast_S_S600 : S_.BroadcastsInDim S600 (![] : Fin 0 → Fin S600.rank)
  bcast_S600_S1x600_1 : S600.BroadcastsInDim S1x600 (![1] : Fin 1 → Fin S1x600.rank)
  bcast_S1024x1_S1024x600_0_1 : S1024x1.BroadcastsInDim S1024x600 (![0, 1] : Fin 2 → Fin S1024x600.rank)
  bcast_S1x600_S1024x600_0_1 : S1x600.BroadcastsInDim S1024x600 (![0, 1] : Fin 2 → Fin S1024x600.rank)
  bcast_S_S1024x600 : S_.BroadcastsInDim S1024x600 (![] : Fin 0 → Fin S1024x600.rank)
  bcast_S1024x600_S1024x600x1_0_1 : S1024x600.BroadcastsInDim S1024x600x1 (![0, 1] : Fin 2 → Fin S1024x600x1.rank)
  transposes_S20000x48_S48x20000_1_0 : S20000x48.Transposes [1, 0] S48x20000
  bcast_S1024x600_S1x1024x600_1_2 : S1024x600.BroadcastsInDim S1x1024x600 (![1, 2] : Fin 2 → Fin S1x1024x600.rank)
  bcast_S1x1024x600_S48x1024x600_0_1_2 : S1x1024x600.BroadcastsInDim S48x1024x600 (![0, 1, 2] : Fin 3 → Fin S48x1024x600.rank)
  slices_S600_S599_1 : S600.Slices ![1] S599
  slices_S600_S599_0 : S600.Slices ![0] S599
  slices_S48x1024x600_S48x1024x599_0_0_1 : S48x1024x600.Slices ![0, 0, 1] S48x1024x599
  slices_S48x1024x600_S48x1024x599_0_0_0 : S48x1024x600.Slices ![0, 0, 0] S48x1024x599
  bcast_S599_S1x599_1 : S599.BroadcastsInDim S1x599 (![1] : Fin 1 → Fin S1x599.rank)
  bcast_S1x599_S1x1x599_1_2 : S1x599.BroadcastsInDim S1x1x599 (![1, 2] : Fin 2 → Fin S1x1x599.rank)
  bcast_S1x1x599_S48x1024x599_0_1_2 : S1x1x599.BroadcastsInDim S48x1024x599 (![0, 1, 2] : Fin 3 → Fin S48x1024x599.rank)
  reducesTo_S48x1024x599_S48x1024_d2 : S48x1024x599.ReducesTo [2] S48x1024
  h_S_ : 0 < S_.numel
  bcast_S_S48x1024 : S_.BroadcastsInDim S48x1024 (![] : Fin 0 → Fin S48x1024.rank)
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S48x1024_0_1 : S1x1024.BroadcastsInDim S48x1024 (![0, 1] : Fin 2 → Fin S48x1024.rank)
  slices_S1024_S1023_1 : S1024.Slices ![1] S1023
  slices_S1024_S1023_0 : S1024.Slices ![0] S1023
  slices_S48x1024_S48x1023_0_1 : S48x1024.Slices ![0, 1] S48x1023
  slices_S48x1024_S48x1023_0_0 : S48x1024.Slices ![0, 0] S48x1023
  bcast_S1023_S1x1023_1 : S1023.BroadcastsInDim S1x1023 (![1] : Fin 1 → Fin S1x1023.rank)
  bcast_S1x1023_S48x1023_0_1 : S1x1023.BroadcastsInDim S48x1023 (![0, 1] : Fin 2 → Fin S48x1023.rank)
  reducesTo_S48x1023_S48_d1 : S48x1023.ReducesTo [1] S48
  bcast_S_S48 : S_.BroadcastsInDim S48 (![] : Fin 0 → Fin S48.rank)
  bcast_S48_S1x48_1 : S48.BroadcastsInDim S1x48 (![1] : Fin 1 → Fin S1x48.rank)
  concatenates_S1x48_S1x48_S1x48_S3x48_d0 : Shape.Concatenates [S1x48, S1x48, S1x48] S3x48 0
  gather_S48x20000_S1024x600x1_S48x1024x600_0_1_n_n_1_2_481_wf : GatherDims.WF S48x20000 S1024x600x1 S48x1024x600 [0] [1] [] [1] [] 2 ![48, 1]

variable [Facts₀]

def gather_S48x20000_S1024x600x1_S48x1024x600_0_1_n_n_1_2_481 : GatherDims S48x20000 S1024x600x1 S48x1024x600 where
  offsetDims := [0]
  collapsedSliceDims := [1]
  operandBatchingDims := []
  startIndicesBatchingDims := []
  startIndexMap := [1]
  indexVectorDim := 2
  sliceSizes := ![48, 1]
  wf := gather_S48x20000_S1024x600x1_S48x1024x600_0_1_n_n_1_2_481_wf

class Facts : Prop extends Facts₀ where

variable [Facts]
-- ==== Proof.K.Reg0Defs.lean ====
import proofs.«179317_j25280177504693_1_alg».proof.Proof.Gen.Kernel.Launch
import proofs.«179317_j25280177504693_1_alg».proof.Proof.Gen.Kernel.Skeleton
import proofs.«179317_j25280177504693_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def scStep (c : Dev nD) (t : Fin cfg0.N) (s : Vec F S8x600x192 .f32) : Vec F S8x600x192 .f32 :=
  k0_pay1 (k0_pay6 (grid0.coords t) (iblk0 V c 0 t) (iblk0 V c 1 t) (iblk0 V c 2 t) s)

def scAt (c : Dev nD) : ℕ → Vec F S8x600x192 .f32
  | 0 => if h : 0 < cfg0.N then scStep V c ⟨0, h⟩ k0_pay5 else k0_pay5
  | n + 1 =>
    if h : n + 1 < cfg0.N then scStep V c ⟨n + 1, h⟩ (if (n + 1) % 79 = 0 then k0_pay5 else scAt c n)
    else k0_pay5

theorem scAt_first (c : Dev nD) (n : ℕ) (hn : n < cfg0.N) (h : n % 79 = 0) :
    scAt V c n = k0_pay1 (k0_pay6 (grid0.coords ⟨n, hn⟩) (iblk0 V c 0 ⟨n, hn⟩) (iblk0 V c 1 ⟨n, hn⟩) (iblk0 V c 2 ⟨n, hn⟩) k0_pay5) := by
  cases n with
  | zero => rw [scAt, dif_pos hn]; rfl
  | succ n => rw [scAt, dif_pos hn, if_pos h]; rfl

theorem scAt_next (c : Dev nD) (n : ℕ) (hn : n + 1 < cfg0.N) (h : (n + 1) % 79 ≠ 0) :
    scAt V c (n + 1) = k0_pay1 (k0_pay6 (grid0.coords ⟨n + 1, hn⟩) (iblk0 V c 0 ⟨n + 1, hn⟩) (iblk0 V c 1 ⟨n + 1, hn⟩) (iblk0 V c 2 ⟨n + 1, hn⟩) (scAt V c n)) := by
  rw [scAt, dif_pos hn, if_neg h]; rfl

abbrev scM0 : Memref sig .tc .vmem S8x600x192 .f32 := Memref.whole cc0_scratch0

def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f))

def Phi0 (c : Dev nD) : ℕ → sProp 𝕄
  | 0 => Pipeline.ΦA spec0 c
  | n + 1 => iprop(owns (c : Thread nD τ) scM0 fullShare (scAt V c n) ∗ rest0 (F := F) c ∗ (∃ r, prngReg c r))

theorem Phi0_zero (c : Dev nD) (n : ℕ) (hz : n = 0) : Phi0 V c n = Pipeline.ΦA spec0 c := by
  subst hz; rfl

theorem Phi0_succ (c : Dev nD) (n : ℕ) :
    Phi0 V c (n + 1) = iprop(owns (c : Thread nD τ) scM0 fullShare (scAt V c n) ∗ rest0 (F := F) c ∗ (∃ r, prngReg c r)) := rfl

theorem Phi0_pos (c : Dev nD) (n : ℕ) (hz : n ≠ 0) :
    Phi0 V c n = iprop(owns (c : Thread nD τ) scM0 fullShare (scAt V c (n - 1)) ∗ rest0 (F := F) c ∗ (∃ r, prngReg c r)) := by
  cases n with
  | zero => exact absurd rfl hz
  | succ n => rfl

theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => k0_pay3 (scAt V c t.val) (iblk0 V c 3 t) (iblk0 V c 4 t) (iblk0 V c 5 t) (iblk0 V c 7 t)
    | ⟨9, _⟩ => k0_pay4 (scAt V c t.val) (iblk0 V c 6 t) (iblk0 V c 7 t)
  Φ t := Phi0 V c t.val
  q _ := fullShare
  owed _ := 0

theorem A_eq0 (c : Dev nD) (w : Fin cfg0.W) : (dat0 V c).A w = V c (Pipeline.arrRef spec0 w) := by
  dsimp only [dat0]

theorem after0_8 (c : Dev nD) (t : Fin cfg0.N) (h : t.val % 79 = 78) :
    (dat0 V c).after 8 t = k0_pay3 (scAt V c t.val) (iblk0 V c 3 t) (iblk0 V c 4 t) (iblk0 V c 5 t) (iblk0 V c 7 t) := by
  dsimp only [dat0]

theorem after0_9 (c : Dev nD) (t : Fin cfg0.N) (h : t.val % 79 = 78) :
    (dat0 V c).after 9 t = k0_pay4 (scAt V c t.val) (iblk0 V c 6 t) (iblk0 V c 7 t) := by
  dsimp only [dat0]

theorem Phi0_in (c : Dev nD) : Pipeline.ΦA spec0 c ⊢ (dat0 V c).Φ 0 := .rfl

theorem Phi0_out (c : Dev nD) : (dat0 V c).Φ (Fin.last cfg0.N) ⊢ Pipeline.ΦA spec0 c := by
  have hN : cfg0.N = 10112 := N_0
  rw [show (dat0 V c).Φ (Fin.last cfg0.N) = Phi0 V c (Fin.last cfg0.N).val from rfl, Fin.val_last,
    Phi0_pos V c _ (by rw [hN]; decide), PhiA0_eq]
  iintro ⟨HS, HR, Hg⟩
  iframe HR Hg
  iexists _; iexact HS

end Cert.Kernel.Hand

end
-- ==== Proof.K.Reg0Body.lean ====
import proofs.«179317_j25280177504693_1_alg».proof.Proof.Gen.Kernel.Launch
import proofs.«179317_j25280177504693_1_alg».proof.Proof.Gen.Kernel.Skeleton
import proofs.«179317_j25280177504693_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 79 = 0 :=
  (by decide +kernel : ∀ t : Fin grid0.N, cond0_0 (grid0.coords t) ↔ t.val % 79 = 0)

abbrev cond0_1 (i : grid0.Coords) : Prop := k0_cond2 i = 1#1
theorem hcond0_1 : ∀ t : Fin cfg0.N, cond0_1 (grid0.coords t) ↔ t.val % 79 = 78 :=
  (by decide +kernel : ∀ t : Fin grid0.N, cond0_1 (grid0.coords t) ↔ t.val % 79 = 78)

theorem zeros3 : (![0, 0, 0] : Fin 3 → Nat) = fun _ => 0 := funext fun a => by fin_cases a <;> rfl
theorem zeros2 : (![0, 0] : Fin 2 → Nat) = fun _ => 0 := funext fun a => by fin_cases a <;> rfl

local macro "rd_norm" : tactic => `(tactic| (
  repeat rw [View.readAt_eq_ld]
  repeat rw [View.readCov_unit_zero (S := S8x600x192) _ zeros3 inb_S8x600x192_S8x600x192_0_0_0]
  repeat rw [View.ld_unit_zero (S := S8x600) zeros2 inb_S8x600_S8x600_0_0]
  repeat rw [View.ld_unit_zero (S := S256x192) zeros2 inb_S256x192_S256x192_0_0]
  repeat rw [View.ld_unit_zero (S := S1x600) zeros2 inb_S1x600_S1x600_0_0]
  repeat rw [View.ld_unit_zero (S := S8x600x192) zeros3 inb_S8x600x192_S8x600x192_0_0_0]))

theorem idleAt0_8 : ∀ t : Fin cfg0.N, ¬cond0_1 (grid0.coords t) → cfg0.idle 8 (grid0.coords t) = true := by decide +kernel
theorem idleAt0_9 : ∀ t : Fin cfg0.N, ¬cond0_1 (grid0.coords t) → cfg0.idle 9 (grid0.coords t) = true := by decide +kernel
theorem liveAt0_8 : ∀ t : Fin cfg0.N, cond0_1 (grid0.coords t) → cfg0.idle 8 (grid0.coords t) = false := by decide +kernel
theorem liveAt0_9 : ∀ t : Fin cfg0.N, cond0_1 (grid0.coords t) → cfg0.idle 9 (grid0.coords t) = false := by decide +kernel

variable (c : Dev nD) (E : Set ℕ) (i : grid0.Coords)
    (arg2 : Memref sig .tc .vmem S8x600 .i32) (harg2 : arg2.IsWhole) (arg3 : Memref sig .tc .vmem S8x600 .f32) (harg3 : arg3.IsWhole) (arg4 : Memref sig .tc .vmem S256x192 .bf16) (harg4 : arg4.IsWhole) (arg5 : Memref sig .tc .vmem S8x600 .f32) (harg5 : arg5.IsWhole) (arg6 : Memref sig .tc .vmem S8x600 .f32) (harg6 : arg6.IsWhole) (arg7 : Memref sig .tc .vmem S8x600 .f32) (harg7 : arg7.IsWhole) (arg8 : Memref sig .tc .vmem S8x600 .f32) (harg8 : arg8.IsWhole) (arg9 : Memref sig .tc .vmem S1x600 .f32) (harg9 : arg9.IsWhole) (arg10 : Memref sig .tc .vmem S8x48 .f32) (harg10 : arg10.IsWhole) (arg11 : Memref sig .tc .vmem S8x48 .f32) (harg11 : arg11.IsWhole) (arg12 : Memref sig .tc .vmem S8x600x192 .f32) (harg12 : arg12.IsWhole)
    (x0 : Vec F S8x600 .i32) (x1 : Vec F S8x600 .f32) (x2 : Vec F S256x192 .bf16) (s : Vec F S8x600x192 .f32)

set_option maxHeartbeats 1000000 in
/-- Off the last inner coordinate the accumulator takes one step, from zero where the inner coordinate is 0. -/
theorem sound_acc (hc1 : ¬ cond0_1 i) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg12 fullShare s
        ∗ (iprop(owns (c : Thread nD τ) arg2 fullShare x0 ∗ owns (c : Thread nD τ) arg3 fullShare x1 ∗ owns (c : Thread nD τ) arg4 fullShare x2
            ∗ owns (c : Thread nD τ) arg12 fullShare (k0_pay1 (k0_pay6 i x0 x1 x2 (if cond0_0 i then k0_pay5 else s)))) -∗ K ⟨⟩))
      ⊢ wp frame (wpE (defs₀ (F := F)) Variants.none c none) E (cc0_interp_kernel i arg2 harg2 arg3 harg3 arg4 harg4 arg5 harg5 arg6 harg6 arg7 harg7 arg8 harg8 arg9 harg9 arg10 harg10 arg11 harg11 arg12 harg12) K := by
  by_cases hc0 : cond0_0 i <;> (first | rw [if_pos hc0] | rw [if_neg hc0]) <;> (
    simp only [cc0_interp_kernel_eq_skeleton]; unfold cc0_interp_kernel_skel
    unfold owns
    iintro ⟨⟨%f0, %hf0, H0⟩, ⟨%f1, %hf1, H1⟩, ⟨%f2, %hf2, H2⟩, ⟨%f12, %hf12, H12⟩, Hk⟩
    subst hf0; subst hf1; subst hf2; subst hf12
    sl_exec (disch := first | sl_exact hc0 | sl_exact hc1)
    sl_step
    iapply Hk
    isplitl [H0]; · iexists f0; iframe; ipureintro; rfl
    isplitl [H1]; · iexists f1; iframe; ipureintro; rfl
    isplitl [H2]; · iexists f2; iframe; ipureintro; rfl
    iexists _; iframe; ipureintro
    sl_unfold_run_names
    rw [View.read_writes_eq_canon _ _ _ (fun y => ⟨_, List.mem_cons_self, View.mem_set_unit_zero zeros3 inb_S8x600x192_S8x600x192_0_0_0 y⟩),
      View.canon_cons_unit_zero zeros3]
    rd_norm)

set_option maxHeartbeats 2000000 in
/-- At the last inner coordinate the accumulator takes one step and the two outputs are stored from the new accumulator. -/
theorem sound_last (x3 x4 x5 x6 : Vec F S8x600 .f32) (x7 : Vec F S1x600 .f32) (hc0 : ¬ cond0_0 i) (hc1 : cond0_1 i) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ (∃ d, owns (c : Thread nD τ) arg11 fullShare d)
        ∗ owns (c : Thread nD τ) arg12 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (k0_pay3 (k0_pay1 (k0_pay6 i x0 x1 x2 s)) x3 x4 x5 x7)
            ∗ owns (c : Thread nD τ) arg11 fullShare (k0_pay4 (k0_pay1 (k0_pay6 i x0 x1 x2 s)) x6 x7)
            ∗ owns (c : Thread nD τ) arg12 fullShare (k0_pay1 (k0_pay6 i x0 x1 x2 s))) -∗ K ⟨⟩))
      ⊢ wp frame (wpE (defs₀ (F := F)) Variants.none c none) E (cc0_interp_kernel i arg2 harg2 arg3 harg3 arg4 harg4 arg5 harg5 arg6 harg6 arg7 harg7 arg8 harg8 arg9 harg9 arg10 harg10 arg11 harg11 arg12 harg12) K := by
  simp only [cc0_interp_kernel_eq_skeleton]; unfold cc0_interp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%d11, %f11, -, H11⟩, ⟨%f12, %hf12, H12⟩, Hk⟩
  subst hf0; subst hf1; subst hf2; subst hf3; subst hf4; subst hf5; subst hf6; subst hf7; subst hf12
  sl_exec (disch := first | sl_exact hc0 | sl_exact hc1)
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  isplitl [H6]; · iexists f6; iframe; ipureintro; rfl
  isplitl [H7]; · iexists f7; iframe; ipureintro; rfl
  isplitl [H10]
  · iexists _; iframe; ipureintro
    sl_unfold_run_names
    rw [View.read_writes_eq_canon _ _ _ (fun y => ⟨_, List.mem_cons_self, View.mem_set_unit_zero zeros2 inb_S8x48_S8x48_0_0 y⟩),
      View.canon_cons_unit_zero zeros2]
    rd_norm
  isplitl [H11]
  · iexists _; iframe; ipureintro
    sl_unfold_run_names
    rw [View.read_writes_eq_canon _ _ _ (fun y => ⟨_, List.mem_cons_self, View.mem_set_unit_zero zeros2 inb_S8x48_S8x48_0_0 y⟩),
      View.canon_cons_unit_zero zeros2]
    rd_norm
  iexists _; iframe; ipureintro
  sl_unfold_run_names
  rw [View.read_writes_eq_canon _ _ _ (fun y => ⟨_, List.mem_cons_self, View.mem_set_unit_zero zeros3 inb_S8x600x192_S8x600x192_0_0_0 y⟩),
    View.canon_cons_unit_zero zeros3]
  rd_norm

end Cert.Kernel.Hand

end
-- ==== Proof.K.Reg0.lean ====
import proofs.«179317_j25280177504693_1_alg».proof.Proof.K.Reg0Defs
import proofs.«179317_j25280177504693_1_alg».proof.Proof.K.Reg0Body

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem scAt_mid (c : Dev nD) (t : Fin cfg0.N) (h : t.val % 79 ≠ 0) :
    scAt V c t.val = k0_pay1 (k0_pay6 (grid0.coords t) (iblk0 V c 0 t) (iblk0 V c 1 t) (iblk0 V c 2 t) (scAt V c (t.val - 1))) := by
  obtain ⟨n, hn⟩ := t
  cases n with
  | zero => exact absurd (Nat.zero_mod _) h
  | succ n => exact scAt_next V c n hn h

/-- One step, from zero at an inner coordinate 0 and else from what the point before left, is the accumulator after the point. -/
theorem scAt_step (c : Dev nD) (t : Fin cfg0.N) (s : Vec F S8x600x192 .f32) (hs : t.val ≠ 0 → s = scAt V c (t.val - 1)) :
    k0_pay1 (k0_pay6 (grid0.coords t) (iblk0 V c 0 t) (iblk0 V c 1 t) (iblk0 V c 2 t) (if cond0_0 (grid0.coords t) then k0_pay5 else s))
      = scAt V c t.val := by
  by_cases h : t.val % 79 = 0
  · rw [if_pos ((hcond0_0 t).mpr h), scAt_first V c t.val t.isLt h]
  · rw [if_neg (mt (hcond0_0 t).mp h), hs fun e => h (by rw [e]), ← scAt_mid V c t h]

theorem before0_in (c : Dev nD) (t : Fin cfg0.N) :
    (∀ d, (dat0 V c).before 0 t d = iblk0 V c 0 t) ∧ (∀ d, (dat0 V c).before 1 t d = iblk0 V c 1 t)
      ∧ (∀ d, (dat0 V c).before 2 t d = iblk0 V c 2 t) ∧ (∀ d, (dat0 V c).before 3 t d = iblk0 V c 3 t)
      ∧ (∀ d, (dat0 V c).before 4 t d = iblk0 V c 4 t) ∧ (∀ d, (dat0 V c).before 5 t d = iblk0 V c 5 t)
      ∧ (∀ d, (dat0 V c).before 6 t d = iblk0 V c 6 t) ∧ ∀ d, (dat0 V c).before 7 t d = iblk0 V c 7 t := by
  refine ⟨fun d => ?_, fun d => ?_, fun d => ?_, fun d => ?_, fun d => ?_, fun d => ?_, fun d => ?_, fun d => ?_⟩ <;>
    exact ((dat0 V c).before_in_eq_fetched _ rfl (fun _ => rfl) (fun _ _ _ => rfl) (fun _ => rfl) t d).trans rfl

set_option maxHeartbeats 4800000 in
/-- The body at a point: its inner coordinate picks the case; the accumulator goes from the invariant into the body and back one step on. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d))
      ∗ (∃ d, owns (c : Thread nD τ) (st0_6 t) fullShare ((dat0 V c).before 6 t d))
      ∗ (∃ d, owns (c : Thread nD τ) (st0_7 t) fullShare ((dat0 V c).before 7 t d))
      ∗ (∃ d, owns (c : Thread nD τ) (st0_8 t) fullShare ((dat0 V c).before 8 t d))
      ∗ (∃ d, owns (c : Thread nD τ) (st0_9 t) fullShare ((dat0 V c).before 9 t d)))
    ⊢ wp frame (wpE (defs₀ (F := F)) Variants.none c none) Set.univ (bodyAt0 t) fun _ =>
      iprop(Phi0 V c (t.val + 1) ∗ (dat0 V c).owesAt () t.castSucc
        ∗ owns (c : Thread nD τ) (st0_0 t) fullShare (iblk0 V c 0 t)
        ∗ owns (c : Thread nD τ) (st0_1 t) fullShare (iblk0 V c 1 t)
        ∗ owns (c : Thread nD τ) (st0_2 t) fullShare (iblk0 V c 2 t)
        ∗ owns (c : Thread nD τ) (st0_3 t) fullShare (iblk0 V c 3 t)
        ∗ owns (c : Thread nD τ) (st0_4 t) fullShare (iblk0 V c 4 t)
        ∗ owns (c : Thread nD τ) (st0_5 t) fullShare (iblk0 V c 5 t)
        ∗ owns (c : Thread nD τ) (st0_6 t) fullShare (iblk0 V c 6 t)
        ∗ owns (c : Thread nD τ) (st0_7 t) fullShare (iblk0 V c 7 t)
        ∗ (dat0 V c).leavesExact 8 t ∗ (dat0 V c).leavesExact 9 t) := by
  unfold bodyAt0
  obtain ⟨b0, b1, b2, b3, b4, b5, b6, b7⟩ := before0_in V c t
  simp only [b0, b1, b2, b3, b4, b5, b6, b7]
  rw [Phi0_succ, show (dat0 V c).Φ t.castSucc = Phi0 V c t.val from rfl]
  by_cases h1 : t.val % 79 = 78
  · have h0 : t.val % 79 ≠ 0 := by omega
    rw [Phi0_pos V c _ fun e => h0 (by rw [e]),
      show (dat0 V c).leavesExact 8 t = owns (c : Thread nD τ) (st0_8 t) fullShare ((dat0 V c).after 8 t) from by
        unfold Dat.leavesExact; rw [liveAt0_8 t ((hcond0_1 t).mpr h1)],
      show (dat0 V c).leavesExact 9 t = owns (c : Thread nD τ) (st0_9 t) fullShare ((dat0 V c).after 9 t) from by
        unfold Dat.leavesExact; rw [liveAt0_9 t ((hcond0_1 t).mpr h1)],
      after0_8 V c t h1, after0_9 V c t h1, scAt_mid V c t h0]
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_last c Set.univ (grid0.coords t) _ _ _ _ _ _ _ _ _ _ _ _ _ _ _ _ _ _ _ _ _ _ (iblk0 V c 0 t) (iblk0 V c 1 t) (iblk0 V c 2 t) (scAt V c (t.val - 1)) (iblk0 V c 3 t) (iblk0 V c 4 t) (iblk0 V c 5 t) (iblk0 V c 6 t) (iblk0 V c 7 t) (fun h => h0 ((hcond0_0 t).mp h)) ((hcond0_1 t).mpr h1) _)
    iframe H0 H1 H2 H3 H4 H5 H6 H7 HS
    isplitl [H8]; · iexists _; iexact H8
    isplitl [H9]; · iexists _; iexact H9
    iintro ⟨H0, H1, H2, H3, H4, H5, H6, H7, H8, H9, HS⟩
    iframe
  · rw [Dat.leavesExact_idle (dat0 V c) 8 t (idleAt0_8 t fun h => h1 ((hcond0_1 t).mp h)) (Bool.eq_false_iff.mpr fun h => h1 ((flush0_8 t).mp h)),
      Dat.leavesExact_idle (dat0 V c) 9 t (idleAt0_9 t fun h => h1 ((hcond0_1 t).mp h)) (Bool.eq_false_iff.mpr fun h => h1 ((flush0_9 t).mp h))]
    have hS : Phi0 V c t.val ⊢ iprop(∃ s, ⌜t.val ≠ 0 → s = scAt V c (t.val - 1)⌝ ∗ owns (c : Thread nD τ) scM0 fullShare s ∗ rest0 (F := F) c ∗ ∃ r, prngReg c r) := by
      by_cases hz : t.val = 0
      · rw [Phi0_zero V c _ hz, PhiA0_eq]; iintro ⟨⟨⟨%s, HS⟩, HR⟩, Hg⟩; iexists s; iframe; ipureintro; exact fun h => absurd hz h
      · rw [Phi0_pos V c _ hz]; iintro ⟨HS, HR, Hg⟩; iexists _; iframe; ipureintro; exact fun _ => rfl
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    ihave HΦ' := hS $$ HΦ
    icases HΦ' with ⟨%s, %hs, HS, HR, Hg⟩
    rw [← scAt_step V c t s hs]
    iapply (sound_acc c Set.univ (grid0.coords t) _ _ _ _ _ _ _ _ _ _ _ _ _ _ _ _ _ _ _ _ _ _ (iblk0 V c 0 t) (iblk0 V c 1 t) (iblk0 V c 2 t) s (fun h => h1 ((hcond0_1 t).mp h)) _)
    iframe H0 H1 H2 HS
    iintro ⟨H0, H1, H2, HS⟩
    iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«179317_j25280177504693_1_alg».proof.Proof.Gen.Kernel.Launch
import proofs.«179317_j25280177504693_1_alg».proof.Proof.Gen.Kernel.Skeleton
import proofs.«179317_j25280177504693_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S1024x48 := Rect.unit (s := S1024x48) ![0, 0] S1024x48.size inb_S1024x48_S1024x48_0_0
abbrev r1_b : Rect S1024x1 := Rect.unit (s := S1024x1) ![0, 0] S1024x1.size inb_S1024x1_S1024x1_0_0
abbrev r1_o : Rect S3x48 := Rect.unit (s := S3x48) ![0, 0] S3x48.size inb_S3x48_S3x48_0_0

def out1_3 (x0 : Vec F S1024x48 .f32) (x1 : Vec F S1024x48 .f32) (x2 : Vec F S1024x1 .f32) : Vec F S3x48 .f32 :=
  View.canon [⟨r1_o, k1_pay1 (View.ld x0 r1_a) (View.ld x1 r1_a) (View.ld x2 r1_b)⟩]

/-- A single rectangle that is the whole shape covers every index. -/
theorem cover1_3 (p0 : Vec F S3x48 .f32) (y : S3x48.Idx) :
    ∃ pc ∈ ([⟨r1_o, p0⟩] : List (View.Piece (Elt F) S3x48 .f32)), y ∈ pc.1.set :=
  View.cover_of_tiled [⟨r1_o, p0⟩] S3x48.size (by rfl) y

set_option maxHeartbeats 1000000 in
/-- The body leaves the three inputs as found and stores the payload of their contents over the whole output buffer. -/
theorem sound_kernel1 (c : Dev nD) (E : Set ℕ) (i : grid1.Coords)
    (arg1 : Memref sig .tc .vmem S1024x48 .f32) (harg1 : arg1.IsWhole) (arg2 : Memref sig .tc .vmem S1024x48 .f32) (harg2 : arg2.IsWhole)
    (arg3 : Memref sig .tc .vmem S1024x1 .f32) (harg3 : arg3.IsWhole) (arg4 : Memref sig .tc .vmem S3x48 .f32) (harg4 : arg4.IsWhole)
    (x0 : Vec F S1024x48 .f32) (x1 : Vec F S1024x48 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_cl_kernel i arg1 harg1 arg2 harg2 arg3 harg3 arg4 harg4) K := by
  simp only [cc1_cl_kernel_eq_skeleton]; unfold cc1_cl_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem zeros1 : (![0, 0] : Fin 2 → Nat) = fun _ => 0 := funext fun a => by fin_cases a <;> rfl

/-- A store over the whole shape of a payload of whole-shape loads leaves the payload of the loaded contents. -/
theorem after1_3 (c : Dev nD) (t : Fin cfg1.N) :
    (dat1 V c).after 3 t = k1_pay1 (iblk1 V c 0 t) (iblk1 V c 1 t) (iblk1 V c 2 t) := by
  rw [show (dat1 V c).after 3 t = out1_3 (iblk1 V c 0 t) (iblk1 V c 1 t) (iblk1 V c 2 t) from rfl]; unfold out1_3
  rw [View.canon_unit_zero (S := S3x48) zeros1 inb_S3x48_S3x48_0_0,
    View.ld_unit_zero (S := S1024x48) zeros1 inb_S1024x48_S1024x48_0_0,
    View.ld_unit_zero (S := S1024x48) zeros1 inb_S1024x48_S1024x48_0_0,
    View.ld_unit_zero (S := S1024x1) zeros1 inb_S1024x1_S1024x1_0_0]

theorem before1_in (c : Dev nD) (t : Fin cfg1.N) :
    (∀ d, (dat1 V c).before 0 t d = iblk1 V c 0 t) ∧ (∀ d, (dat1 V c).before 1 t d = iblk1 V c 1 t)
      ∧ ∀ d, (dat1 V c).before 2 t d = iblk1 V c 2 t := by
  refine ⟨fun d => ?_, fun d => ?_, fun d => ?_⟩ <;>
    exact ((dat1 V c).before_in_eq_fetched _ rfl (fun _ => rfl) (fun _ _ _ => rfl) (fun _ => rfl) t d).trans rfl

/-- The kernel's triple at a grid point, framed by the invariant. -/
theorem sound_body1 (c : Dev nD) (t : Fin cfg1.N) :
    iprop(Pipeline.ΦA spec1 c ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) fun _ =>
      iprop(Pipeline.ΦA spec1 c ∗ (dat1 V c).owesAt () t.castSucc
        ∗ owns (c : Thread nD τ) (st1_0 t) fullShare (iblk1 V c 0 t)
        ∗ owns (c : Thread nD τ) (st1_1 t) fullShare (iblk1 V c 1 t)
        ∗ owns (c : Thread nD τ) (st1_2 t) fullShare (iblk1 V c 2 t)
        ∗ owns (c : Thread nD τ) (st1_3 t) fullShare (out1_3 (iblk1 V c 0 t) (iblk1 V c 1 t) (iblk1 V c 2 t))) := by
  unfold bodyAt1
  obtain ⟨b0, b1, b2⟩ := before1_in V c t
  simp only [b0, b1, b2]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  iframe

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
import proofs.«179317_j25280177504693_1_alg».proof.Proof.Gen.Kernel.Regions
import proofs.«179317_j25280177504693_1_alg».proof.Proof.K.Reg0
import proofs.«179317_j25280177504693_1_alg».proof.Proof.K.Reg1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
abbrev W8 : Dev nD → Valuation τ sig (Elt F) := fun c => StableHlo.after hostOps0_7 (W7 m ρ c)
abbrev W9 : Dev nD → Valuation τ sig (Elt F) := fun c => StableHlo.after hostOps0_8 (W8 m ρ c)
abbrev V9 : (c : Dev nD) → (b : Ref sig .tc) → Buf (Elt F) ((c : Thread nD τ).loc b) := fun c b => W9 m ρ c b
def W10 (c : Dev nD) : Valuation τ sig (Elt F) :=
  Pipeline.withArrays spec0 c (W9 m ρ c) fun w => (dat0 (V9 m ρ) c).arrAt w cfg0.N
theorem W10_arr (c : Dev nD) (w : Fin cfg0.W) :
    W10 m ρ c (Proc.devRef .tc (Pipeline.arrRef spec0 w)) = (dat0 (V9 m ρ) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m ρ c (Proc.devRef .tc b) = W9 m ρ c (Proc.devRef .tc b) := by
  unfold W10; exact Pipeline.withArrays_of_ne spec0 c _ _ b hb
abbrev W11 : Dev nD → Valuation τ sig (Elt F) := fun c => StableHlo.after hostOps1 (W10 m ρ c)
abbrev W12 : Dev nD → Valuation τ sig (Elt F) := fun c => StableHlo.after hostOps1_1 (W11 m ρ c)
abbrev W13 : Dev nD → Valuation τ sig (Elt F) := fun c => StableHlo.after hostOps1_2 (W12 m ρ c)
abbrev V13 : (c : Dev nD) → (b : Ref sig .tc) → Buf (Elt F) ((c : Thread nD τ).loc b) := fun c b => W13 m ρ c b
def W14 (c : Dev nD) : Valuation τ sig (Elt F) :=
  Pipeline.withArrays spec1 c (W13 m ρ c) fun w => (dat1 (V13 m ρ) c).arrAt w cfg1.N

theorem W10_main_v41_0 (c : Dev nD) : W10 m ρ c (Proc.devRef .tc main_v41_0) = (dat0 (V9 m ρ) c).arrAt 8 cfg0.N :=
  W10_arr m ρ c 8
theorem W10_main_v41_1 (c : Dev nD) : W10 m ρ c (Proc.devRef .tc main_v41_1) = (dat0 (V9 m ρ) c).arrAt 9 cfg0.N :=
  W10_arr m ρ c 9
theorem W14_main_v71 (c : Dev nD) : W14 m ρ c (Proc.devRef .tc main_v71) = (dat1 (V13 m ρ) c).arrAt 3 cfg1.N := by
  unfold W14; exact Pipeline.withArrays_arr spec1 launch1.win.arr_inj c _ _ 3

abbrev preW : List (Ref sig .tc) :=
  hostOps0_W ++ (hostOps0_1_W ++ (hostOps0_2_W ++ (hostOps0_3_W ++ (hostOps0_4_W ++ (hostOps0_5_W ++ (hostOps0_6_W ++ (hostOps0_7_W ++ hostOps0_8_W)))))))
abbrev midW : List (Ref sig .tc) := hostOps1_W ++ (hostOps1_1_W ++ hostOps1_2_W)

/-- A stretch leaves a reference it does not write as it was, so a reference none of the first nine writes is as launched. -/
theorem W9_of (c : Dev nD) (r : Ref sig .tc) (h : r ∉ preW) :
    W9 m ρ c (Proc.devRef .tc r) = m ((c : Thread nD τ).loc r) := by
  simp only [preW, List.mem_append, not_or] at h
  obtain ⟨h0, h1, h2, h3, h4, h5, h6, h7, h8⟩ := h
  exact (V9_of m c r h8).trans <| (V8_of m c r h7).trans <| (V7_of m c r h6).trans <| (V6_of m c r h5).trans <|
    (V5_of m c r h4).trans <| (V4_of m c r h3).trans <| (V3_of m c r h2).trans <| (V2_of m c r h1).trans (V1_of m c r h0)

/-- What makes a reference end as launched: no stretch writes it, region 1 has no window on it, region 0 only input windows. -/
abbrev ArgOK (r : Ref sig .tc) : Prop :=
  r ∉ preW ∧ r ∉ midW ∧ (∀ w, Pipeline.arrRef spec1 w ≠ r) ∧ ∀ w, Pipeline.arrRef spec0 w = r → (cfg0.win w).isOut = false

theorem W14_arg (c : Dev nD) (r : Ref sig .tc) (h : ArgOK r) :
    W14 m ρ c (Proc.devRef .tc r) = m ((c : Thread nD τ).loc r) := by
  obtain ⟨hp, hm, h1, h0⟩ := h
  simp only [midW, List.mem_append, not_or] at hm
  unfold W14
  refine (Pipeline.withArrays_of_ne spec1 c _ _ r h1).trans <| (StableHlo.after_of_writes_sub hostOps1_2 _ hostOps1_2_writes hm.2.2).trans <|
    (StableHlo.after_of_writes_sub hostOps1_1 _ hostOps1_1_writes hm.2.1).trans <| (StableHlo.after_of_writes_sub hostOps1 _ hostOps1_writes hm.1).trans ?_
  by_cases hr : ∃ w, Pipeline.arrRef spec0 w = r
  · obtain ⟨w, rfl⟩ := hr
    exact (W10_arr m ρ c w).trans <| ((dat0 (V9 m ρ) c).arrAt_in w (h0 w rfl) _).trans <| (A_eq0 (V9 m ρ) c w).trans (W9_of m ρ c _ hp)
  · exact (W10_of_ne m ρ c r fun w e => hr ⟨w, e⟩).trans (W9_of m ρ c r hp)

def pdats : (p : Fin 2) → (c : Dev nD) → Dat τ (Elt F) Unit ℕ (UR sig nD τ) ℕ (Pipeline.pin (pcfgs (F := F)) adm p) c
  | ⟨0, _⟩ => fun c => dat0 (V9 m ρ) c
  | ⟨1, _⟩ => fun c => dat1 (V13 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- A region entered with the buffers at `W` leaves them at `W` updated at its arrays. -/
def regOf (p : Fin 2) (lf : Pipeline.LaunchFacts (nD := nD) (τ := τ) cfgs p) (W : Dev nD → Valuation τ sig (Elt F))
    (hb : ∀ c, BodyObligation (pdats m ρ p c) (defs₀ (F := F)) 𝒱₀ () Set.univ)
    (hq : ∀ c w, (pdats m ρ p c).q w = fullShare) (ho : ∀ c t, (pdats m ρ p c).owed t = 0) (hr : ∀ c x, x ∈ (pdats m ρ p c).recorded 0)
    (hA : ∀ c w, (pdats m ρ p c).A w = W c (Pipeline.arrRef (cfgs p).spec w))
    (hi : ∀ c, Pipeline.ΦA (cfgs p).spec c ⊢ (pdats m ρ p c).Φ 0)
    (hl : ∀ c, (pdats m ρ p c).Φ (Fin.last _) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (W c) ∗ R c)
  post c := iprop(StableHlo.held (c : Thread nD τ) (Pipeline.ucRefs τ sig)
    (Pipeline.withArrays (cfgs p).spec c (W c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [ho c 0]
      icases HO with ⟨%W', HO⟩; iexists W'; iframe; ipureintro; exact fun x _ => Or.inl (hr c x)
    isplitl [Hp]; · iexact Hp
    iexact Hrest
  hin c := by
    refine .trans ?_ (hi c)
    unfold Pipeline.ΦA
    iintro ⟨Hp, -, Hr⟩
    isplitl [Hr]; · iexact Hr
    iexact Hp
  hout c := by
    refine (hl c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => W c b)
      (fun b => Pipeline.withArrays (cfgs p).spec c (W c) (fun w => (pdats m ρ p c).arrAt w (cfgs p).N) b)
      ((pdats m ρ p c).arrAt · (cfgs p).N)
      (fun w => (Pipeline.withArrays_arr (cfgs p).spec lf.win.arr_inj c (W c) (fun w => (pdats m ρ p c).arrAt w (cfgs p).N) w).symm)
      fun b hb => Pipeline.withArrays_of_ne (cfgs p).spec c (W c) _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho c (Fin.last _)]
    icases HO with ⟨%W', -, HO⟩; iexists W'; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .region (regOf m ρ 0 launch0 (W9 m ρ) (body_obligation0 (V9 m ρ)) (fun _ _ => rfl) (fun _ _ => rfl) (fun _ _ => trivial) (A_eq0 (V9 m ρ))
      (Phi0_in (V9 m ρ)) (Phi0_out (V9 m ρ))),
    .host (hseg hostOps1 hostOps1_sub hostOps1_fresh (W10 m ρ)),
    .host (hseg hostOps1_1 hostOps1_1_sub hostOps1_1_fresh (W11 m ρ)),
    .host (hseg hostOps1_2 hostOps1_2_sub hostOps1_2_fresh (W12 m ρ)),
    .region (regOf m ρ 1 launch1 (W13 m ρ) (body_obligation1 (V13 m ρ)) (fun _ _ => rfl) (fun _ _ => rfl) (fun _ _ => trivial) (A_eq1 (V13 m ρ))
      (fun _ => .rfl) (fun _ => .rfl)) ]

set_option backward.isDefEq.respectTransparency.types false in
/-- The launch over @main's fourteen segments: every fair execution ends, and each core's buffers then hold `W14`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rewrite [main_chain c, Pipeline.Seg.run_eq_chain]; exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W14 m ρ c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun _ h => h)

/-- Every argument is `ArgOK`, so it ends at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  MeshRun.mono (fun _ h c => by
    and_intros <;> exact (h c _ (mem_uc _ (by decide))).trans (W14_arg m ρ c _ (by decide))) (run_main m ρ)

end Cert.Kernel.Hand

end
-- ==== Proof.Shared.lean ====
import Idealize.ShloMosaic.Lib.IdealHost

noncomputable section

namespace Cert.Shared

open Idealize.ShloMosaic

abbrev S_ : Shape := ⟨0, ![]⟩
abbrev S1 : Shape := ⟨1, ![1]⟩
abbrev S600 : Shape := ⟨1, ![600]⟩
abbrev S1024 : Shape := ⟨1, ![1024]⟩
abbrev S20000 : Shape := ⟨1, ![20000]⟩
abbrev S1024x1 : Shape := ⟨2, ![1024, 1]⟩
abbrev S1x600 : Shape := ⟨2, ![1, 600]⟩
abbrev S1024x600 : Shape := ⟨2, ![1024, 600]⟩

theorem cast_S1_S_ : S1.ShapeCasts S_ := by decide
theorem bcast_s_full : S_.BroadcastsInDim S1024x600 (![] : Fin 0 → Fin S1024x600.rank) := by decide
theorem bcast_s_1024 : S_.BroadcastsInDim S1024 (![] : Fin 0 → Fin S1024.rank) := by decide

def x0V (a7 : FVec Ideal S20000 .f32) : FVec Ideal S_ .f32 :=
  shapeCast S_ (extractStridedSlice S1 ![0] a7 (by decide)) cast_S1_S_

def xNV (a7 : FVec Ideal S20000 .f32) : FVec Ideal S_ .f32 :=
  shapeCast S_ (extractStridedSlice S1 ![19999] a7 (by decide)) cast_S1_S_

def rawV (a0 : FVec Ideal S1024 .f32) (a1 : FVec Ideal S600 .f32) (a2 : FVec Ideal S_ .f32) (a7 : FVec Ideal S20000 .f32) :
    FVec Ideal S1024x600 .f32 :=
  mulf
    (Host.divf
      (subf
        (mulf
          (broadcastInDim S1024x600 ![0, 1] (by decide) (broadcastInDim S1024x1 ![0] (by decide) a0))
          (broadcastInDim S1024x600 ![0, 1] (by decide)
            (broadcastInDim S1x600 ![1] (by decide) (subf (broadcastInDim S600 ![] (by decide) a2) a1))))
        (broadcastInDim S1024x600 ![] bcast_s_full (x0V a7)))
      (broadcastInDim S1024x600 ![] bcast_s_full (subf (xNV a7) (x0V a7))))
    (broadcastInDim S1024x600 ![] bcast_s_full (constant S_ .f32 0x469C3E00#32))

def posV (a0 : FVec Ideal S1024 .f32) (a1 : FVec Ideal S600 .f32) (a2 : FVec Ideal S_ .f32) (a7 : FVec Ideal S20000 .f32) :
    FVec Ideal S1024x600 .f32 :=
  minimumf (broadcastInDim S1024x600 ![] bcast_s_full (constant S_ .f32 0x469C3E00#32))
    (maximumf (broadcastInDim S1024x600 ![] bcast_s_full (constant S_ .f32 0x00000000#32)) (rawV a0 a1 a2 a7))

def i0V (a0 : FVec Ideal S1024 .f32) (a1 : FVec Ideal S600 .f32) (a2 : FVec Ideal S_ .f32) (a7 : FVec Ideal S20000 .f32) :
    IVec S1024x600 32 :=
  minsi (broadcastInDim S1024x600 ![] bcast_s_full (constantI S_ 32 19998#32))
    (maxsi (broadcastInDim S1024x600 ![] bcast_s_full (constantI S_ 32 0#32))
      (fptosi 32 (Host.floor (posV a0 a1 a2 a7))))

def fracV (a0 : FVec Ideal S1024 .f32) (a1 : FVec Ideal S600 .f32) (a2 : FVec Ideal S_ .f32) (a7 : FVec Ideal S20000 .f32) :
    FVec Ideal S1024x600 .f32 :=
  subf (posV a0 a1 a2 a7) (sitofp .f32 (i0V a0 a1 a2 a7))

def prV (a0 : FVec Ideal S1024 .f32) (a12 a13 : FVec Ideal S_ .f32) : FVec Ideal S1024 .f32 :=
  mulf
    (mulf (broadcastInDim S1024 ![] bcast_s_1024 a12)
      (Host.powf
        (Host.divf a0 (broadcastInDim S1024 ![] bcast_s_1024 (constant S_ .f32 0x3D4CCCCD#32)))
        (broadcastInDim S1024 ![] bcast_s_1024 (subf a13 (constant S_ .f32 0x3F800000#32)))))
    (Host.divf (broadcastInDim S1024 ![] bcast_s_1024 (constant S_ .f32 0x419DE9E6#32)) (mulf (mulf a0 a0) a0))

end Cert.Shared
-- ==== Proof.LibFinite.lean ====
import Idealize.ShloMosaic.PureOps.Ideal

namespace Cert.Lib

open Idealize.ShloMosaic

/-- An extended real is finite when it is the coercion of a real. -/
def IsReal (z : EReal) : Prop := ∃ r : ℝ, z = (r : EReal)

theorem isReal_coe (r : ℝ) : IsReal (r : EReal) := ⟨r, rfl⟩
theorem isReal_zero : IsReal 0 := ⟨0, rfl⟩
theorem isReal_one : IsReal 1 := ⟨1, rfl⟩

theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem IsReal.pow {x y : EReal} : IsReal x → IsReal y → IsReal (Ideal.pow x y)
  | ⟨a, ha⟩, ⟨b, hb⟩ => ⟨a ^ b, by rw [ha, hb]; rfl⟩
theorem IsReal.div {x y : EReal} : IsReal x → IsReal y → y ≠ 0 → IsReal (Ideal.div x y)
  | ⟨a, ha⟩, ⟨b, hb⟩, h0 => ⟨a * (1 / b), by
      subst ha hb; rw [Ideal.div_coe (fun e => h0 (by rw [e, EReal.coe_zero])), EReal.coe_mul]⟩
theorem IsReal.sum {ι : Type*} (s : Finset ι) (f : ι → EReal) (h : ∀ i ∈ s, IsReal (f i)) : IsReal (∑ i ∈ s, f i) :=
  Finset.sum_induction f IsReal (fun _ _ => IsReal.add) isReal_zero h

/-- Clamped between two reals, every extended real is finite: it lies between two coerced reals. -/
theorem isReal_clamp (lo hi : ℝ) (z : EReal) : IsReal (min (hi : EReal) (max (lo : EReal) z)) := by
  have h1 : min (hi : EReal) (max (lo : EReal) z) ≤ hi := min_le_left _ _
  have h2 : ((min hi lo : ℝ) : EReal) ≤ min (hi : EReal) (max (lo : EReal) z) :=
    le_min (EReal.coe_le_coe_iff.2 (min_le_left _ _)) ((EReal.coe_le_coe_iff.2 (min_le_right _ _)).trans (le_max_left _ _))
  exact ⟨_, (EReal.coe_toReal (fun e => EReal.coe_ne_top _ (top_le_iff.1 (e ▸ h1)))
    (fun e => EReal.coe_ne_bot _ (le_bot_iff.1 (e ▸ h2)))).symm⟩

end Cert.Lib
-- ==== Proof.SharedFacts.lean ====
import proofs.«179317_j25280177504693_1_alg».proof.Proof.Shared
import proofs.«179317_j25280177504693_1_alg».proof.Proof.LibFinite
import Idealize.ShloMosaic.Lib.WordArith

namespace Cert.Shared

open Idealize.ShloMosaic Cert.Lib

variable (a0 : FVec Ideal S1024 .f32) (a1 : FVec Ideal S600 .f32) (a2 : FVec Ideal S_ .f32) (a7 : FVec Ideal S20000 .f32)
  (idx : S1024x600.Idx)

/-- The row word is a signed minimum with 19998 of a signed maximum with 0, whatever word these are applied to. -/
theorem i0V_toNat_le : (i0V a0 a1 a2 a7 idx).toNat ≤ 19998 := by
  obtain ⟨v, hv⟩ : ∃ v, i0V a0 a1 a2 a7 idx = IntOp.minsi 19998#32 (IntOp.maxsi 0#32 v) := ⟨_, rfl⟩
  have h : 2 * (IntOp.maxsi 0#32 v).toNat < 2 ^ 32 := WordArith.two_mul_toNat_maxsi_zero_lt v
  rw [hv, WordArith.toNat_minsi_of_lt _ _ (by decide) (by omega)]
  exact min_le_left _ _

theorem i0V_range : 0 ≤ (i0V a0 a1 a2 a7 idx).toInt ∧ (i0V a0 a1 a2 a7 idx).toInt ≤ 19998 := by
  have h := i0V_toNat_le a0 a1 a2 a7 idx
  have e := BitVec.toInt_eq_toNat_cond (i0V a0 a1 a2 a7 idx)
  omega

theorem i0V_succ_lt_two_pow : (i0V a0 a1 a2 a7 idx).toNat + 1 < 2 ^ 32 := by
  have h := i0V_toNat_le a0 a1 a2 a7 idx
  omega

theorem lit_19999 : Ideal.ofBits .f32 0x469C3E00#32 = ((19999 : ℝ) : EReal) := by
  simp [Ideal.ofBits, Ideal.ieee, -EReal.coe_mul]; norm_num

theorem lit_pivot : Ideal.ofBits .f32 0x3D4CCCCD#32 = ((13421773 / 268435456 : ℝ) : EReal) := by
  simp [Ideal.ofBits, Ideal.ieee, -EReal.coe_mul]; norm_num

theorem lit_two_pi_sq : Ideal.ofBits .f32 0x419DE9E6#32 = ((10349030 / 524288 : ℝ) : EReal) := by
  simp [Ideal.ofBits, Ideal.ieee, -EReal.coe_mul]; norm_num

/-- The weight is a position clamped between the reals 0 and 19999, less a coerced integer. -/
theorem fracV_isReal : IsReal (fracV a0 a1 a2 a7 idx) := by
  show IsReal (min (Ideal.ofBits .f32 0x469C3E00#32) (max (Ideal.ofBits .f32 0x00000000#32) _)
    - (((i0V a0 a1 a2 a7 idx).toInt : ℝ) : EReal))
  rw [lit_19999, Ideal.ofBits_zero_f32, ← EReal.coe_zero]
  exact (isReal_clamp _ _ _).sub (isReal_coe _)

/-- The three literals of `prV` are nonzero reals, so it is finite wherever `a0 j` is a nonzero real. -/
theorem prV_isReal (a12 a13 : FVec Ideal S_ .f32) (h0 : ∀ i, IsReal (a0 i)) (h12 : ∀ i, IsReal (a12 i))
    (h13 : ∀ i, IsReal (a13 i)) (j : S1024.Idx) (hk : a0 j ≠ 0) : IsReal (prV a0 a12 a13 j) := by
  show IsReal ((a12 _ * Ideal.pow (Ideal.div (a0 j) (Ideal.ofBits .f32 0x3D4CCCCD#32)) (a13 _ - Ideal.ofBits .f32 0x3F800000#32))
    * Ideal.div (Ideal.ofBits .f32 0x419DE9E6#32) ((a0 j * a0 j) * a0 j))
  rw [lit_pivot, Ideal.ofBits_one_f32, lit_two_pi_sq]
  exact ((h12 _).mul ((((h0 j).div (isReal_coe _) (by rw [Ne, EReal.coe_eq_zero]; norm_num))).pow ((h13 _).sub isReal_one))).mul
    ((isReal_coe _).div (((h0 j).mul (h0 j)).mul (h0 j)) (mul_ne_zero (mul_ne_zero hk hk) hk))

end Cert.Shared
-- ==== Proof.KI.Reg0Defs.lean ====
import proofs.«179317_j25280177504693_1_alg».proof.Proof.Gen.KernelIdeal.Launch
import proofs.«179317_j25280177504693_1_alg».proof.Proof.Gen.KernelIdeal.Skeleton
import proofs.«179317_j25280177504693_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def scStep (c : Dev nD) (t : Fin cfg0.N) (s : Vec F S8x600x192 .f32) : Vec F S8x600x192 .f32 :=
  k0_pay1 (k0_pay6 (grid0.coords t) (iblk0 V c 0 t) (iblk0 V c 1 t) (iblk0 V c 2 t) s)

def scAt (c : Dev nD) : ℕ → Vec F S8x600x192 .f32
  | 0 => if h : 0 < cfg0.N then scStep V c ⟨0, h⟩ k0_pay5 else k0_pay5
  | n + 1 =>
    if h : n + 1 < cfg0.N then scStep V c ⟨n + 1, h⟩ (if (n + 1) % 79 = 0 then k0_pay5 else scAt c n)
    else k0_pay5

theorem scAt_first (c : Dev nD) (n : ℕ) (hn : n < cfg0.N) (h : n % 79 = 0) :
    scAt V c n = k0_pay1 (k0_pay6 (grid0.coords ⟨n, hn⟩) (iblk0 V c 0 ⟨n, hn⟩) (iblk0 V c 1 ⟨n, hn⟩) (iblk0 V c 2 ⟨n, hn⟩) k0_pay5) := by
  cases n with
  | zero => rw [scAt, dif_pos hn]; rfl
  | succ n => rw [scAt, dif_pos hn, if_pos h]; rfl

theorem scAt_next (c : Dev nD) (n : ℕ) (hn : n + 1 < cfg0.N) (h : (n + 1) % 79 ≠ 0) :
    scAt V c (n + 1) = k0_pay1 (k0_pay6 (grid0.coords ⟨n + 1, hn⟩) (iblk0 V c 0 ⟨n + 1, hn⟩) (iblk0 V c 1 ⟨n + 1, hn⟩) (iblk0 V c 2 ⟨n + 1, hn⟩) (scAt V c n)) := by
  rw [scAt, dif_pos hn, if_neg h]; rfl

abbrev scM0 : Memref sig .tc .vmem S8x600x192 .f32 := Memref.whole cc0_scratch0

def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f))

def Phi0 (c : Dev nD) : ℕ → sProp 𝕄
  | 0 => Pipeline.ΦA spec0 c
  | n + 1 => iprop(owns (c : Thread nD τ) scM0 fullShare (scAt V c n) ∗ rest0 (F := F) c ∗ (∃ r, prngReg c r))

theorem Phi0_zero (c : Dev nD) (n : ℕ) (hz : n = 0) : Phi0 V c n = Pipeline.ΦA spec0 c := by
  subst hz; rfl

theorem Phi0_succ (c : Dev nD) (n : ℕ) :
    Phi0 V c (n + 1) = iprop(owns (c : Thread nD τ) scM0 fullShare (scAt V c n) ∗ rest0 (F := F) c ∗ (∃ r, prngReg c r)) := rfl

theorem Phi0_pos (c : Dev nD) (n : ℕ) (hz : n ≠ 0) :
    Phi0 V c n = iprop(owns (c : Thread nD τ) scM0 fullShare (scAt V c (n - 1)) ∗ rest0 (F := F) c ∗ (∃ r, prngReg c r)) := by
  cases n with
  | zero => exact absurd rfl hz
  | succ n => rfl

theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => k0_pay3 (scAt V c t.val) (iblk0 V c 3 t) (iblk0 V c 4 t) (iblk0 V c 5 t) (iblk0 V c 7 t)
    | ⟨9, _⟩ => k0_pay4 (scAt V c t.val) (iblk0 V c 6 t) (iblk0 V c 7 t)
  Φ t := Phi0 V c t.val
  q _ := fullShare
  owed _ := 0

theorem A_eq0 (c : Dev nD) (w : Fin cfg0.W) : (dat0 V c).A w = V c (Pipeline.arrRef spec0 w) := by
  dsimp only [dat0]

theorem after0_8 (c : Dev nD) (t : Fin cfg0.N) (h : t.val % 79 = 78) :
    (dat0 V c).after 8 t = k0_pay3 (scAt V c t.val) (iblk0 V c 3 t) (iblk0 V c 4 t) (iblk0 V c 5 t) (iblk0 V c 7 t) := by
  dsimp only [dat0]

theorem after0_9 (c : Dev nD) (t : Fin cfg0.N) (h : t.val % 79 = 78) :
    (dat0 V c).after 9 t = k0_pay4 (scAt V c t.val) (iblk0 V c 6 t) (iblk0 V c 7 t) := by
  dsimp only [dat0]

theorem Phi0_in (c : Dev nD) : Pipeline.ΦA spec0 c ⊢ (dat0 V c).Φ 0 := .rfl

theorem Phi0_out (c : Dev nD) : (dat0 V c).Φ (Fin.last cfg0.N) ⊢ Pipeline.ΦA spec0 c := by
  have hN : cfg0.N = 10112 := N_0
  rw [show (dat0 V c).Φ (Fin.last cfg0.N) = Phi0 V c (Fin.last cfg0.N).val from rfl, Fin.val_last,
    Phi0_pos V c _ (by rw [hN]; decide), PhiA0_eq]
  iintro ⟨HS, HR, Hg⟩
  iframe HR Hg
  iexists _; iexact HS

end Cert.KernelIdeal.Hand

end
-- ==== Proof.Spec.lean ====
import Mathlib.Algebra.BigOperators.Group.Finset.Basic
import Mathlib.Algebra.BigOperators.Group.Finset.Piecewise
import Mathlib.Algebra.BigOperators.Intervals
import Mathlib.Algebra.BigOperators.Ring.Finset
import Mathlib.Data.EReal.Basic
import Mathlib.Data.EReal.Operations
import Mathlib.Tactic.Ring

noncomputable section

namespace Cert.Spec

open Finset

def hot (i0 : ℕ) (f : EReal) (r : ℕ) : EReal := if r = i0 then 1 - f else if r = i0 + 1 then f else 0

def interpK (P : ℕ → EReal) (i0 : ℕ) (f : EReal) : EReal :=
  ∑ q ∈ range 79, ∑ c ∈ range 256, hot i0 f (256 * q + c) * P (256 * q + c)

def interpR (P : ℕ → EReal) (i0 : ℕ) (f : EReal) : EReal := P i0 * (1 - f) + P (i0 + 1) * f

def srcT (s0 s1 s2 i0 i1 i2 : EReal) : EReal := (s0 * i0 + s1 * i1) + s2 * i2

def intK (N : ℕ) (y w : ℕ → EReal) : EReal := ∑ n ∈ range (N + 1), y n * w n

def intR (N : ℕ) (half : EReal) (x y : ℕ → EReal) : EReal :=
  half * ∑ n ∈ range N, (x (n + 1) - x n) * (y (n + 1) + y n)

def wK (kw k pr : ℕ → EReal) (j : ℕ) : EReal := ((kw j * k j) * k j) * pr j

def wR (k pr : ℕ → EReal) (j : ℕ) : EReal := (k j * k j) * pr j

def clK (c0 : EReal) (W X Y : ℕ → EReal) : EReal := c0 * ∑ j ∈ range 1024, (W j * X j) * Y j

def clR (c0 half : EReal) (k w X Y : ℕ → EReal) : EReal := c0 * intR 1023 half k (fun j => (w j * X j) * Y j)

end Cert.Spec

end
-- ==== Proof.Readers.lean ====
import Idealize.ShloMosaic.Lib.ValueIdx

noncomputable section

namespace Cert.Rd

open Idealize.ShloMosaic Idealize.ShloMosaic.ValueIdx

def rd1 {n : ℕ} (x : (⟨1, ![n]⟩ : Shape).Idx → EReal) (j : ℕ) : EReal :=
  if h : j < n then x (ix1 ⟨j, h⟩) else 0

def rd2 {n0 n1 : ℕ} (x : (⟨2, ![n0, n1]⟩ : Shape).Idx → EReal) (i j : ℕ) : EReal :=
  if h : i < n0 ∧ j < n1 then x (ix2 ⟨i, h.1⟩ ⟨j, h.2⟩) else 0

def rdN {n0 n1 : ℕ} (x : (⟨2, ![n0, n1]⟩ : Shape).Idx → BitVec 32) (i j : ℕ) : ℕ :=
  if h : i < n0 ∧ j < n1 then (x (ix2 ⟨i, h.1⟩ ⟨j, h.2⟩)).toNat else 0

theorem rd1_fin {n : ℕ} (x : (⟨1, ![n]⟩ : Shape).Idx → EReal) (j : Fin n) : rd1 x j.val = x (ix1 j) := dif_pos j.isLt
theorem rd1_lt {n : ℕ} (x : (⟨1, ![n]⟩ : Shape).Idx → EReal) (j : ℕ) (h : j < n) : rd1 x j = x (ix1 ⟨j, h⟩) := dif_pos h
theorem rd2_fin {n0 n1 : ℕ} (x : (⟨2, ![n0, n1]⟩ : Shape).Idx → EReal) (i : Fin n0) (j : Fin n1) :
    rd2 x i.val j.val = x (ix2 i j) := dif_pos ⟨i.isLt, j.isLt⟩
theorem rd2_lt {n0 n1 : ℕ} (x : (⟨2, ![n0, n1]⟩ : Shape).Idx → EReal) (i j : ℕ) (hi : i < n0) (hj : j < n1) :
    rd2 x i j = x (ix2 ⟨i, hi⟩ ⟨j, hj⟩) := dif_pos ⟨hi, hj⟩
theorem rdN_fin {n0 n1 : ℕ} (x : (⟨2, ![n0, n1]⟩ : Shape).Idx → BitVec 32) (i : Fin n0) (j : Fin n1) :
    rdN x i.val j.val = (x (ix2 i j)).toNat := dif_pos ⟨i.isLt, j.isLt⟩

end Cert.Rd

end
-- ==== Proof.KI.Reg0Value.lean ====
import proofs.«179317_j25280177504693_1_alg».proof.Proof.KI.Reg0Defs
import proofs.«179317_j25280177504693_1_alg».proof.Proof.Spec
import proofs.«179317_j25280177504693_1_alg».proof.Proof.Readers
import Idealize.ShloMosaic.Lib.Pipeline.Value
import Idealize.ShloMosaic.Lib.ValueLayout
import Idealize.ShloMosaic.Lib.IdealHost
import Idealize.ShloMosaic.PureOps.Ideal.Laws

noncomputable section
open scoped BigOperators

namespace Cert.KernelIdeal.HandV
open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Hand
open Cert.Rd

section Layout

variable {α : Type}

theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    rw [Shape.rowMajor_val_three, Shape.rowMajor_val_two]
    show p.val * b + q.val = (p.val * b + q.val) * 1 + u.val
    omega)

/-- Along an axis of extent one the only coordinate is zero. -/
theorem bc_ax {a : ℕ} (p : Fin a) : p.val = if a = 1 then 0 else p.val := by
  split <;> omega

theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) :=
  broadcastTo_apply v h (ix3 p q r) (ix3 p q (0 : Fin 1)) fun ax => match ax with
    | ⟨0, _⟩ => bc_ax p
    | ⟨1, _⟩ => bc_ax q
    | ⟨2, _⟩ => rfl

theorem broadcastTo_1b1_abc_apply {a b c : ℕ} (v : (⟨3, ![1, b, 1]⟩ : Shape).Idx → α)
    (h : (⟨3, ![1, b, 1]⟩ : Shape).Broadcasts ⟨3, ![a, b, c]⟩) (p : Fin a) (q : Fin b) (r : Fin c) :
    broadcastTo ⟨3, ![a, b, c]⟩ v h (ix3 p q r) = v (ix3 (0 : Fin 1) q (0 : Fin 1)) :=
  broadcastTo_apply v h (ix3 p q r) (ix3 (0 : Fin 1) q (0 : Fin 1)) fun ax => match ax with
    | ⟨0, _⟩ => rfl
    | ⟨1, _⟩ => bc_ax q
    | ⟨2, _⟩ => rfl

theorem broadcastTo_1ab_mab_apply {m a b : ℕ} (v : (⟨3, ![1, a, b]⟩ : Shape).Idx → α)
    (h : (⟨3, ![1, a, b]⟩ : Shape).Broadcasts ⟨3, ![m, a, b]⟩) (k : Fin m) (p : Fin a) (q : Fin b) :
    broadcastTo ⟨3, ![m, a, b]⟩ v h (ix3 k p q) = v (ix3 (0 : Fin 1) p q) :=
  broadcastTo_apply v h (ix3 k p q) (ix3 (0 : Fin 1) p q) fun ax => match ax with
    | ⟨0, _⟩ => rfl
    | ⟨1, _⟩ => bc_ax p
    | ⟨2, _⟩ => bc_ax q

theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (p : Fin n0) (q : Fin n1) (j : Fin m) (k : Fin n2) (hk : k.val = o + j.val) :
    extractStridedSlice ⟨3, ![n0, n1, m]⟩ ![0, 0, o] X h (ix3 p q j) = X (ix3 p q k) :=
  extractStridedSlice_apply _ X h _ _ fun ax => match ax with
    | ⟨0, _⟩ => (Nat.zero_add p.val).symm
    | ⟨1, _⟩ => (Nat.zero_add q.val).symm
    | ⟨2, _⟩ => hk

end Layout

abbrev DD : DotDims S8x600x256 S8x256x192 S8x600x192 := dot_S8x600x256_S8x256x192_S8x600x192_2_1_1_2_0_0

/-- The contraction's operand indices, coordinate by coordinate: the leading axis is a batch axis, the chunk row is contracted. -/
theorem idx_DD (j : S8x600x192.Idx) (k : DD.contr.Idx) :
    ((DD.lhsIdx j k 0 : ℕ) = j 0 ∧ (DD.lhsIdx j k 1 : ℕ) = j 1 ∧ (DD.lhsIdx j k 2 : ℕ) = k ⟨0, by decide⟩)
      ∧ (DD.rhsIdx j k 0 : ℕ) = j 0 ∧ (DD.rhsIdx j k 1 : ℕ) = k ⟨0, by decide⟩ ∧ (DD.rhsIdx j k 2 : ℕ) = j 2 := by
  refine ⟨⟨?_, ?_, ?_⟩, ?_, ?_, ?_⟩ <;>
    (simp [DotDims.lhsIdx, DotDims.rhsIdx, DD, dot_S8x600x256_S8x256x192_S8x600x192_2_1_1_2_0_0]; rfl)

def contrDD : DD.contr.Idx ≃ Fin 256 := contrEquiv1 DD 256 (by decide) (by decide)

theorem contrDD_symm_val (r : Fin 256) : ((contrDD.symm r) ⟨0, by decide⟩ : ℕ) = r.val :=
  contrEquiv1_symm_val DD 256 (by decide) (by decide) r

theorem lhsIdx_DD (b : Fin 8) (n : Fin 600) (col : Fin 192) (r : Fin 256) :
    DD.lhsIdx (ix3 b n col) (contrDD.symm r) = ix3 b n r := by
  obtain ⟨⟨h0, h1, h2⟩, -⟩ := idx_DD (ix3 b n col) (contrDD.symm r)
  funext a; apply Fin.ext
  match a with
  | ⟨0, _⟩ => exact h0
  | ⟨1, _⟩ => exact h1
  | ⟨2, _⟩ => exact h2.trans (contrDD_symm_val r)

theorem rhsIdx_DD (b : Fin 8) (n : Fin 600) (col : Fin 192) (r : Fin 256) :
    DD.rhsIdx (ix3 b n col) (contrDD.symm r) = ix3 b r col := by
  obtain ⟨-, h0, h1, h2⟩ := idx_DD (ix3 b n col) (contrDD.symm r)
  funext a; apply Fin.ext
  match a with
  | ⟨0, _⟩ => exact h0
  | ⟨1, _⟩ => exact h1.trans (contrDD_symm_val r)
  | ⟨2, _⟩ => exact h2

def maskW (w : BitVec 32) (f : EReal) (r : ℕ) : EReal :=
  if r = w.toNat then 1 - f else if r = (w + 1#32).toNat then f else 0

theorem rowWord (q k : ℕ) (hq : q < 79) (hk : k < 256) :
    IntOp.addi (Scalar.muli (BitVec.ofNat 32 q) 256#32) (BitVec.ofNat 32 k) = BitVec.ofNat 32 (256 * q + k) := by
  apply BitVec.eq_of_toNat_eq
  simp only [IntOp.addi, Scalar.muli, IntOp.muli, BitVec.toNat_add, BitVec.toNat_mul, BitVec.toNat_ofNat]
  omega

theorem ofNat_eq_iff (r : ℕ) (hr : r < 2 ^ 32) (w : BitVec 32) : BitVec.ofNat 32 r = w ↔ r = w.toNat := by
  constructor
  · intro h; rw [← h, BitVec.toNat_ofNat, Nat.mod_eq_of_lt hr]
  · intro h; rw [h, BitVec.ofNat_toNat, BitVec.setWidth_eq]

theorem select_mask (r : ℕ) (hr : r < 2 ^ 32) (w : BitVec 32) (f : EReal) :
    Scalar.select (IntOp.cmpi .eq (BitVec.ofNat 32 r) w) (1 - f)
        (Scalar.select (IntOp.cmpi .eq (BitVec.ofNat 32 r) (IntOp.addi w 1#32)) f 0) = maskW w f r := by
  unfold Scalar.select maskW IntOp.addi
  have e1 : (IntOp.cmpi .eq (BitVec.ofNat 32 r) w = 1) ↔ r = w.toNat := IntOp.cmpi_eq.trans (ofNat_eq_iff r hr w)
  have e2 : (IntOp.cmpi .eq (BitVec.ofNat 32 r) (w + 1#32) = 1) ↔ r = (w + 1#32).toNat :=
    IntOp.cmpi_eq.trans (ofNat_eq_iff r hr _)
  simp only [e1, e2]

theorem cmpi_apply {s : Shape} {w : ℕ} (p : CmpIPredicate) (x y : IVec s w) (i : s.Idx) :
    cmpi p x y i = IntOp.cmpi p (x i) (y i) := rfl

theorem addi_apply {s : Shape} {w : ℕ} (x y : IVec s w) (i : s.Idx) : addi x y i = IntOp.addi (x i) (y i) := rfl

theorem pay6_apply (i : grid0.Coords) (v3 : Vec Ideal S8x600 .i32) (v5 : Vec Ideal S8x600 .f32) (v29 : Vec Ideal S256x192 .bf16)
    (v35 : Vec Ideal S8x600x192 .f32) (b : Fin 8) (n : Fin 600) (col : Fin 192) :
    k0_pay6 i v3 v5 v29 v35 (ix3 b n col)
      = v35 (ix3 b n col) + ∑ k : Fin 256, maskW (v3 (ix2 b n)) (v5 (ix2 b n)) (256 * (i 1).val + k.val) * v29 (ix2 k col) := by
  unfold k0_pay6
  dsimp only
  rw [addf_apply]
  congr 1
  simp only [matmul]
  rw [Ideal.matmul_constant_zero_apply, ← Equiv.sum_comp contrDD.symm]
  refine Finset.sum_congr rfl fun r _ => ?_
  rw [lhsIdx_DD, rhsIdx_DD]
  have hq : (i 1).val < 79 := (i 1).isLt
  have hr : r.val < 256 := r.isLt
  congr 1
  · simp only [shapeCast_self, truncf_apply, select_apply, cmpi_apply, addi_apply, broadcast_apply, subf_apply,
      broadcastTo_ab1_abc_apply, shapeCast_ab_ab1_apply, iota_single_apply]
    rw [iota_single_apply .tc S8x600x256 32 (2 : Fin 3) iota_S8x600x256_d2_w32 (ix3 b n r)]
    show Scalar.select (IntOp.cmpi .eq (IntOp.addi (Scalar.muli (BitVec.ofNat 32 (i 1).val) 256#32) (BitVec.ofNat 32 r.val)) (v3 (ix2 b n)))
        (Ideal.ofBits .f32 0x3F800000#32 - v5 (ix2 b n))
        (Scalar.select (IntOp.cmpi .eq (IntOp.addi (Scalar.muli (BitVec.ofNat 32 (i 1).val) 256#32) (BitVec.ofNat 32 r.val))
          (IntOp.addi (v3 (ix2 b n)) 1#32)) (v5 (ix2 b n)) (Ideal.ofBits .f32 0x00000000#32)) = _
    rw [rowWord _ _ hq hr, Ideal.ofBits_one_f32, Ideal.ofBits_zero_f32]
    exact select_mask _ (by omega) _ _
  · simp only [shapeCast_self, broadcastTo_1ab_mab_apply, shapeCast_ab_1ab_apply]

theorem pay5_apply (x : S8x600x192.Idx) : (k0_pay5 (F := Ideal)) x = 0 := by
  unfold k0_pay5
  rw [shapeCast_self, broadcast_apply]
  exact Ideal.ofBits_zero_f32

theorem pay1_eq (v : FVec Ideal S8x600x192 .f32) : k0_pay1 v = v := by
  unfold k0_pay1
  exact shapeCast_self _ _

abbrev colOf (s : Fin 4) (l : Fin 48) : Fin 192 := ⟨48 * s.val + l.val, by have := s.isLt; have := l.isLt; omega⟩

theorem sampleSum_apply (x : FVec Ideal S8x600x48 .f32) (hφ : FKind.Formats .f32)
    (hacc : (0x00000000#32 : BitVec 32) = 0x00000000#32) (b : Fin 8) (l : Fin 48) :
    multiReduction .add [1] S8x48 x 0x00000000#32 reduces_S8x600x48_S8x48 hφ hacc (ix2 b l) = ∑ n : Fin 600, x (ix3 b n l) := by
  refine (Ideal.multiReduction_add_single x 0x00000000#32 reduces_S8x600x48_S8x48 hφ hacc (ix2 b l)).trans ?_
  refine Finset.sum_congr rfl fun n _ => congrArg x ?_
  funext ax; apply Fin.ext
  match ax with
  | ⟨0, _⟩ => rfl
  | ⟨1, _⟩ => rfl
  | ⟨2, _⟩ => rfl

theorem pay3_apply (v43 : Vec Ideal S8x600x192 .f32) (v48 v50 v52 : Vec Ideal S8x600 .f32) (v56 : Vec Ideal S1x600 .f32)
    (b : Fin 8) (l : Fin 48) :
    k0_pay3 v43 v48 v50 v52 v56 (ix2 b l)
      = ∑ n : Fin 600, ((v48 (ix2 b n) * v43 (ix3 b n (colOf 0 l)) + v50 (ix2 b n) * v43 (ix3 b n (colOf 1 l)))
          + v52 (ix2 b n) * v43 (ix3 b n (colOf 2 l))) * v56 (ix2 (0 : Fin 1) n) := by
  unfold k0_pay3 k0_pay2
  dsimp only
  rw [sampleSum_apply]
  refine Finset.sum_congr rfl fun n _ => ?_
  simp only [shapeCast_self, mulf_apply, addf_apply, broadcastTo_ab1_abc_apply, shapeCast_ab_ab1_apply,
    broadcastTo_1b1_abc_apply]
  rw [slice3_axis2_apply 0 v43 _ b n l (colOf 0 l) (by show 48 * 0 + l.val = 0 + l.val; omega),
    slice3_axis2_apply 48 v43 _ b n l (colOf 1 l) (by show 48 * 1 + l.val = 48 + l.val; omega),
    slice3_axis2_apply 96 v43 _ b n l (colOf 2 l) (by show 48 * 2 + l.val = 96 + l.val; omega)]

theorem pay4_apply (v43 : Vec Ideal S8x600x192 .f32) (v54 : Vec Ideal S8x600 .f32) (v56 : Vec Ideal S1x600 .f32)
    (b : Fin 8) (l : Fin 48) :
    k0_pay4 v43 v54 v56 (ix2 b l)
      = ∑ n : Fin 600, (v54 (ix2 b n) * v43 (ix3 b n (colOf 3 l))) * v56 (ix2 (0 : Fin 1) n) := by
  unfold k0_pay4 k0_pay2
  dsimp only
  rw [sampleSum_apply]
  refine Finset.sum_congr rfl fun n _ => ?_
  simp only [shapeCast_self, mulf_apply, broadcastTo_ab1_abc_apply, shapeCast_ab_ab1_apply, broadcastTo_1b1_abc_apply]
  rw [slice3_axis2_apply 144 v43 _ b n l (colOf 3 l) (by show 48 * 3 + l.val = 144 + l.val; omega)]

def rdW {a b : ℕ} (A : (⟨2, ![a, b]⟩ : Shape).Idx → BitVec 32) (x y : ℕ) : BitVec 32 :=
  if h : x < a ∧ y < b then A (ix2 ⟨x, h.1⟩ ⟨y, h.2⟩) else 0#32

theorem rdW_toNat {a b : ℕ} (A : (⟨2, ![a, b]⟩ : Shape).Idx → BitVec 32) (x y : ℕ) :
    (rdW A x y).toNat = rdN A x y := by
  unfold rdW rdN
  split <;> rfl

theorem rdW_lt {a b : ℕ} (A : (⟨2, ![a, b]⟩ : Shape).Idx → BitVec 32) (hA : ∀ x, (A x).toNat + 1 < 2 ^ 32) (x y : ℕ) :
    (rdW A x y).toNat + 1 < 2 ^ 32 := by
  unfold rdW
  split
  · exact hA _
  · decide

theorem maskW_eq_hot (w : BitVec 32) (hw : w.toNat + 1 < 2 ^ 32) (f : EReal) (r : ℕ) :
    maskW w f r = Cert.Spec.hot w.toNat f r := by
  unfold maskW Cert.Spec.hot
  rw [show (w + 1#32).toNat = w.toNat + 1 from by
    rw [BitVec.toNat_add, show (1#32 : BitVec 32).toNat = 1 from rfl, Nat.mod_eq_of_lt hw]]

variable (V : (c : Dev nD) → (b : Ref sig .tc) → Buf (Elt Ideal) ((c : Thread nD τ).loc b))

theorem lt_N0 (t : Fin cfg0.N) : t.val < 10112 := lt_of_lt_of_eq t.isLt N_0

/-- The grid runs row-major over (128, 79): point `t` has coordinates `(t / 79, t % 79)`, also as 32-bit words. -/
theorem coords0 (t : Fin cfg0.N) : (BitVec.ofNat 32 (grid0.coords t 0).val).toNat = t.val / 79
    ∧ (BitVec.ofNat 32 (grid0.coords t 1).val).toNat = t.val % 79 := by
  have ht := lt_N0 t
  rw [BitVec.toNat_ofNat, BitVec.toNat_ofNat]
  show t.val / 79 % 128 % 2 ^ 32 = t.val / 79 ∧ t.val / 1 % 79 % 2 ^ 32 = t.val % 79
  omega

theorem coords0_1 (t : Fin cfg0.N) : (grid0.coords t 1).val = t.val % 79 := by
  show t.val / 1 % 79 = _
  rw [Nat.div_one]

/-- Where block `t` of array `w` starts: row `256 (t % 79)` of the table, the origin of the weights, row `8 (t / 79)` of any other. -/
theorem off0 (t : Fin cfg0.N) (w : Fin cfg0.W) (a : Fin (cfg0.win w).shape.rank) :
    (cfg0.win w).index t a * (cfg0.win w).size a
      = if a.val = 0 then (if w = 2 then 256 * (t.val % 79) else if w = 7 then 0 else 8 * (t.val / 79)) else 0 := by
  obtain ⟨h0, h1⟩ := coords0 t
  have e := (congrArg (· * 8) h0).trans (Nat.mul_comm _ 8)
  have e' := (congrArg (· * 256) h1).trans (Nat.mul_comm _ 256)
  fin_cases w <;> fin_cases a
  exacts [e, rfl, e, rfl, e', rfl, e, rfl, e, rfl, e, rfl, e, rfl, rfl, rfl, e, rfl, e, rfl]

/-- An element of a block sits in the array at its own coordinate past the block's start. -/
theorem emb0 (w : Fin cfg0.W) (t : Fin cfg0.N) (y : ((cfg0.win w).xblock (grid0.coords t)).Idx) (a : Fin (cfg0.win w).shape.rank) :
    (((cfg0.win w).rect t).emb y a : ℕ)
      = (y a : ℕ) + if a.val = 0 then (if w = 2 then 256 * (t.val % 79) else if w = 7 then 0 else 8 * (t.val / 79)) else 0 :=
  ((cfg0.win w).rect_emb_val t y a).trans ((Nat.add_comm _ _).trans (congrArg ((y a : ℕ) + ·) (off0 t w a)))

theorem iblk0_0_apply (c : Dev nD) (t : Fin cfg0.N) (b : Fin 8) (n : Fin 600) :
    (iblk0 V c 0 t : Vec Ideal S8x600 .i32) (ix2 b n) = rdW (V c main_v21) (8 * (t.val / 79) + b.val) n.val := by
  unfold rdW
  rw [dif_pos ⟨by have := lt_N0 t; omega, n.isLt⟩]
  exact congrArg (V c main_v21) (Shape.idx_ext₂ ((emb0 0 t _ 0).trans (Nat.add_comm _ _)) (emb0 0 t _ 1))

theorem iblk0_1_apply (c : Dev nD) (t : Fin cfg0.N) (b : Fin 8) (n : Fin 600) :
    (iblk0 V c 1 t : Vec Ideal S8x600 .f32) (ix2 b n) = rd2 (V c main_v23) (8 * (t.val / 79) + b.val) n.val := by
  rw [rd2_lt _ _ _ (by have := lt_N0 t; omega) n.isLt]
  exact congrArg (V c main_v23) (Shape.idx_ext₂ ((emb0 1 t _ 0).trans (Nat.add_comm _ _)) (emb0 1 t _ 1))

theorem iblk0_2_apply (c : Dev nD) (t : Fin cfg0.N) (k : Fin 256) (col : Fin 192) :
    (iblk0 V c 2 t : Vec Ideal S256x192 .bf16) (ix2 k col) = rd2 (V c main_v26) (256 * (t.val % 79) + k.val) col.val := by
  rw [rd2_lt _ _ _ (by omega) col.isLt]
  exact congrArg (V c main_v26) (Shape.idx_ext₂ ((emb0 2 t _ 0).trans (Nat.add_comm _ _)) (emb0 2 t _ 1))

theorem iblk0_3_apply (c : Dev nD) (t : Fin cfg0.N) (b : Fin 8) (n : Fin 600) :
    (iblk0 V c 3 t : Vec Ideal S8x600 .f32) (ix2 b n) = rd2 (V c main_arg3) (8 * (t.val / 79) + b.val) n.val := by
  rw [rd2_lt _ _ _ (by have := lt_N0 t; omega) n.isLt]
  exact congrArg (V c main_arg3) (Shape.idx_ext₂ ((emb0 3 t _ 0).trans (Nat.add_comm _ _)) (emb0 3 t _ 1))

theorem iblk0_4_apply (c : Dev nD) (t : Fin cfg0.N) (b : Fin 8) (n : Fin 600) :
    (iblk0 V c 4 t : Vec Ideal S8x600 .f32) (ix2 b n) = rd2 (V c main_arg4) (8 * (t.val / 79) + b.val) n.val := by
  rw [rd2_lt _ _ _ (by have := lt_N0 t; omega) n.isLt]
  exact congrArg (V c main_arg4) (Shape.idx_ext₂ ((emb0 4 t _ 0).trans (Nat.add_comm _ _)) (emb0 4 t _ 1))

theorem iblk0_5_apply (c : Dev nD) (t : Fin cfg0.N) (b : Fin 8) (n : Fin 600) :
    (iblk0 V c 5 t : Vec Ideal S8x600 .f32) (ix2 b n) = rd2 (V c main_arg5) (8 * (t.val / 79) + b.val) n.val := by
  rw [rd2_lt _ _ _ (by have := lt_N0 t; omega) n.isLt]
  exact congrArg (V c main_arg5) (Shape.idx_ext₂ ((emb0 5 t _ 0).trans (Nat.add_comm _ _)) (emb0 5 t _ 1))

theorem iblk0_6_apply (c : Dev nD) (t : Fin cfg0.N) (b : Fin 8) (n : Fin 600) :
    (iblk0 V c 6 t : Vec Ideal S8x600 .f32) (ix2 b n) = rd2 (V c main_arg6) (8 * (t.val / 79) + b.val) n.val := by
  rw [rd2_lt _ _ _ (by have := lt_N0 t; omega) n.isLt]
  exact congrArg (V c main_arg6) (Shape.idx_ext₂ ((emb0 6 t _ 0).trans (Nat.add_comm _ _)) (emb0 6 t _ 1))

theorem iblk0_7_apply (c : Dev nD) (t : Fin cfg0.N) (u : Fin 1) (n : Fin 600) :
    (iblk0 V c 7 t : Vec Ideal S1x600 .f32) (ix2 u n) = rd2 (V c main_v40) 0 n.val := by
  rw [rd2_lt _ _ _ Nat.one_pos n.isLt]
  exact congrArg (V c main_v40) (Shape.idx_ext₂ ((emb0 7 t _ 0).trans (by show u.val + 0 = 0; omega)) (emb0 7 t _ 1))

theorem step_apply (c : Dev nD) (t : Fin cfg0.N) (s : Vec Ideal S8x600x192 .f32) (b : Fin 8) (n : Fin 600) (col : Fin 192) :
    k0_pay1 (k0_pay6 (grid0.coords t) (iblk0 V c 0 t) (iblk0 V c 1 t) (iblk0 V c 2 t) s) (ix3 b n col)
      = s (ix3 b n col) + ∑ k ∈ Finset.range 256,
          maskW (rdW (V c main_v21) (8 * (t.val / 79) + b.val) n.val) (rd2 (V c main_v23) (8 * (t.val / 79) + b.val) n.val)
              (256 * (t.val % 79) + k)
            * rd2 (V c main_v26) (256 * (t.val % 79) + k) col.val := by
  rw [pay1_eq, pay6_apply, iblk0_0_apply, iblk0_1_apply, coords0_1 t]
  congr 1
  refine (Finset.sum_congr rfl fun k _ => ?_).trans (Fin.sum_univ_eq_sum_range _ 256)
  rw [iblk0_2_apply]

def chunkSum (c : Dev nD) (x n col : ℕ) (Q : ℕ) : EReal :=
  ∑ q ∈ Finset.range Q, ∑ k ∈ Finset.range 256,
    maskW (rdW (V c main_v21) x n) (rd2 (V c main_v23) x n) (256 * q + k) * rd2 (V c main_v26) (256 * q + k) col

theorem scAt_apply (c : Dev nD) (kt : ℕ) (hkt : kt < 128) (b : Fin 8) (n : Fin 600) (col : Fin 192) :
    ∀ q, q < 79 → scAt V c (79 * kt + q) (ix3 b n col) = chunkSum V c (8 * kt + b.val) n.val col.val (q + 1)
  | 0, _ => by
    have hn : 79 * kt + 0 < cfg0.N := by rw [show cfg0.N = 10112 from N_0]; omega
    have h1 : (79 * kt + 0) / 79 = kt := by omega
    have h2 : (79 * kt + 0) % 79 = 0 := by omega
    rw [scAt_first V c _ hn h2, step_apply, pay5_apply, zero_add]
    unfold chunkSum
    rw [Finset.sum_range_one]
    dsimp only
    rw [h1, h2]
  | q + 1, hq => by
    have hn : 79 * kt + q + 1 < cfg0.N := by rw [show cfg0.N = 10112 from N_0]; omega
    have h1 : (79 * kt + q + 1) / 79 = kt := by omega
    have h2 : (79 * kt + q + 1) % 79 = q + 1 := by omega
    show scAt V c (79 * kt + q + 1) (ix3 b n col) = _
    rw [scAt_next V c _ hn (by omega), step_apply, scAt_apply c kt hkt b n col q (by omega)]
    unfold chunkSum
    rw [Finset.sum_range_succ _ (q + 1)]
    dsimp only
    rw [h1, h2]

def PhiAt (c : Dev nD) (s j n l : ℕ) : EReal :=
  Cert.Spec.interpK (fun r => rd2 (V c main_v26) r (48 * s + l)) (rdN (V c main_v21) j n) (rd2 (V c main_v23) j n)

def TlAt (c : Dev nD) (j l : ℕ) : EReal :=
  Cert.Spec.intK 599
    (fun n => Cert.Spec.srcT (rd2 (V c main_arg3) j n) (rd2 (V c main_arg4) j n) (rd2 (V c main_arg5) j n)
      (PhiAt V c 0 j n l) (PhiAt V c 1 j n l) (PhiAt V c 2 j n l))
    (fun n => rd2 (V c main_v40) 0 n)

def ElAt (c : Dev nD) (j l : ℕ) : EReal :=
  Cert.Spec.intK 599 (fun n => rd2 (V c main_arg6) j n * PhiAt V c 3 j n l) (fun n => rd2 (V c main_v40) 0 n)

def TlArr (c : Dev nD) : Vec Ideal S1024x48 .f32 := fun i => TlAt V c (i 0).val (i 1).val

def ElArr (c : Dev nD) : Vec Ideal S1024x48 .f32 := fun i => ElAt V c (i 0).val (i 1).val

/-- Row `r` of an output lies in the block of the last point of row block `r / 8`. -/
theorem cover0_8 (i : S1024x48.Idx) : ∃ t : Fin cfg0.N, (cfg0.win 8).flush t = true ∧ i ∈ ((cfg0.win 8).blk t).view.set := by
  have h0 : (i 0).val < 1024 := (i 0).isLt
  have hn : 79 * ((i 0).val / 8) + 78 < cfg0.N := by rw [show cfg0.N = 10112 from N_0]; omega
  refine ⟨⟨_, hn⟩, (flush0_8 _).mpr (by show (79 * ((i 0).val / 8) + 78) % 79 = 78; omega), ?_⟩
  have h := ((cfg0.win 8).blk ⟨_, hn⟩).view.emb_mem_set (ix2 ⟨(i 0).val % 8, Nat.mod_lt _ (by decide)⟩ (i 1))
  rwa [show ((cfg0.win 8).blk ⟨_, hn⟩).view.emb (ix2 ⟨(i 0).val % 8, Nat.mod_lt _ (by decide)⟩ (i 1)) = i from
    Shape.idx_ext₂ ((emb0 8 ⟨_, hn⟩ _ 0).trans (by show (i 0).val % 8 + 8 * ((79 * ((i 0).val / 8) + 78) / 79) = (i 0).val; omega))
      (emb0 8 ⟨_, hn⟩ _ 1)] at h

theorem cover0_9 (i : S1024x48.Idx) : ∃ t : Fin cfg0.N, (cfg0.win 9).flush t = true ∧ i ∈ ((cfg0.win 9).blk t).view.set := by
  have h0 : (i 0).val < 1024 := (i 0).isLt
  have hn : 79 * ((i 0).val / 8) + 78 < cfg0.N := by rw [show cfg0.N = 10112 from N_0]; omega
  refine ⟨⟨_, hn⟩, (flush0_9 _).mpr (by show (79 * ((i 0).val / 8) + 78) % 79 = 78; omega), ?_⟩
  have h := ((cfg0.win 9).blk ⟨_, hn⟩).view.emb_mem_set (ix2 ⟨(i 0).val % 8, Nat.mod_lt _ (by decide)⟩ (i 1))
  rwa [show ((cfg0.win 9).blk ⟨_, hn⟩).view.emb (ix2 ⟨(i 0).val % 8, Nat.mod_lt _ (by decide)⟩ (i 1)) = i from
    Shape.idx_ext₂ ((emb0 9 ⟨_, hn⟩ _ 0).trans (by show (i 0).val % 8 + 8 * ((79 * ((i 0).val / 8) + 78) / 79) = (i 0).val; omega))
      (emb0 9 ⟨_, hn⟩ _ 1)] at h

section Out

variable (c : Dev nD) (hI : ∀ x : S1024x600.Idx, ((V c main_v21 : Vec Ideal S1024x600 .i32) x).toNat + 1 < 2 ^ 32)
include hI

theorem scAt_last (t : Fin cfg0.N) (h78 : t.val % 79 = 78) (b : Fin 8) (n : Fin 600) (s : Fin 4) (l : Fin 48) :
    scAt V c t.val (ix3 b n (colOf s l)) = PhiAt V c s.val (8 * (t.val / 79) + b.val) n.val l.val := by
  have ht := lt_N0 t
  have e : t.val = 79 * (t.val / 79) + 78 := by omega
  rw [e, scAt_apply V c (t.val / 79) (by omega) b n (colOf s l) 78 (by omega)]
  have e' : (79 * (t.val / 79) + 78) / 79 = t.val / 79 := by omega
  rw [e']
  unfold chunkSum PhiAt Cert.Spec.interpK
  refine Finset.sum_congr rfl fun q _ => Finset.sum_congr rfl fun k _ => ?_
  rw [maskW_eq_hot _ (rdW_lt _ hI _ _), rdW_toNat]

theorem out8_apply (t : Fin cfg0.N) (h78 : t.val % 79 = 78) (b : Fin 8) (l : Fin 48) :
    k0_pay3 (scAt V c t.val) (iblk0 V c 3 t) (iblk0 V c 4 t) (iblk0 V c 5 t) (iblk0 V c 7 t) (ix2 b l)
      = TlAt V c (8 * (t.val / 79) + b.val) l.val := by
  rw [pay3_apply]
  unfold TlAt Cert.Spec.intK Cert.Spec.srcT
  refine (Finset.sum_congr rfl fun n _ => ?_).trans (Fin.sum_univ_eq_sum_range _ (599 + 1))
  rw [iblk0_3_apply, iblk0_4_apply, iblk0_5_apply, iblk0_7_apply,
    scAt_last V c hI t h78 b n 0 l, scAt_last V c hI t h78 b n 1 l, scAt_last V c hI t h78 b n 2 l]
  rfl

theorem out9_apply (t : Fin cfg0.N) (h78 : t.val % 79 = 78) (b : Fin 8) (l : Fin 48) :
    k0_pay4 (scAt V c t.val) (iblk0 V c 6 t) (iblk0 V c 7 t) (ix2 b l) = ElAt V c (8 * (t.val / 79) + b.val) l.val := by
  rw [pay4_apply]
  unfold ElAt Cert.Spec.intK
  refine (Finset.sum_congr rfl fun n _ => ?_).trans (Fin.sum_univ_eq_sum_range _ (599 + 1))
  rw [iblk0_6_apply, iblk0_7_apply, scAt_last V c hI t h78 b n 3 l]
  rfl

theorem flushed0_8_eq (t : Fin cfg0.N) (hf : (cfg0.win 8).flush t = true) :
    (dat0 V c).flushed 8 t = ((cfg0.win 8).blk t).view.read (Elt Ideal) (TlArr V c) := by
  have h78 := (flush0_8 t).mp hf
  show (cfg0.win 8).cut (grid0.coords t) ((dat0 V c).after 8 t) = _
  rw [after0_8 V c t h78]
  funext y
  obtain ⟨b, l, rfl⟩ : ∃ (b : Fin 8) (l : Fin 48), y = ix2 b l := ⟨y 0, y 1, eq_ix2 y⟩
  show k0_pay3 (scAt V c t.val) (iblk0 V c 3 t) (iblk0 V c 4 t) (iblk0 V c 5 t) (iblk0 V c 7 t) (ix2 b l)
    = TlArr V c (((cfg0.win 8).blk t).view.emb (ix2 b l))
  rw [out8_apply V c hI t h78 b l]
  unfold TlArr
  congr 1
  · exact ((emb0 8 t (ix2 b l) 0).trans (Nat.add_comm _ _)).symm
  · exact (emb0 8 t (ix2 b l) 1).symm

theorem flushed0_9_eq (t : Fin cfg0.N) (hf : (cfg0.win 9).flush t = true) :
    (dat0 V c).flushed 9 t = ((cfg0.win 9).blk t).view.read (Elt Ideal) (ElArr V c) := by
  have h78 := (flush0_9 t).mp hf
  show (cfg0.win 9).cut (grid0.coords t) ((dat0 V c).after 9 t) = _
  rw [after0_9 V c t h78]
  funext y
  obtain ⟨b, l, rfl⟩ : ∃ (b : Fin 8) (l : Fin 48), y = ix2 b l := ⟨y 0, y 1, eq_ix2 y⟩
  show k0_pay4 (scAt V c t.val) (iblk0 V c 6 t) (iblk0 V c 7 t) (ix2 b l)
    = ElArr V c (((cfg0.win 9).blk t).view.emb (ix2 b l))
  rw [out9_apply V c hI t h78 b l]
  unfold ElArr
  congr 1
  · exact ((emb0 9 t (ix2 b l) 0).trans (Nat.add_comm _ _)).symm
  · exact (emb0 9 t (ix2 b l) 1).symm

theorem arrAt0_8_apply (j : Fin 1024) (l : Fin 48) :
    ((dat0 V c).arrAt 8 cfg0.N : Vec Ideal S1024x48 .f32) (ix2 j l) = TlAt V c j.val l.val :=
  congrFun ((dat0 V c).arrAt_eq_of_cover 8 (TlArr V c) (fun t hf => flushed0_8_eq V c hI t hf) cover0_8) (ix2 j l)

theorem arrAt0_9_apply (j : Fin 1024) (l : Fin 48) :
    ((dat0 V c).arrAt 9 cfg0.N : Vec Ideal S1024x48 .f32) (ix2 j l) = ElAt V c j.val l.val :=
  congrFun ((dat0 V c).arrAt_eq_of_cover 9 (ElArr V c) (fun t hf => flushed0_9_eq V c hI t hf) cover0_9) (ix2 j l)

end Out

end Cert.KernelIdeal.HandV

end
-- ==== Proof.KI.Reg0Body.lean ====
import proofs.«179317_j25280177504693_1_alg».proof.Proof.Gen.KernelIdeal.Launch
import proofs.«179317_j25280177504693_1_alg».proof.Proof.Gen.KernelIdeal.Skeleton
import proofs.«179317_j25280177504693_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 79 = 0 :=
  (by decide +kernel : ∀ t : Fin grid0.N, cond0_0 (grid0.coords t) ↔ t.val % 79 = 0)

abbrev cond0_1 (i : grid0.Coords) : Prop := k0_cond2 i = 1#1
theorem hcond0_1 : ∀ t : Fin cfg0.N, cond0_1 (grid0.coords t) ↔ t.val % 79 = 78 :=
  (by decide +kernel : ∀ t : Fin grid0.N, cond0_1 (grid0.coords t) ↔ t.val % 79 = 78)

theorem zeros3 : (![0, 0, 0] : Fin 3 → Nat) = fun _ => 0 := funext fun a => by fin_cases a <;> rfl
theorem zeros2 : (![0, 0] : Fin 2 → Nat) = fun _ => 0 := funext fun a => by fin_cases a <;> rfl

local macro "rd_norm" : tactic => `(tactic| (
  repeat rw [View.readAt_eq_ld]
  repeat rw [View.readCov_unit_zero (S := S8x600x192) _ zeros3 inb_S8x600x192_S8x600x192_0_0_0]
  repeat rw [View.ld_unit_zero (S := S8x600) zeros2 inb_S8x600_S8x600_0_0]
  repeat rw [View.ld_unit_zero (S := S256x192) zeros2 inb_S256x192_S256x192_0_0]
  repeat rw [View.ld_unit_zero (S := S1x600) zeros2 inb_S1x600_S1x600_0_0]
  repeat rw [View.ld_unit_zero (S := S8x600x192) zeros3 inb_S8x600x192_S8x600x192_0_0_0]))

theorem idleAt0_8 : ∀ t : Fin cfg0.N, ¬cond0_1 (grid0.coords t) → cfg0.idle 8 (grid0.coords t) = true := by decide +kernel
theorem idleAt0_9 : ∀ t : Fin cfg0.N, ¬cond0_1 (grid0.coords t) → cfg0.idle 9 (grid0.coords t) = true := by decide +kernel
theorem liveAt0_8 : ∀ t : Fin cfg0.N, cond0_1 (grid0.coords t) → cfg0.idle 8 (grid0.coords t) = false := by decide +kernel
theorem liveAt0_9 : ∀ t : Fin cfg0.N, cond0_1 (grid0.coords t) → cfg0.idle 9 (grid0.coords t) = false := by decide +kernel

variable (c : Dev nD) (E : Set ℕ) (i : grid0.Coords)
    (arg2 : Memref sig .tc .vmem S8x600 .i32) (harg2 : arg2.IsWhole) (arg3 : Memref sig .tc .vmem S8x600 .f32) (harg3 : arg3.IsWhole) (arg4 : Memref sig .tc .vmem S256x192 .bf16) (harg4 : arg4.IsWhole) (arg5 : Memref sig .tc .vmem S8x600 .f32) (harg5 : arg5.IsWhole) (arg6 : Memref sig .tc .vmem S8x600 .f32) (harg6 : arg6.IsWhole) (arg7 : Memref sig .tc .vmem S8x600 .f32) (harg7 : arg7.IsWhole) (arg8 : Memref sig .tc .vmem S8x600 .f32) (harg8 : arg8.IsWhole) (arg9 : Memref sig .tc .vmem S1x600 .f32) (harg9 : arg9.IsWhole) (arg10 : Memref sig .tc .vmem S8x48 .f32) (harg10 : arg10.IsWhole) (arg11 : Memref sig .tc .vmem S8x48 .f32) (harg11 : arg11.IsWhole) (arg12 : Memref sig .tc .vmem S8x600x192 .f32) (harg12 : arg12.IsWhole)
    (x0 : Vec F S8x600 .i32) (x1 : Vec F S8x600 .f32) (x2 : Vec F S256x192 .bf16) (s : Vec F S8x600x192 .f32)

set_option maxHeartbeats 1000000 in
/-- Off the last inner coordinate the accumulator takes one step, from zero where the inner coordinate is 0. -/
theorem sound_acc (hc1 : ¬ cond0_1 i) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg12 fullShare s
        ∗ (iprop(owns (c : Thread nD τ) arg2 fullShare x0 ∗ owns (c : Thread nD τ) arg3 fullShare x1 ∗ owns (c : Thread nD τ) arg4 fullShare x2
            ∗ owns (c : Thread nD τ) arg12 fullShare (k0_pay1 (k0_pay6 i x0 x1 x2 (if cond0_0 i then k0_pay5 else s)))) -∗ K ⟨⟩))
      ⊢ wp frame (wpE (defs₀ (F := F)) Variants.none c none) E (cc0_interp_kernel i arg2 harg2 arg3 harg3 arg4 harg4 arg5 harg5 arg6 harg6 arg7 harg7 arg8 harg8 arg9 harg9 arg10 harg10 arg11 harg11 arg12 harg12) K := by
  by_cases hc0 : cond0_0 i <;> (first | rw [if_pos hc0] | rw [if_neg hc0]) <;> (
    simp only [cc0_interp_kernel_eq_skeleton]; unfold cc0_interp_kernel_skel
    unfold owns
    iintro ⟨⟨%f0, %hf0, H0⟩, ⟨%f1, %hf1, H1⟩, ⟨%f2, %hf2, H2⟩, ⟨%f12, %hf12, H12⟩, Hk⟩
    subst hf0; subst hf1; subst hf2; subst hf12
    sl_exec (disch := first | sl_exact hc0 | sl_exact hc1)
    sl_step
    iapply Hk
    isplitl [H0]; · iexists f0; iframe; ipureintro; rfl
    isplitl [H1]; · iexists f1; iframe; ipureintro; rfl
    isplitl [H2]; · iexists f2; iframe; ipureintro; rfl
    iexists _; iframe; ipureintro
    sl_unfold_run_names
    rw [View.read_writes_eq_canon _ _ _ (fun y => ⟨_, List.mem_cons_self, View.mem_set_unit_zero zeros3 inb_S8x600x192_S8x600x192_0_0_0 y⟩),
      View.canon_cons_unit_zero zeros3]
    rd_norm)

set_option maxHeartbeats 2000000 in
/-- At the last inner coordinate the accumulator takes one step and the two outputs are stored from the new accumulator. -/
theorem sound_last (x3 x4 x5 x6 : Vec F S8x600 .f32) (x7 : Vec F S1x600 .f32) (hc0 : ¬ cond0_0 i) (hc1 : cond0_1 i) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ (∃ d, owns (c : Thread nD τ) arg11 fullShare d)
        ∗ owns (c : Thread nD τ) arg12 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (k0_pay3 (k0_pay1 (k0_pay6 i x0 x1 x2 s)) x3 x4 x5 x7)
            ∗ owns (c : Thread nD τ) arg11 fullShare (k0_pay4 (k0_pay1 (k0_pay6 i x0 x1 x2 s)) x6 x7)
            ∗ owns (c : Thread nD τ) arg12 fullShare (k0_pay1 (k0_pay6 i x0 x1 x2 s))) -∗ K ⟨⟩))
      ⊢ wp frame (wpE (defs₀ (F := F)) Variants.none c none) E (cc0_interp_kernel i arg2 harg2 arg3 harg3 arg4 harg4 arg5 harg5 arg6 harg6 arg7 harg7 arg8 harg8 arg9 harg9 arg10 harg10 arg11 harg11 arg12 harg12) K := by
  simp only [cc0_interp_kernel_eq_skeleton]; unfold cc0_interp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%d11, %f11, -, H11⟩, ⟨%f12, %hf12, H12⟩, Hk⟩
  subst hf0; subst hf1; subst hf2; subst hf3; subst hf4; subst hf5; subst hf6; subst hf7; subst hf12
  sl_exec (disch := first | sl_exact hc0 | sl_exact hc1)
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  isplitl [H6]; · iexists f6; iframe; ipureintro; rfl
  isplitl [H7]; · iexists f7; iframe; ipureintro; rfl
  isplitl [H10]
  · iexists _; iframe; ipureintro
    sl_unfold_run_names
    rw [View.read_writes_eq_canon _ _ _ (fun y => ⟨_, List.mem_cons_self, View.mem_set_unit_zero zeros2 inb_S8x48_S8x48_0_0 y⟩),
      View.canon_cons_unit_zero zeros2]
    rd_norm
  isplitl [H11]
  · iexists _; iframe; ipureintro
    sl_unfold_run_names
    rw [View.read_writes_eq_canon _ _ _ (fun y => ⟨_, List.mem_cons_self, View.mem_set_unit_zero zeros2 inb_S8x48_S8x48_0_0 y⟩),
      View.canon_cons_unit_zero zeros2]
    rd_norm
  iexists _; iframe; ipureintro
  sl_unfold_run_names
  rw [View.read_writes_eq_canon _ _ _ (fun y => ⟨_, List.mem_cons_self, View.mem_set_unit_zero zeros3 inb_S8x600x192_S8x600x192_0_0_0 y⟩),
    View.canon_cons_unit_zero zeros3]
  rd_norm

end Cert.KernelIdeal.Hand

end
-- ==== Proof.KI.Reg0.lean ====
import proofs.«179317_j25280177504693_1_alg».proof.Proof.KI.Reg0Defs
import proofs.«179317_j25280177504693_1_alg».proof.Proof.KI.Reg0Body

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem scAt_mid (c : Dev nD) (t : Fin cfg0.N) (h : t.val % 79 ≠ 0) :
    scAt V c t.val = k0_pay1 (k0_pay6 (grid0.coords t) (iblk0 V c 0 t) (iblk0 V c 1 t) (iblk0 V c 2 t) (scAt V c (t.val - 1))) := by
  obtain ⟨n, hn⟩ := t
  cases n with
  | zero => exact absurd (Nat.zero_mod _) h
  | succ n => exact scAt_next V c n hn h

/-- One step, from zero at an inner coordinate 0 and else from what the point before left, is the accumulator after the point. -/
theorem scAt_step (c : Dev nD) (t : Fin cfg0.N) (s : Vec F S8x600x192 .f32) (hs : t.val ≠ 0 → s = scAt V c (t.val - 1)) :
    k0_pay1 (k0_pay6 (grid0.coords t) (iblk0 V c 0 t) (iblk0 V c 1 t) (iblk0 V c 2 t) (if cond0_0 (grid0.coords t) then k0_pay5 else s))
      = scAt V c t.val := by
  by_cases h : t.val % 79 = 0
  · rw [if_pos ((hcond0_0 t).mpr h), scAt_first V c t.val t.isLt h]
  · rw [if_neg (mt (hcond0_0 t).mp h), hs fun e => h (by rw [e]), ← scAt_mid V c t h]

theorem before0_in (c : Dev nD) (t : Fin cfg0.N) :
    (∀ d, (dat0 V c).before 0 t d = iblk0 V c 0 t) ∧ (∀ d, (dat0 V c).before 1 t d = iblk0 V c 1 t)
      ∧ (∀ d, (dat0 V c).before 2 t d = iblk0 V c 2 t) ∧ (∀ d, (dat0 V c).before 3 t d = iblk0 V c 3 t)
      ∧ (∀ d, (dat0 V c).before 4 t d = iblk0 V c 4 t) ∧ (∀ d, (dat0 V c).before 5 t d = iblk0 V c 5 t)
      ∧ (∀ d, (dat0 V c).before 6 t d = iblk0 V c 6 t) ∧ ∀ d, (dat0 V c).before 7 t d = iblk0 V c 7 t := by
  refine ⟨fun d => ?_, fun d => ?_, fun d => ?_, fun d => ?_, fun d => ?_, fun d => ?_, fun d => ?_, fun d => ?_⟩ <;>
    exact ((dat0 V c).before_in_eq_fetched _ rfl (fun _ => rfl) (fun _ _ _ => rfl) (fun _ => rfl) t d).trans rfl

set_option maxHeartbeats 4800000 in
/-- The body at a point: its inner coordinate picks the case; the accumulator goes from the invariant into the body and back one step on. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d))
      ∗ (∃ d, owns (c : Thread nD τ) (st0_6 t) fullShare ((dat0 V c).before 6 t d))
      ∗ (∃ d, owns (c : Thread nD τ) (st0_7 t) fullShare ((dat0 V c).before 7 t d))
      ∗ (∃ d, owns (c : Thread nD τ) (st0_8 t) fullShare ((dat0 V c).before 8 t d))
      ∗ (∃ d, owns (c : Thread nD τ) (st0_9 t) fullShare ((dat0 V c).before 9 t d)))
    ⊢ wp frame (wpE (defs₀ (F := F)) Variants.none c none) Set.univ (bodyAt0 t) fun _ =>
      iprop(Phi0 V c (t.val + 1) ∗ (dat0 V c).owesAt () t.castSucc
        ∗ owns (c : Thread nD τ) (st0_0 t) fullShare (iblk0 V c 0 t)
        ∗ owns (c : Thread nD τ) (st0_1 t) fullShare (iblk0 V c 1 t)
        ∗ owns (c : Thread nD τ) (st0_2 t) fullShare (iblk0 V c 2 t)
        ∗ owns (c : Thread nD τ) (st0_3 t) fullShare (iblk0 V c 3 t)
        ∗ owns (c : Thread nD τ) (st0_4 t) fullShare (iblk0 V c 4 t)
        ∗ owns (c : Thread nD τ) (st0_5 t) fullShare (iblk0 V c 5 t)
        ∗ owns (c : Thread nD τ) (st0_6 t) fullShare (iblk0 V c 6 t)
        ∗ owns (c : Thread nD τ) (st0_7 t) fullShare (iblk0 V c 7 t)
        ∗ (dat0 V c).leavesExact 8 t ∗ (dat0 V c).leavesExact 9 t) := by
  unfold bodyAt0
  obtain ⟨b0, b1, b2, b3, b4, b5, b6, b7⟩ := before0_in V c t
  simp only [b0, b1, b2, b3, b4, b5, b6, b7]
  rw [Phi0_succ, show (dat0 V c).Φ t.castSucc = Phi0 V c t.val from rfl]
  by_cases h1 : t.val % 79 = 78
  · have h0 : t.val % 79 ≠ 0 := by omega
    rw [Phi0_pos V c _ fun e => h0 (by rw [e]),
      show (dat0 V c).leavesExact 8 t = owns (c : Thread nD τ) (st0_8 t) fullShare ((dat0 V c).after 8 t) from by
        unfold Dat.leavesExact; rw [liveAt0_8 t ((hcond0_1 t).mpr h1)],
      show (dat0 V c).leavesExact 9 t = owns (c : Thread nD τ) (st0_9 t) fullShare ((dat0 V c).after 9 t) from by
        unfold Dat.leavesExact; rw [liveAt0_9 t ((hcond0_1 t).mpr h1)],
      after0_8 V c t h1, after0_9 V c t h1, scAt_mid V c t h0]
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_last c Set.univ (grid0.coords t) _ _ _ _ _ _ _ _ _ _ _ _ _ _ _ _ _ _ _ _ _ _ (iblk0 V c 0 t) (iblk0 V c 1 t) (iblk0 V c 2 t) (scAt V c (t.val - 1)) (iblk0 V c 3 t) (iblk0 V c 4 t) (iblk0 V c 5 t) (iblk0 V c 6 t) (iblk0 V c 7 t) (fun h => h0 ((hcond0_0 t).mp h)) ((hcond0_1 t).mpr h1) _)
    iframe H0 H1 H2 H3 H4 H5 H6 H7 HS
    isplitl [H8]; · iexists _; iexact H8
    isplitl [H9]; · iexists _; iexact H9
    iintro ⟨H0, H1, H2, H3, H4, H5, H6, H7, H8, H9, HS⟩
    iframe
  · rw [Dat.leavesExact_idle (dat0 V c) 8 t (idleAt0_8 t fun h => h1 ((hcond0_1 t).mp h)) (Bool.eq_false_iff.mpr fun h => h1 ((flush0_8 t).mp h)),
      Dat.leavesExact_idle (dat0 V c) 9 t (idleAt0_9 t fun h => h1 ((hcond0_1 t).mp h)) (Bool.eq_false_iff.mpr fun h => h1 ((flush0_9 t).mp h))]
    have hS : Phi0 V c t.val ⊢ iprop(∃ s, ⌜t.val ≠ 0 → s = scAt V c (t.val - 1)⌝ ∗ owns (c : Thread nD τ) scM0 fullShare s ∗ rest0 (F := F) c ∗ ∃ r, prngReg c r) := by
      by_cases hz : t.val = 0
      · rw [Phi0_zero V c _ hz, PhiA0_eq]; iintro ⟨⟨⟨%s, HS⟩, HR⟩, Hg⟩; iexists s; iframe; ipureintro; exact fun h => absurd hz h
      · rw [Phi0_pos V c _ hz]; iintro ⟨HS, HR, Hg⟩; iexists _; iframe; ipureintro; exact fun _ => rfl
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    ihave HΦ' := hS $$ HΦ
    icases HΦ' with ⟨%s, %hs, HS, HR, Hg⟩
    rw [← scAt_step V c t s hs]
    iapply (sound_acc c Set.univ (grid0.coords t) _ _ _ _ _ _ _ _ _ _ _ _ _ _ _ _ _ _ _ _ _ _ (iblk0 V c 0 t) (iblk0 V c 1 t) (iblk0 V c 2 t) s (fun h => h1 ((hcond0_1 t).mp h)) _)
    iframe H0 H1 H2 HS
    iintro ⟨H0, H1, H2, HS⟩
    iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«179317_j25280177504693_1_alg».proof.Proof.Gen.KernelIdeal.Launch
import proofs.«179317_j25280177504693_1_alg».proof.Proof.Gen.KernelIdeal.Skeleton
import proofs.«179317_j25280177504693_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S1024x48 := Rect.unit (s := S1024x48) ![0, 0] S1024x48.size inb_S1024x48_S1024x48_0_0
abbrev r1_b : Rect S1024x1 := Rect.unit (s := S1024x1) ![0, 0] S1024x1.size inb_S1024x1_S1024x1_0_0
abbrev r1_o : Rect S3x48 := Rect.unit (s := S3x48) ![0, 0] S3x48.size inb_S3x48_S3x48_0_0

def out1_3 (x0 : Vec F S1024x48 .f32) (x1 : Vec F S1024x48 .f32) (x2 : Vec F S1024x1 .f32) : Vec F S3x48 .f32 :=
  View.canon [⟨r1_o, k1_pay1 (View.ld x0 r1_a) (View.ld x1 r1_a) (View.ld x2 r1_b)⟩]

/-- A single rectangle that is the whole shape covers every index. -/
theorem cover1_3 (p0 : Vec F S3x48 .f32) (y : S3x48.Idx) :
    ∃ pc ∈ ([⟨r1_o, p0⟩] : List (View.Piece (Elt F) S3x48 .f32)), y ∈ pc.1.set :=
  View.cover_of_tiled [⟨r1_o, p0⟩] S3x48.size (by rfl) y

set_option maxHeartbeats 1000000 in
/-- The body leaves the three inputs as found and stores the payload of their contents over the whole output buffer. -/
theorem sound_kernel1 (c : Dev nD) (E : Set ℕ) (i : grid1.Coords)
    (arg1 : Memref sig .tc .vmem S1024x48 .f32) (harg1 : arg1.IsWhole) (arg2 : Memref sig .tc .vmem S1024x48 .f32) (harg2 : arg2.IsWhole)
    (arg3 : Memref sig .tc .vmem S1024x1 .f32) (harg3 : arg3.IsWhole) (arg4 : Memref sig .tc .vmem S3x48 .f32) (harg4 : arg4.IsWhole)
    (x0 : Vec F S1024x48 .f32) (x1 : Vec F S1024x48 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_cl_kernel i arg1 harg1 arg2 harg2 arg3 harg3 arg4 harg4) K := by
  simp only [cc1_cl_kernel_eq_skeleton]; unfold cc1_cl_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem zeros1 : (![0, 0] : Fin 2 → Nat) = fun _ => 0 := funext fun a => by fin_cases a <;> rfl

/-- A store over the whole shape of a payload of whole-shape loads leaves the payload of the loaded contents. -/
theorem after1_3 (c : Dev nD) (t : Fin cfg1.N) :
    (dat1 V c).after 3 t = k1_pay1 (iblk1 V c 0 t) (iblk1 V c 1 t) (iblk1 V c 2 t) := by
  rw [show (dat1 V c).after 3 t = out1_3 (iblk1 V c 0 t) (iblk1 V c 1 t) (iblk1 V c 2 t) from rfl]; unfold out1_3
  rw [View.canon_unit_zero (S := S3x48) zeros1 inb_S3x48_S3x48_0_0,
    View.ld_unit_zero (S := S1024x48) zeros1 inb_S1024x48_S1024x48_0_0,
    View.ld_unit_zero (S := S1024x48) zeros1 inb_S1024x48_S1024x48_0_0,
    View.ld_unit_zero (S := S1024x1) zeros1 inb_S1024x1_S1024x1_0_0]

theorem before1_in (c : Dev nD) (t : Fin cfg1.N) :
    (∀ d, (dat1 V c).before 0 t d = iblk1 V c 0 t) ∧ (∀ d, (dat1 V c).before 1 t d = iblk1 V c 1 t)
      ∧ ∀ d, (dat1 V c).before 2 t d = iblk1 V c 2 t := by
  refine ⟨fun d => ?_, fun d => ?_, fun d => ?_⟩ <;>
    exact ((dat1 V c).before_in_eq_fetched _ rfl (fun _ => rfl) (fun _ _ _ => rfl) (fun _ => rfl) t d).trans rfl

/-- The kernel's triple at a grid point, framed by the invariant. -/
theorem sound_body1 (c : Dev nD) (t : Fin cfg1.N) :
    iprop(Pipeline.ΦA spec1 c ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) fun _ =>
      iprop(Pipeline.ΦA spec1 c ∗ (dat1 V c).owesAt () t.castSucc
        ∗ owns (c : Thread nD τ) (st1_0 t) fullShare (iblk1 V c 0 t)
        ∗ owns (c : Thread nD τ) (st1_1 t) fullShare (iblk1 V c 1 t)
        ∗ owns (c : Thread nD τ) (st1_2 t) fullShare (iblk1 V c 2 t)
        ∗ owns (c : Thread nD τ) (st1_3 t) fullShare (out1_3 (iblk1 V c 0 t) (iblk1 V c 1 t) (iblk1 V c 2 t))) := by
  unfold bodyAt1
  obtain ⟨b0, b1, b2⟩ := before1_in V c t
  simp only [b0, b1, b2]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
import proofs.«179317_j25280177504693_1_alg».proof.Proof.Gen.KernelIdeal.Regions
import proofs.«179317_j25280177504693_1_alg».proof.Proof.KI.Reg0
import proofs.«179317_j25280177504693_1_alg».proof.Proof.KI.Reg1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
abbrev W8 : Dev nD → Valuation τ sig (Elt F) := fun c => StableHlo.after hostOps0_7 (W7 m ρ c)
abbrev W9 : Dev nD → Valuation τ sig (Elt F) := fun c => StableHlo.after hostOps0_8 (W8 m ρ c)
abbrev V9 : (c : Dev nD) → (b : Ref sig .tc) → Buf (Elt F) ((c : Thread nD τ).loc b) := fun c b => W9 m ρ c b
def W10 (c : Dev nD) : Valuation τ sig (Elt F) :=
  Pipeline.withArrays spec0 c (W9 m ρ c) fun w => (dat0 (V9 m ρ) c).arrAt w cfg0.N
theorem W10_arr (c : Dev nD) (w : Fin cfg0.W) :
    W10 m ρ c (Proc.devRef .tc (Pipeline.arrRef spec0 w)) = (dat0 (V9 m ρ) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m ρ c (Proc.devRef .tc b) = W9 m ρ c (Proc.devRef .tc b) := by
  unfold W10; exact Pipeline.withArrays_of_ne spec0 c _ _ b hb
abbrev W11 : Dev nD → Valuation τ sig (Elt F) := fun c => StableHlo.after hostOps1 (W10 m ρ c)
abbrev W12 : Dev nD → Valuation τ sig (Elt F) := fun c => StableHlo.after hostOps1_1 (W11 m ρ c)
abbrev W13 : Dev nD → Valuation τ sig (Elt F) := fun c => StableHlo.after hostOps1_2 (W12 m ρ c)
abbrev V13 : (c : Dev nD) → (b : Ref sig .tc) → Buf (Elt F) ((c : Thread nD τ).loc b) := fun c b => W13 m ρ c b
def W14 (c : Dev nD) : Valuation τ sig (Elt F) :=
  Pipeline.withArrays spec1 c (W13 m ρ c) fun w => (dat1 (V13 m ρ) c).arrAt w cfg1.N

theorem W10_main_v41_0 (c : Dev nD) : W10 m ρ c (Proc.devRef .tc main_v41_0) = (dat0 (V9 m ρ) c).arrAt 8 cfg0.N :=
  W10_arr m ρ c 8
theorem W10_main_v41_1 (c : Dev nD) : W10 m ρ c (Proc.devRef .tc main_v41_1) = (dat0 (V9 m ρ) c).arrAt 9 cfg0.N :=
  W10_arr m ρ c 9
theorem W14_main_v71 (c : Dev nD) : W14 m ρ c (Proc.devRef .tc main_v71) = (dat1 (V13 m ρ) c).arrAt 3 cfg1.N := by
  unfold W14; exact Pipeline.withArrays_arr spec1 launch1.win.arr_inj c _ _ 3

abbrev preW : List (Ref sig .tc) :=
  hostOps0_W ++ (hostOps0_1_W ++ (hostOps0_2_W ++ (hostOps0_3_W ++ (hostOps0_4_W ++ (hostOps0_5_W ++ (hostOps0_6_W ++ (hostOps0_7_W ++ hostOps0_8_W)))))))
abbrev midW : List (Ref sig .tc) := hostOps1_W ++ (hostOps1_1_W ++ hostOps1_2_W)

/-- A stretch leaves a reference it does not write as it was, so a reference none of the first nine writes is as launched. -/
theorem W9_of (c : Dev nD) (r : Ref sig .tc) (h : r ∉ preW) :
    W9 m ρ c (Proc.devRef .tc r) = m ((c : Thread nD τ).loc r) := by
  simp only [preW, List.mem_append, not_or] at h
  obtain ⟨h0, h1, h2, h3, h4, h5, h6, h7, h8⟩ := h
  exact (V9_of m c r h8).trans <| (V8_of m c r h7).trans <| (V7_of m c r h6).trans <| (V6_of m c r h5).trans <|
    (V5_of m c r h4).trans <| (V4_of m c r h3).trans <| (V3_of m c r h2).trans <| (V2_of m c r h1).trans (V1_of m c r h0)

/-- What makes a reference end as launched: no stretch writes it, region 1 has no window on it, region 0 only input windows. -/
abbrev ArgOK (r : Ref sig .tc) : Prop :=
  r ∉ preW ∧ r ∉ midW ∧ (∀ w, Pipeline.arrRef spec1 w ≠ r) ∧ ∀ w, Pipeline.arrRef spec0 w = r → (cfg0.win w).isOut = false

theorem W14_arg (c : Dev nD) (r : Ref sig .tc) (h : ArgOK r) :
    W14 m ρ c (Proc.devRef .tc r) = m ((c : Thread nD τ).loc r) := by
  obtain ⟨hp, hm, h1, h0⟩ := h
  simp only [midW, List.mem_append, not_or] at hm
  unfold W14
  refine (Pipeline.withArrays_of_ne spec1 c _ _ r h1).trans <| (StableHlo.after_of_writes_sub hostOps1_2 _ hostOps1_2_writes hm.2.2).trans <|
    (StableHlo.after_of_writes_sub hostOps1_1 _ hostOps1_1_writes hm.2.1).trans <| (StableHlo.after_of_writes_sub hostOps1 _ hostOps1_writes hm.1).trans ?_
  by_cases hr : ∃ w, Pipeline.arrRef spec0 w = r
  · obtain ⟨w, rfl⟩ := hr
    exact (W10_arr m ρ c w).trans <| ((dat0 (V9 m ρ) c).arrAt_in w (h0 w rfl) _).trans <| (A_eq0 (V9 m ρ) c w).trans (W9_of m ρ c _ hp)
  · exact (W10_of_ne m ρ c r fun w e => hr ⟨w, e⟩).trans (W9_of m ρ c r hp)

def pdats : (p : Fin 2) → (c : Dev nD) → Dat τ (Elt F) Unit ℕ (UR sig nD τ) ℕ (Pipeline.pin (pcfgs (F := F)) adm p) c
  | ⟨0, _⟩ => fun c => dat0 (V9 m ρ) c
  | ⟨1, _⟩ => fun c => dat1 (V13 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- A region entered with the buffers at `W` leaves them at `W` updated at its arrays. -/
def regOf (p : Fin 2) (lf : Pipeline.LaunchFacts (nD := nD) (τ := τ) cfgs p) (W : Dev nD → Valuation τ sig (Elt F))
    (hb : ∀ c, BodyObligation (pdats m ρ p c) (defs₀ (F := F)) 𝒱₀ () Set.univ)
    (hq : ∀ c w, (pdats m ρ p c).q w = fullShare) (ho : ∀ c t, (pdats m ρ p c).owed t = 0) (hr : ∀ c x, x ∈ (pdats m ρ p c).recorded 0)
    (hA : ∀ c w, (pdats m ρ p c).A w = W c (Pipeline.arrRef (cfgs p).spec w))
    (hi : ∀ c, Pipeline.ΦA (cfgs p).spec c ⊢ (pdats m ρ p c).Φ 0)
    (hl : ∀ c, (pdats m ρ p c).Φ (Fin.last _) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (W c) ∗ R c)
  post c := iprop(StableHlo.held (c : Thread nD τ) (Pipeline.ucRefs τ sig)
    (Pipeline.withArrays (cfgs p).spec c (W c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [ho c 0]
      icases HO with ⟨%W', HO⟩; iexists W'; iframe; ipureintro; exact fun x _ => Or.inl (hr c x)
    isplitl [Hp]; · iexact Hp
    iexact Hrest
  hin c := by
    refine .trans ?_ (hi c)
    unfold Pipeline.ΦA
    iintro ⟨Hp, -, Hr⟩
    isplitl [Hr]; · iexact Hr
    iexact Hp
  hout c := by
    refine (hl c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => W c b)
      (fun b => Pipeline.withArrays (cfgs p).spec c (W c) (fun w => (pdats m ρ p c).arrAt w (cfgs p).N) b)
      ((pdats m ρ p c).arrAt · (cfgs p).N)
      (fun w => (Pipeline.withArrays_arr (cfgs p).spec lf.win.arr_inj c (W c) (fun w => (pdats m ρ p c).arrAt w (cfgs p).N) w).symm)
      fun b hb => Pipeline.withArrays_of_ne (cfgs p).spec c (W c) _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho c (Fin.last _)]
    icases HO with ⟨%W', -, HO⟩; iexists W'; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .region (regOf m ρ 0 launch0 (W9 m ρ) (body_obligation0 (V9 m ρ)) (fun _ _ => rfl) (fun _ _ => rfl) (fun _ _ => trivial) (A_eq0 (V9 m ρ))
      (Phi0_in (V9 m ρ)) (Phi0_out (V9 m ρ))),
    .host (hseg hostOps1 hostOps1_sub hostOps1_fresh (W10 m ρ)),
    .host (hseg hostOps1_1 hostOps1_1_sub hostOps1_1_fresh (W11 m ρ)),
    .host (hseg hostOps1_2 hostOps1_2_sub hostOps1_2_fresh (W12 m ρ)),
    .region (regOf m ρ 1 launch1 (W13 m ρ) (body_obligation1 (V13 m ρ)) (fun _ _ => rfl) (fun _ _ => rfl) (fun _ _ => trivial) (A_eq1 (V13 m ρ))
      (fun _ => .rfl) (fun _ => .rfl)) ]

set_option backward.isDefEq.respectTransparency.types false in
/-- The launch over @main's fourteen segments: every fair execution ends, and each core's buffers then hold `W14`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rewrite [main_chain c, Pipeline.Seg.run_eq_chain]; exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W14 m ρ c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun _ h => h)

/-- Every argument is `ArgOK`, so it ends at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  MeshRun.mono (fun _ h c => by
    and_intros <;> exact (h c _ (mem_uc _ (by decide))).trans (W14_arg m ρ c _ (by decide))) (run_main m ρ)

end Cert.KernelIdeal.Hand

end
-- ==== Proof.SpecHost.lean ====
import Idealize.ShloMosaic.PureOps.Ideal

noncomputable section

namespace Cert.Spec

open Idealize.ShloMosaic

def twoK : EReal := Ideal.ofBits .f32 0x40000000#32

def trapzK (x : ℕ → EReal) (N t : ℕ) : EReal :=
  if t = 0 then Ideal.div (x 1 - x 0) twoK
  else if t = N then Ideal.div (x N - x (N - 1)) twoK
  else Ideal.div ((x t - x (t - 1)) + (x (t + 1) - x t)) twoK

end Cert.Spec

end
-- ==== Proof.LibNary3.lean ====
import Idealize.ShloMosaic.Lib.StableHlo.Run

namespace Idealize.ShloMosaic.StableHlo

variable {τ : Topo} {sig : RefSig} {Val : EltTy → Type} {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

macro "after_results_simp3" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

macro "after_results3" : tactic =>
  `(tactic| (simp only [after_cons, after_nil]
             repeat (first
               | rw [nullary_result] | rw [unary_result] | rw [binary_result] | rw [ternary_result] | rw [quaternary_result]
               | rw [reshape_result] | rw [nary3_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Idealize.ShloMosaic.StableHlo
-- ==== Proof.LibWeights.lean ====
import proofs.«179317_j25280177504693_1_alg».proof.Proof.SpecHost
import proofs.«179317_j25280177504693_1_alg».proof.Proof.Readers
import Idealize.ShloMosaic.Lib.Pipeline.Value
import Idealize.ShloMosaic.Lib.ValueIdx
import Idealize.ShloMosaic.Lib.IdealHost

noncomputable section

namespace Cert.Spec
open Idealize.ShloMosaic Idealize.ShloMosaic.ValueIdx Cert.Rd

abbrev V1 (n : ℕ) : Shape := ⟨1, ![n]⟩
abbrev S0 : Shape := ⟨0, ![]⟩

variable {N : ℕ}

def stepsOf (x : FVec Ideal (V1 (N + 2)) .f32) (s1 : (V1 (N + 2)).Slices ![1] (V1 (N + 1)))
    (s0 : (V1 (N + 2)).Slices ![0] (V1 (N + 1))) : FVec Ideal (V1 (N + 1)) .f32 :=
  subf (extractStridedSlice (V1 (N + 1)) ![1] x s1) (extractStridedSlice (V1 (N + 1)) ![0] x s0)

abbrev twList (d : FVec Ideal (V1 (N + 1)) .f32) (a0 : (V1 (N + 1)).Slices ![0] (V1 1)) (aN : (V1 (N + 1)).Slices ![N] (V1 1))
    (m0 : (V1 (N + 1)).Slices ![0] (V1 N)) (m1 : (V1 (N + 1)).Slices ![1] (V1 N))
    (b1 : S0.BroadcastsInDim (V1 1) (![] : Fin 0 → Fin (V1 1).rank)) (bN : S0.BroadcastsInDim (V1 N) (![] : Fin 0 → Fin (V1 N).rank)) :
    List ((s : Shape) × (s.Idx → Ideal .f32)) :=
  [⟨V1 1, Host.divf (extractStridedSlice (V1 1) ![0] d a0) (broadcastInDim (V1 1) ![] b1 (constant S0 .f32 0x40000000#32))⟩,
   ⟨V1 N, Host.divf (addf (extractStridedSlice (V1 N) ![0] d m0) (extractStridedSlice (V1 N) ![1] d m1))
      (broadcastInDim (V1 N) ![] bN (constant S0 .f32 0x40000000#32))⟩,
   ⟨V1 1, Host.divf (extractStridedSlice (V1 1) ![N] d aN) (broadcastInDim (V1 1) ![] b1 (constant S0 .f32 0x40000000#32))⟩]

theorem slice1_apply {n k : ℕ} (off : ℕ) (x : (V1 n).Idx → EReal) (h : (V1 n).Slices ![off] (V1 k)) (i : ℕ) (hi : i < k)
    (hlt : off + i < n) : extractStridedSlice (V1 k) ![off] x h (ix1 ⟨i, hi⟩) = rd1 x (off + i) := by
  rw [rd1_lt x _ hlt]
  exact extractStridedSlice_apply _ x h _ _ (fun a => match a with | ⟨0, _⟩ => rfl)

theorem stepsOf_apply (x : FVec Ideal (V1 (N + 2)) .f32) (s1 s0) (i : ℕ) (hi : i < N + 1) :
    stepsOf x s1 s0 (ix1 ⟨i, hi⟩) = rd1 x (i + 1) - rd1 x i := by
  show extractStridedSlice (V1 (N + 1)) ![1] x s1 (ix1 ⟨i, hi⟩) - extractStridedSlice (V1 (N + 1)) ![0] x s0 (ix1 ⟨i, hi⟩) = _
  rw [slice1_apply 1 x s1 i hi (by omega), slice1_apply 0 x s0 i hi (by omega), Nat.add_comm 1 i, Nat.zero_add]

/-- Half the first step, half of each sum of two neighbouring steps and half the last step, laid end to end, are the trapezoid weights. -/
theorem twList_apply (x : FVec Ideal (V1 (N + 2)) .f32) (s1 s0 a0 aN m0 m1 b1 bN)
    (hc : Shape.Concatenates ((twList (stepsOf x s1 s0) a0 aN m0 m1 b1 bN).map (·.1)) (V1 (N + 2)) 0) (j : ℕ) (hj : j < N + 2) :
    concatenate (V1 (N + 2)) 0 (twList (stepsOf x s1 s0) a0 aN m0 m1 b1 bN) hc (ix1 ⟨j, hj⟩) = trapzK (rd1 x) (N + 1) j := by
  unfold trapzK
  have hone : ∀ (b : Fin 1) (hb : b ≠ 0), False := fun b hb => hb (Fin.ext (Nat.lt_one_iff.mp b.isLt))
  by_cases h0 : j = 0
  · rw [if_pos h0, concatenate_apply_piece 0 _ hc (ix1 ⟨j, hj⟩) 0 (by show (0 : ℕ) < 3; decide) (V1 1) _ rfl rfl 0 rfl (ix1 (0 : Fin 1))
      (fun b hb => (hone b hb).elim) (by show 0 + 0 = j; omega)]
    show Ideal.div (extractStridedSlice (V1 1) ![0] (stepsOf x s1 s0) a0 (ix1 ⟨0, Nat.one_pos⟩)) twoK = _
    rw [slice1_apply 0 _ a0 0 Nat.one_pos (by omega), rd1_lt _ _ (by omega : 0 + 0 < N + 1), stepsOf_apply]
  · rw [if_neg h0]
    by_cases h1 : j = N + 1
    · rw [if_pos h1, concatenate_apply_piece 0 _ hc (ix1 ⟨j, hj⟩) 2 (by show (2 : ℕ) < 3; decide) (V1 1) _ rfl rfl (N + 1) (by simp; omega) (ix1 (0 : Fin 1))
        (fun b hb => (hone b hb).elim) (by show N + 1 + 0 = j; omega)]
      show Ideal.div (extractStridedSlice (V1 1) ![N] (stepsOf x s1 s0) aN (ix1 ⟨0, Nat.one_pos⟩)) twoK = _
      rw [slice1_apply N _ aN 0 Nat.one_pos (by omega), rd1_lt _ _ (by omega : N + 0 < N + 1), stepsOf_apply]
      simp only [Nat.add_zero, Nat.add_sub_cancel]
    · rw [if_neg h1, concatenate_apply_piece 0 _ hc (ix1 ⟨j, hj⟩) 1 (by show (1 : ℕ) < 3; decide) (V1 N) _ rfl rfl 1 rfl (ix1 ⟨j - 1, by omega⟩)
        (fun b hb => (hone b hb).elim) (by show 1 + (j - 1) = j; omega)]
      show Ideal.div (extractStridedSlice (V1 N) ![0] (stepsOf x s1 s0) m0 (ix1 ⟨j - 1, _⟩)
        + extractStridedSlice (V1 N) ![1] (stepsOf x s1 s0) m1 (ix1 ⟨j - 1, _⟩)) twoK = _
      rw [slice1_apply 0 _ m0 (j - 1) (by omega) (by omega), slice1_apply 1 _ m1 (j - 1) (by omega) (by omega),
        rd1_lt _ _ (by omega : 0 + (j - 1) < N + 1), rd1_lt _ _ (by omega : 1 + (j - 1) < N + 1), stepsOf_apply, stepsOf_apply]
      have e1 : 0 + (j - 1) = j - 1 := by omega
      have e2 : 1 + (j - 1) = j := by omega
      have e3 : j - 1 + 1 = j := by omega
      rw [e1, e2, e3]

end Cert.Spec

end
-- ==== Proof.KI.HostValues.lean ====
import proofs.«179317_j25280177504693_1_alg».proof.Proof.KI.Run
import proofs.«179317_j25280177504693_1_alg».proof.Proof.Shared
import proofs.«179317_j25280177504693_1_alg».proof.Proof.Readers
import proofs.«179317_j25280177504693_1_alg».proof.Proof.SpecHost
import proofs.«179317_j25280177504693_1_alg».proof.Proof.LibNary3
import proofs.«179317_j25280177504693_1_alg».proof.Proof.LibWeights
import Idealize.ShloMosaic.Lib.KernelVsHost
import Idealize.ShloMosaic.Lib.IdealHost

noncomputable section

namespace Cert.KernelIdeal.HandV
open Cert.KernelIdeal Cert.KernelIdeal.Gen Cert.KernelIdeal.Hand
open Idealize.ShloMosaic Idealize.ShloMosaic.TcCoe Idealize.ShloMosaic.ValueIdx Idealize.SL.Sem
open Cert.Rd Cert.Spec

def clipF (lo hi : FVec Ideal S_ .f32) (x : FVec Ideal S1024x600 .f32) : FVec Ideal S1024x600 .f32 :=
  minimumf (broadcastInDim S1024x600 ![] bcast_S_S1024x600 hi) (maximumf (broadcastInDim S1024x600 ![] bcast_S_S1024x600 lo) x)

def floorW (x : FVec Ideal S1024x600 .f32) : IVec S1024x600 32 := fptosi 32 (Host.floor x)

def clipI (lo hi : IVec S_ 32) (x : IVec S1024x600 32) : IVec S1024x600 32 :=
  minsi (broadcastInDim S1024x600 ![] bcast_S_S1024x600 hi) (maxsi (broadcastInDim S1024x600 ![] bcast_S_S1024x600 lo) x)

def remF (p : FVec Ideal S1024x600 .f32) (i : IVec S1024x600 32) : FVec Ideal S1024x600 .f32 := subf p (sitofp .f32 i)

def catF (T : Fin 4 → FVec Ideal S20000x48 .f32) : FVec Ideal S20000x192 .f32 :=
  concatenate S20000x192 1 [⟨S20000x48, T 0⟩, ⟨S20000x48, T 1⟩, ⟨S20000x48, T 2⟩, ⟨S20000x48, T 3⟩]
    concatenates_S20000x48_S20000x48_S20000x48_S20000x48_S20000x192_d1

def padF (x : FVec Ideal S20000x192 .f32) (z : IVec S_ 32) : FVec Ideal S20224x192 .f32 :=
  pad S20224x192 ![0, 0] ![224, 0] ![0, 0] x (sitofp .f32 z : FVec Ideal S_ .f32) pads_S20000x192_S20224x192_02240_000 h_S_

def narrowF (x : FVec Ideal S20224x192 .f32) : FVec Ideal S20224x192 .bf16 := truncf .bf16 x bitsLt_bf16_f32

def diffF (x : FVec Ideal S600 .f32) : FVec Ideal S599 .f32 :=
  subf (extractStridedSlice S599 ![1] x slices_S600_S599_1) (extractStridedSlice S599 ![0] x slices_S600_S599_0)

def headF (d : FVec Ideal S599 .f32) : FVec Ideal S1 .f32 :=
  Host.divf (extractStridedSlice S1 ![0] d slices_S599_S1_0) (broadcastInDim S1 ![] bcast_S_S1 (constant S_ .f32 0x40000000#32))

def lastF (d : FVec Ideal S599 .f32) : FVec Ideal S1 .f32 :=
  Host.divf (extractStridedSlice S1 ![598] d slices_S599_S1_598) (broadcastInDim S1 ![] bcast_S_S1 (constant S_ .f32 0x40000000#32))

def midF (d : FVec Ideal S599 .f32) : FVec Ideal S598 .f32 :=
  Host.divf (addf (extractStridedSlice S598 ![0] d slices_S599_S598_0) (extractStridedSlice S598 ![1] d slices_S599_S598_1))
    (broadcastInDim S598 ![] bcast_S_S598 (constant S_ .f32 0x40000000#32))

def rowF (h : FVec Ideal S1 .f32) (mid : FVec Ideal S598 .f32) (l : FVec Ideal S1 .f32) : FVec Ideal S1x600 .f32 :=
  broadcastInDim S1x600 ![1] bcast_S600_S1x600_1
    (concatenate S600 0 [⟨S1, h⟩, ⟨S598, mid⟩, ⟨S1, l⟩] concatenates_S1_S598_S1_S600_d0)

section Stretch

variable (W : Valuation τ sig (Elt Ideal))

set_option maxHeartbeats 1000000 in
theorem st0_v17 : StableHlo.after hostOps0 W (Proc.devRef .tc main_v17)
    = Cert.Shared.rawV (W (Proc.devRef .tc main_arg0)) (W (Proc.devRef .tc main_arg1)) (W (Proc.devRef .tc main_arg2)) (W (Proc.devRef .tc main_arg7)) := by
  after_results; rfl

theorem st0_cst0 : StableHlo.after hostOps0 W (Proc.devRef .tc main_cst_0) = constant (F := Ideal) S_ .f32 0x00000000#32 := by
  after_results

theorem st0_cst1 : StableHlo.after hostOps0 W (Proc.devRef .tc main_cst_1) = constant (F := Ideal) S_ .f32 0x469C3E00#32 := by
  after_results

theorem st1_v18 : StableHlo.after hostOps0_1 W (Proc.devRef .tc main_v18)
    = clipF (W (Proc.devRef .tc main_cst_0)) (W (Proc.devRef .tc main_cst_1)) (W (Proc.devRef .tc main_v17)) := by
  after_results; rfl

theorem st2_v20 : StableHlo.after hostOps0_2 W (Proc.devRef .tc main_v20) = floorW (W (Proc.devRef .tc main_v18)) := by
  after_results; rfl

theorem st2_c : StableHlo.after hostOps0_2 W (Proc.devRef .tc main_c) = constantI S_ 32 0#32 := by
  after_results

theorem st2_c2 : StableHlo.after hostOps0_2 W (Proc.devRef .tc main_c_2) = constantI S_ 32 19998#32 := by
  after_results

theorem st3_v21 : StableHlo.after hostOps0_3 W (Proc.devRef .tc main_v21)
    = clipI (W (Proc.devRef .tc main_c)) (W (Proc.devRef .tc main_c_2)) (W (Proc.devRef .tc main_v20)) := by
  after_results; rfl

theorem st4_v23 : StableHlo.after hostOps0_4 W (Proc.devRef .tc main_v23) = remF (W (Proc.devRef .tc main_v18)) (W (Proc.devRef .tc main_v21)) := by
  after_results; rfl

theorem st4_v24 : StableHlo.after hostOps0_4 W (Proc.devRef .tc main_v24)
    = catF ![W (Proc.devRef .tc main_arg8), W (Proc.devRef .tc main_arg9), W (Proc.devRef .tc main_arg10), W (Proc.devRef .tc main_arg11)] := by
  after_results; rfl

theorem st4_c3 : StableHlo.after hostOps0_4 W (Proc.devRef .tc main_c_3) = constantI S_ 32 0#32 := by
  after_results

theorem st5_v25 : StableHlo.after hostOps0_5 W (Proc.devRef .tc main_v25) = padF (W (Proc.devRef .tc main_v24)) (W (Proc.devRef .tc main_c_3)) := by
  after_results; rfl

theorem st6_v26 : StableHlo.after hostOps0_6 W (Proc.devRef .tc main_v26) = narrowF (W (Proc.devRef .tc main_v25)) := by
  after_results; rfl

theorem st7_v27 : StableHlo.after hostOps0_7 W (Proc.devRef .tc main_v27) = diffF (W (Proc.devRef .tc main_arg1)) := by
  after_results; rfl

theorem st8_v30 : StableHlo.after hostOps0_8 W (Proc.devRef .tc main_v30) = headF (W (Proc.devRef .tc main_v27)) := by
  after_results; rfl

theorem st8_v33 : StableHlo.after hostOps0_8 W (Proc.devRef .tc main_v33) = lastF (W (Proc.devRef .tc main_v27)) := by
  after_results; rfl

theorem st8_v38 : StableHlo.after hostOps0_8 W (Proc.devRef .tc main_v38) = midF (W (Proc.devRef .tc main_v27)) := by
  after_results; rfl

end Stretch

section Tables

theorem padded_apply_in (x : FVec Ideal S20000x192 .f32) (z : IVec S_ 32) (r : Fin 20224) (col : Fin 192) (h : r.val < 20000) :
    narrowF (padF x z) (ix2 r col) = x (ix2 ⟨r.val, h⟩ col) := by
  show pad S20224x192 ![0, 0] ![224, 0] ![0, 0] x (sitofp .f32 z : FVec Ideal S_ .f32)
    pads_S20000x192_S20224x192_02240_000 h_S_ (ix2 r col) = _
  exact pad_apply_of_inside _ _ _ x _ _ _ (ix2 r col) (ix2 ⟨r.val, h⟩ col) (fun a => by
    match a with
    | ⟨0, _⟩ => show r.val = 0 + r.val * (0 + 1); omega
    | ⟨1, _⟩ => show col.val = 0 + col.val * (0 + 1); omega)

theorem padded_apply_out (x : FVec Ideal S20000x192 .f32) (r : Fin 20224) (col : Fin 192) (h : ¬ r.val < 20000) :
    narrowF (padF x (constantI S_ 32 0#32)) (ix2 r col) = 0 := by
  show pad S20224x192 ![0, 0] ![224, 0] ![0, 0] x (sitofp .f32 (constantI S_ 32 0#32) : FVec Ideal S_ .f32)
    pads_S20000x192_S20224x192_02240_000 h_S_ (ix2 r col) = _
  rw [pad_apply_of_not_inside _ _ _ x _ _ _ (ix2 r col) (0 : Fin 2) (by
    show ¬(0 ≤ r.val ∧ (r.val - 0) % (0 + 1) = 0 ∧ (r.val - 0) / (0 + 1) < 20000)
    rintro ⟨_, _, h3⟩
    apply h
    simpa using h3)]
  show ((((0#32 : BitVec 32).toInt : ℤ) : ℝ) : EReal) = 0
  simp

variable (T : Fin 4 → FVec Ideal S20000x48 .f32)

def combF : FVec Ideal S20224x192 .bf16 := narrowF (padF (catF T) (constantI S_ 32 0#32))

/-- Column `48 s + l` of the four tables side by side is column `l` of table `s`. -/
theorem catF_apply (s : Fin 4) (r : Fin 20000) (l : Fin 48) (col : Fin 192) (hcol : col.val = 48 * s.val + l.val) :
    catF T (ix2 r col) = T s (ix2 r l) := by
  unfold catF
  exact concatenate_apply_piece (t := S20000x192) (1 : Fin 2) _ _ (ix2 r col) s.val (by exact s.isLt) S20000x48 (T s)
    (by fin_cases s <;> rfl) rfl (48 * s.val) (by fin_cases s <;> rfl) (ix2 r l)
    (fun b hb => by
      match b with
      | ⟨0, _⟩ => rfl
      | ⟨1, _⟩ => exact absurd (Fin.ext rfl) hb)
    (by show 48 * s.val + l.val = col.val; omega)

/-- Read over ℕ, column `48 s + l` of the padded array is column `l` of table `s`: both vanish from row 20000 on. -/
theorem comb_rd (s : ℕ) (hs : s < 4) (r l : ℕ) (hl : l < 48) :
    rd2 (combF T) r (48 * s + l) = rd2 (T ⟨s, hs⟩) r l := by
  have hc : 48 * s + l < 192 := by omega
  by_cases h : r < 20000
  · rw [rd2_lt _ r _ (by omega) hc, rd2_lt _ r l h hl]
    unfold combF
    rw [padded_apply_in _ _ ⟨r, by omega⟩ ⟨48 * s + l, hc⟩ h]
    exact catF_apply T ⟨s, hs⟩ ⟨r, h⟩ ⟨l, hl⟩ ⟨48 * s + l, hc⟩ rfl
  · have e2 : rd2 (T ⟨s, hs⟩) r l = 0 := by unfold rd2; exact dif_neg (fun hh => h hh.1)
    rw [e2]
    by_cases h' : r < 20224
    · rw [rd2_lt _ r _ h' hc]
      unfold combF
      exact padded_apply_out _ ⟨r, h'⟩ ⟨48 * s + l, hc⟩ h
    · unfold rd2; exact dif_neg (fun hh => h' hh.1)

end Tables

section Weights

def twF (x : FVec Ideal S600 .f32) : FVec Ideal S1x600 .f32 := rowF (headF (diffF x)) (midF (diffF x)) (lastF (diffF x))

theorem twF_apply (x : FVec Ideal S600 .f32) (n : ℕ) (hn : n < 600) :
    twF x (ix2 (0 : Fin 1) ⟨n, hn⟩) = trapzK (rd1 x) 599 n := by
  unfold twF rowF
  rw [broadcastInDim_apply ![1] bcast_S600_S1x600_1 _ (ix2 (0 : Fin 1) ⟨n, hn⟩) (ix1 ⟨n, hn⟩) (fun a => by
    match a with
    | ⟨0, _⟩ => show n = if (600 : ℕ) = 1 then 0 else n; simp)]
  exact twList_apply (N := 598) x slices_S600_S599_1 slices_S600_S599_0 slices_S599_S1_0 slices_S599_S1_598 slices_S599_S598_0
    slices_S599_S598_1 bcast_S_S1 bcast_S_S598 concatenates_S1_S598_S1_S600_d0 n hn

end Weights

section Carry

variable (W : Valuation τ sig (Elt Ideal))

theorem keep4 (r : Ref sig .tc) (h0 : r ∉ hostOps0_W) (h1 : r ∉ hostOps0_1_W) (h2 : r ∉ hostOps0_2_W) (h3 : r ∉ hostOps0_3_W) :
    StableHlo.after hostOps0_3 (StableHlo.after hostOps0_2 (StableHlo.after hostOps0_1 (StableHlo.after hostOps0 W)))
      (Proc.devRef .tc r) = W (Proc.devRef .tc r) := by
  rw [StableHlo.after_of_writes_sub hostOps0_3 _ hostOps0_3_writes h3, StableHlo.after_of_writes_sub hostOps0_2 _ hostOps0_2_writes h2,
    StableHlo.after_of_writes_sub hostOps0_1 _ hostOps0_1_writes h1, StableHlo.after_of_writes_sub hostOps0 _ hostOps0_writes h0]

abbrev tail8 : List (HloOp τ sig (Elt Ideal)) :=
  [ StableHlo.nary ![main_v30, main_v38, main_v33] main_v39 (fun u => concatenate S600 0 [⟨S1, u 0⟩, ⟨S598, u 1⟩, ⟨S1, u 2⟩] concatenates_S1_S598_S1_S600_d0),
    StableHlo.unary main_v39 main_v40 (broadcastInDim S1x600 ![1] bcast_S600_S1x600_1 : (⟨S600, .f32⟩ : BufTy).Contents (Elt Ideal) → (⟨S1x600, .f32⟩ : BufTy).Contents (Elt Ideal)) ]

theorem tail8_v40 : StableHlo.after tail8 W (Proc.devRef .tc main_v40)
    = rowF (W (Proc.devRef .tc main_v30)) (W (Proc.devRef .tc main_v38)) (W (Proc.devRef .tc main_v33)) := by
  after_results3; rfl

theorem tail8_v30 : StableHlo.after tail8 W (Proc.devRef .tc main_v30) = W (Proc.devRef .tc main_v30) := by after_results

theorem tail8_v38 : StableHlo.after tail8 W (Proc.devRef .tc main_v38) = W (Proc.devRef .tc main_v38) := by after_results

theorem tail8_v33 : StableHlo.after tail8 W (Proc.devRef .tc main_v33) = W (Proc.devRef .tc main_v33) := by after_results

theorem st8_v40 : StableHlo.after hostOps0_8 W (Proc.devRef .tc main_v40)
    = rowF (headF (W (Proc.devRef .tc main_v27))) (midF (W (Proc.devRef .tc main_v27))) (lastF (W (Proc.devRef .tc main_v27))) := by
  have split : StableHlo.after hostOps0_8 W = StableHlo.after tail8 (StableHlo.after (hostOps0_8.take 14) W) := by
    rw [← StableHlo.after_append]
    exact congrArg (fun l => StableHlo.after l W) (List.take_append_drop 14 hostOps0_8).symm
  rw [← st8_v30 W, ← st8_v38 W, ← st8_v33 W, split, tail8_v40, tail8_v30, tail8_v38, tail8_v33]

end Carry

section Entries

variable (m : (ℓ : Loc nD τ sig) → Buf (Elt Ideal) ℓ) (ρ : Dev nD → PrngReg)

theorem W9_main_v21 (c : Dev nD) :
    W9 m ρ c (Proc.devRef .tc main_v21)
      = Cert.Shared.i0V (m ((c : Thread nD τ).loc main_arg0)) (m ((c : Thread nD τ).loc main_arg1))
          (m ((c : Thread nD τ).loc main_arg2)) (m ((c : Thread nD τ).loc main_arg7)) := by
  dsimp only [W9, W8, W7, W6, W5, W4, W3, W2, W1]
  rw [StableHlo.after_of_writes_sub hostOps0_8 _ hostOps0_8_writes (by decide),
    StableHlo.after_of_writes_sub hostOps0_7 _ hostOps0_7_writes (by decide),
    StableHlo.after_of_writes_sub hostOps0_6 _ hostOps0_6_writes (by decide),
    StableHlo.after_of_writes_sub hostOps0_5 _ hostOps0_5_writes (by decide),
    StableHlo.after_of_writes_sub hostOps0_4 _ hostOps0_4_writes (by decide),
    st3_v21, st2_c2, st2_c, st2_v20, st1_v18, st0_cst1, st0_cst0, st0_v17]
  rfl

theorem W9_main_v23 (c : Dev nD) :
    W9 m ρ c (Proc.devRef .tc main_v23)
      = Cert.Shared.fracV (m ((c : Thread nD τ).loc main_arg0)) (m ((c : Thread nD τ).loc main_arg1))
          (m ((c : Thread nD τ).loc main_arg2)) (m ((c : Thread nD τ).loc main_arg7)) := by
  dsimp only [W9, W8, W7, W6, W5, W4, W3, W2, W1]
  rw [StableHlo.after_of_writes_sub hostOps0_8 _ hostOps0_8_writes (by decide),
    StableHlo.after_of_writes_sub hostOps0_7 _ hostOps0_7_writes (by decide),
    StableHlo.after_of_writes_sub hostOps0_6 _ hostOps0_6_writes (by decide),
    StableHlo.after_of_writes_sub hostOps0_5 _ hostOps0_5_writes (by decide),
    st4_v23,
    StableHlo.after_of_writes_sub hostOps0_3 _ hostOps0_3_writes (by decide),
    StableHlo.after_of_writes_sub hostOps0_2 _ hostOps0_2_writes (by decide),
    st3_v21, st2_c2, st2_c, st2_v20, st1_v18, st0_cst1, st0_cst0, st0_v17]
  rfl

/-- The four argument tables as launched, as one family. -/
noncomputable def tabs (c : Dev nD) : Fin 4 → FVec Ideal S20000x48 .f32 :=
  ![m ((c : Thread nD τ).loc main_arg8), m ((c : Thread nD τ).loc main_arg9), m ((c : Thread nD τ).loc main_arg10),
    m ((c : Thread nD τ).loc main_arg11)]

theorem W9_main_v26_eq (c : Dev nD) : W9 m ρ c (Proc.devRef .tc main_v26) = combF (tabs m c) := by
  dsimp only [W9, W8, W7, W6, W5, W4, W3, W2, W1]
  rw [StableHlo.after_of_writes_sub hostOps0_8 _ hostOps0_8_writes (by decide),
    StableHlo.after_of_writes_sub hostOps0_7 _ hostOps0_7_writes (by decide),
    st6_v26, st5_v25, st4_v24, st4_c3,
    keep4 _ main_arg8 (by decide) (by decide) (by decide) (by decide),
    keep4 _ main_arg9 (by decide) (by decide) (by decide) (by decide),
    keep4 _ main_arg10 (by decide) (by decide) (by decide) (by decide),
    keep4 _ main_arg11 (by decide) (by decide) (by decide) (by decide)]
  rfl

theorem W9_main_v40_eq (c : Dev nD) :
    W9 m ρ c (Proc.devRef .tc main_v40) = twF (m ((c : Thread nD τ).loc main_arg1)) := by
  dsimp only [W9, W8, W7, W6, W5, W4, W3, W2, W1]
  rw [st8_v40, st7_v27,
    StableHlo.after_of_writes_sub hostOps0_6 _ hostOps0_6_writes (by decide),
    StableHlo.after_of_writes_sub hostOps0_5 _ hostOps0_5_writes (by decide),
    StableHlo.after_of_writes_sub hostOps0_4 _ hostOps0_4_writes (by decide),
    keep4 _ main_arg1 (by decide) (by decide) (by decide) (by decide)]
  rfl

/-- Entering the first call, column `48 s + l` of its third window's array is column `l` of argument table `s`. -/
theorem W9_main_v26_tab (c : Dev nD) (s : ℕ) (hs : s < 4) (r l : ℕ) (hl : l < 48) :
    rd2 (W9 m ρ c (Proc.devRef .tc main_v26)) r (48 * s + l) = rd2 (tabs m c ⟨s, hs⟩) r l := by
  rw [W9_main_v26_eq]; exact comb_rd _ s hs r l hl

theorem W9_main_v40 (c : Dev nD) (n : ℕ) (hn : n < 600) :
    rd2 (W9 m ρ c (Proc.devRef .tc main_v40)) 0 n
      = trapzK (rd1 (m ((c : Thread nD τ).loc main_arg1))) 599 n := by
  rw [rd2_lt _ 0 n (by norm_num) hn, W9_main_v40_eq]
  exact twF_apply _ n hn

end Entries

end Cert.KernelIdeal.HandV
-- ==== Proof.KI.HostW.lean ====
import proofs.«179317_j25280177504693_1_alg».proof.Proof.KI.Run
import proofs.«179317_j25280177504693_1_alg».proof.Proof.Gen.KernelIdeal.Regions
import proofs.«179317_j25280177504693_1_alg».proof.Proof.SpecHost
import proofs.«179317_j25280177504693_1_alg».proof.Proof.Shared
import proofs.«179317_j25280177504693_1_alg».proof.Proof.Spec
import proofs.«179317_j25280177504693_1_alg».proof.Proof.Readers
import proofs.«179317_j25280177504693_1_alg».proof.Proof.LibNary3
import proofs.«179317_j25280177504693_1_alg».proof.Proof.LibWeights
import Idealize.ShloMosaic.Lib.Pipeline.Value
import Idealize.ShloMosaic.Lib.ValueIdx
import Idealize.ShloMosaic.Lib.IdealHost
import Idealize.ShloMosaic.Lib.StableHlo.Run

set_option maxRecDepth 16384

noncomputable section

namespace Cert.KernelIdeal.HandV
open Cert.KernelIdeal Cert.KernelIdeal.Gen Cert.KernelIdeal.Hand
open Idealize.ShloMosaic Idealize.ShloMosaic.TcCoe Idealize.ShloMosaic.ValueIdx Idealize.SL.Sem
open Idealize.ShloMosaic.StableHlo
open Cert.Rd

def stepsV (k : FVec Ideal S1024 .f32) : FVec Ideal S1023 .f32 :=
  subf (extractStridedSlice S1023 ![1] k slices_S1024_S1023_1) (extractStridedSlice S1023 ![0] k slices_S1024_S1023_0)

abbrev twPieces (d : FVec Ideal S1023 .f32) : List ((s : Shape) × (s.Idx → Ideal .f32)) :=
  [⟨S1, Host.divf (extractStridedSlice S1 ![0] d slices_S1023_S1_0)
          (broadcastInDim S1 ![] bcast_S_S1 (constant S_ .f32 0x40000000#32))⟩,
   ⟨S1022, Host.divf (addf (extractStridedSlice S1022 ![0] d slices_S1023_S1022_0)
              (extractStridedSlice S1022 ![1] d slices_S1023_S1022_1))
          (broadcastInDim S1022 ![] bcast_S_S1022 (constant S_ .f32 0x40000000#32))⟩,
   ⟨S1, Host.divf (extractStridedSlice S1 ![1022] d slices_S1023_S1_1022)
          (broadcastInDim S1 ![] bcast_S_S1 (constant S_ .f32 0x40000000#32))⟩]

def twV (d : FVec Ideal S1023 .f32) : FVec Ideal S1024 .f32 :=
  concatenate S1024 0 (twPieces d) concatenates_S1_S1022_S1_S1024_d0

def wOf (d : FVec Ideal S1023 .f32) (k pr : FVec Ideal S1024 .f32) : FVec Ideal S1024x1 .f32 :=
  broadcastInDim S1024x1 ![0] bcast_S1024_S1024x1_0 (mulf (mulf (mulf (twV d) k) k) pr)

theorem twV_apply (k : FVec Ideal S1024 .f32) (j : Fin 1024) :
    twV (stepsV k) (ix1 j) = Cert.Spec.trapzK (rd1 k) 1023 j.val :=
  Cert.Spec.twList_apply (N := 1022) k slices_S1024_S1023_1 slices_S1024_S1023_0 slices_S1023_S1_0 slices_S1023_S1_1022 slices_S1023_S1022_0
    slices_S1023_S1022_1 bcast_S_S1 bcast_S_S1022 concatenates_S1_S1022_S1_S1024_d0 j.val j.isLt

theorem wOf_apply (k pr : FVec Ideal S1024 .f32) (j : Fin 1024) :
    wOf (stepsV k) k pr (ix2 j 0) = Cert.Spec.wK (Cert.Spec.trapzK (rd1 k) 1023) (rd1 k) (rd1 pr) j.val := by
  unfold wOf Cert.Spec.wK
  rw [broadcastInDim_apply ![0] bcast_S1024_S1024x1_0 _ (ix2 j 0) (ix1 j) (fun a => match a with | ⟨0, _⟩ => rfl)]
  rw [rd1_fin k j, rd1_fin pr j, ← twV_apply k j]
  rfl

theorem ops1_2_v70 (W : Valuation τ sig (Elt Ideal)) :
    after hostOps1_2 W (Proc.devRef .tc main_v70)
      = wOf (W (Proc.devRef .tc main_v54)) (W (Proc.devRef .tc main_arg0)) (W (Proc.devRef .tc main_v53)) := by
  after_results_simp3
  rfl

theorem ops1_1_v54 (W : Valuation τ sig (Elt Ideal)) :
    after hostOps1_1 W (Proc.devRef .tc main_v54) = stepsV (W (Proc.devRef .tc main_arg0)) := by
  after_results_simp3
  rfl

theorem ops1_v53 (W : Valuation τ sig (Elt Ideal)) :
    after hostOps1 W (Proc.devRef .tc main_v53)
      = Cert.Shared.prV (W (Proc.devRef .tc main_arg0)) (W (Proc.devRef .tc main_arg12)) (W (Proc.devRef .tc main_arg13)) := by
  after_results_simp3
  rfl

section Run

variable (m : (ℓ : Loc nD τ sig) → Buf (Elt Ideal) ℓ) (ρ : Dev nD → PrngReg)

theorem W10_launch (c : Dev nD) (r : Ref sig .tc) (h : r ∉ preW) (hr0 : ∀ w, Pipeline.arrRef spec0 w ≠ r) :
    W10 m ρ c (Proc.devRef .tc r) = m ((c : Thread nD τ).loc r) :=
  (W10_of_ne m ρ c r hr0).trans (W9_of m ρ c r h)

/-- The weight column at the second call's entry, at row `j`: each stretch's result rewritten down to the arrays as launched. -/
theorem v70_at (c : Dev nD) (j : Fin 1024) :
    (Hand.V13 (F := Ideal) m ρ c main_v70 : FVec Ideal S1024x1 .f32) (ix2 j 0)
      = Cert.Spec.wK (Cert.Spec.trapzK (rd1 (m ((c : Thread nD τ).loc main_arg0) : FVec Ideal S1024 .f32)) 1023)
          (rd1 (m ((c : Thread nD τ).loc main_arg0) : FVec Ideal S1024 .f32))
          (rd1 (Cert.Shared.prV (m ((c : Thread nD τ).loc main_arg0)) (m ((c : Thread nD τ).loc main_arg12))
            (m ((c : Thread nD τ).loc main_arg13)))) j.val := by
  show after hostOps1_2 (after hostOps1_1 (after hostOps1 (W10 m ρ c))) (Proc.devRef .tc main_v70) (ix2 j 0) = _
  rw [ops1_2_v70, ops1_1_v54,
    after_of_writes_sub hostOps1_1 _ hostOps1_1_writes (by decide : main_arg0 ∉ hostOps1_1_W),
    after_of_writes_sub hostOps1_1 _ hostOps1_1_writes (by decide : main_v53 ∉ hostOps1_1_W),
    ops1_v53, after_of_writes_sub hostOps1 _ hostOps1_writes (by decide : main_arg0 ∉ hostOps1_W),
    W10_launch m ρ c main_arg0 (by decide) (by decide), W10_launch m ρ c main_arg12 (by decide) (by decide),
    W10_launch m ρ c main_arg13 (by decide) (by decide)]
  exact wOf_apply _ _ j

end Run

end Cert.KernelIdeal.HandV

end
-- ==== Proof.KI.KernelValue.lean ====
import proofs.«179317_j25280177504693_1_alg».proof.Proof.SharedFacts
import proofs.«179317_j25280177504693_1_alg».proof.Proof.KI.Reg0Value
import proofs.«179317_j25280177504693_1_alg».proof.Proof.KI.HostValues
import proofs.«179317_j25280177504693_1_alg».proof.Proof.KI.HostW

noncomputable section

namespace Cert.KernelIdeal.HandV
open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) :=
  broadcastTo_apply v h (ix2 p q) (ix2 p (0 : Fin 1)) fun ax => match ax with
    | ⟨0, _⟩ => bc_ax p
    | ⟨1, _⟩ => rfl

theorem rowSum_apply (x : FVec Ideal S1024x48 .f32) (h : S1024x48.Reduces [0] S48) (hφ : FKind.Formats .f32)
    (hacc : (0x00000000#32 : BitVec 32) = 0x00000000#32) (l : Fin 48) :
    multiReduction .add [0] S48 x 0x00000000#32 h hφ hacc (ix1 l) = ∑ j : Fin 1024, x (ix2 j l) := by
  refine (Ideal.multiReduction_add_single x 0x00000000#32 h hφ hacc (ix1 l)).trans ?_
  refine Finset.sum_congr rfl fun j _ => congrArg x ?_
  funext ax; apply Fin.ext
  match ax with
  | ⟨0, _⟩ => rfl
  | ⟨1, _⟩ => rfl

def twoOverPi : EReal := Ideal.ofBits .f32 0x3F22F983#32

def wsum (w : Vec Ideal S1024x1 .f32) (x y : Vec Ideal S1024x48 .f32) (l : Fin 48) : EReal :=
  ∑ j : Fin 1024, (w (ix2 j (0 : Fin 1)) * x (ix2 j l)) * y (ix2 j l)

theorem piece_apply (w : FVec Ideal S1024x1 .f32) (x y : FVec Ideal S1024x48 .f32)
    (hb : S1024x1.Broadcasts S1024x48) (hr : S1024x48.Reduces [0] S48) (hφ : FKind.Formats .f32)
    (hacc : (0x00000000#32 : BitVec 32) = 0x00000000#32) (hc : S48.ShapeCasts S1x48) (u : Fin 1) (l : Fin 48) :
    mulf (broadcast S1x48 (Scalar.ofBits (F := Ideal) .f32 0x3F22F983#32))
      (shapeCast S1x48 (multiReduction .add [0] S48 (mulf (mulf (broadcastTo S1024x48 w hb) x) y) 0x00000000#32 hr hφ hacc) hc)
      (ix2 u l) = twoOverPi * wsum w x y l := by
  rw [mulf_apply, broadcast_apply, shapeCast_a_1a_apply, rowSum_apply]
  unfold wsum
  refine congrArg (twoOverPi * ·) (Finset.sum_congr rfl fun j _ => ?_)
  rw [mulf_apply, mulf_apply, broadcastTo_a1_ab_apply]

/-- The second call's result as a function of its three arrays: row 0 pairs (Tl, Tl), row 1 (El, El), row 2 (Tl, El). -/
def clOf (tl el : Vec Ideal S1024x48 .f32) (w : Vec Ideal S1024x1 .f32) : Vec Ideal S3x48 .f32 := fun i =>
  twoOverPi * ∑ j : Fin 1024, (w (ix2 j (0 : Fin 1)) * (if (i 0).val = 1 then el (ix2 j (i 1)) else tl (ix2 j (i 1))))
    * (if (i 0).val = 0 then tl (ix2 j (i 1)) else el (ix2 j (i 1)))

theorem k1_pay1_eq (tl el : Vec Ideal S1024x48 .f32) (w : Vec Ideal S1024x1 .f32) : k1_pay1 tl el w = clOf tl el w := by
  funext i
  obtain ⟨r, l, rfl⟩ : ∃ (r : Fin 3) (l : Fin 48), i = ix2 r l := ⟨i 0, i 1, eq_ix2 i⟩
  have hoff : ∀ (r : Fin 3) (b : Fin S1x48.rank), b.cast (rfl : S1x48.rank = S3x48.rank) ≠ (0 : Fin S3x48.rank) →
      ((ix2 (0 : Fin 1) l : S1x48.Idx) b).val = ((ix2 r l : S3x48.Idx) (b.cast rfl)).val := fun r b hb => by
    match b with
    | ⟨0, _⟩ => exact absurd rfl hb
    | ⟨1, _⟩ => rfl
  unfold k1_pay1 clOf
  simp only [shapeCast_self]
  match r with
  | ⟨0, _⟩ =>
    rw [concatenate_apply_piece (0 : Fin S3x48.rank) _ _ (ix2 ⟨0, _⟩ l) 0 (by show (0 : ℕ) < 3; omega) S1x48 _ rfl rfl 0 rfl
      (ix2 (0 : Fin 1) l) (hoff _) rfl]
    exact (piece_apply w tl tl _ _ _ _ _ (0 : Fin 1) l).trans rfl
  | ⟨1, _⟩ =>
    rw [concatenate_apply_piece (0 : Fin S3x48.rank) _ _ (ix2 ⟨1, _⟩ l) 1 (by show (1 : ℕ) < 3; omega) S1x48 _ rfl rfl 1 rfl
      (ix2 (0 : Fin 1) l) (hoff _) rfl]
    exact (piece_apply w el el _ _ _ _ _ (0 : Fin 1) l).trans rfl
  | ⟨2, _⟩ =>
    rw [concatenate_apply_piece (0 : Fin S3x48.rank) _ _ (ix2 ⟨2, _⟩ l) 2 (by show (2 : ℕ) < 3; omega) S1x48 _ rfl rfl 2 rfl
      (ix2 (0 : Fin 1) l) (hoff _) rfl]
    exact (piece_apply w tl el _ _ _ _ _ (0 : Fin 1) l).trans rfl

variable (V : (c : Dev nD) → (b : Ref sig .tc) → Buf (Elt Ideal) ((c : Thread nD τ).loc b))

theorem idx_zero1 : ∀ (t : Fin cfg1.N) (w : Fin cfg1.W) (a : Fin (cfg1.win w).shape.rank), (cfg1.win w).index t a = 0 :=
  (by decide +kernel : ∀ (t : Fin grid1.N) (w : Fin cfg1.W) (a : Fin (cfg1.win w).shape.rank), (cfg1.win w).index t a = 0)

theorem iblk1_0 (c : Dev nD) (t : Fin cfg1.N) : iblk1 V c 0 t = V c main_v41_0 := by
  funext j
  exact congrArg (V c main_v41_0) (funext fun a => Fin.ext ((cfg1.win 0).rect_emb_val_of_index_zero t a (idx_zero1 t 0 a) j))

theorem iblk1_1 (c : Dev nD) (t : Fin cfg1.N) : iblk1 V c 1 t = V c main_v41_1 := by
  funext j
  exact congrArg (V c main_v41_1) (funext fun a => Fin.ext ((cfg1.win 1).rect_emb_val_of_index_zero t a (idx_zero1 t 1 a) j))

theorem iblk1_2 (c : Dev nD) (t : Fin cfg1.N) : iblk1 V c 2 t = V c main_v70 := by
  funext j
  exact congrArg (V c main_v70) (funext fun a => Fin.ext ((cfg1.win 2).rect_emb_val_of_index_zero t a (idx_zero1 t 2 a) j))

theorem flushed1_3_eq (c : Dev nD) (t : Fin cfg1.N) :
    (dat1 V c).flushed 3 t
      = ((cfg1.win 3).blk t).view.read (Elt Ideal) (clOf (V c main_v41_0) (V c main_v41_1) (V c main_v70)) := by
  show (cfg1.win 3).cut (grid1.coords t) ((dat1 V c).after 3 t) = _
  rw [after1_3, k1_pay1_eq, iblk1_0, iblk1_1, iblk1_2]
  funext j
  exact congrArg (clOf (V c main_v41_0) (V c main_v41_1) (V c main_v70))
    (funext fun a => Fin.ext ((cfg1.win 3).rect_emb_val_of_index_zero t a (idx_zero1 t 3 a) j).symm)

theorem cover1_3 (i : S3x48.Idx) : ∃ t : Fin cfg1.N, (cfg1.win 3).flush t = true ∧ i ∈ ((cfg1.win 3).blk t).view.set := by
  refine ⟨t1_0, flush1_3 t1_0, ?_⟩
  have e : ((cfg1.win 3).blk t1_0).view.emb i = i :=
    funext fun a => Fin.ext ((cfg1.win 3).rect_emb_val_of_index_zero t1_0 a (idx_zero1 t1_0 3 a) i)
  rw [← e]
  exact ((cfg1.win 3).blk t1_0).view.emb_mem_set i

theorem arrAt1_3 (c : Dev nD) :
    (dat1 V c).arrAt 3 cfg1.N = clOf (V c main_v41_0) (V c main_v41_1) (V c main_v70) :=
  (dat1 V c).arrAt_eq_of_cover 3 (clOf (V c main_v41_0) (V c main_v41_1) (V c main_v70))
    (fun t _ => flushed1_3_eq V c t) cover1_3
open Cert.Rd

def interpAtK (T : FVec Ideal S20000x48 .f32) (i0 : IVec S1024x600 32) (fr : FVec Ideal S1024x600 .f32) (l j n : ℕ) : EReal :=
  Cert.Spec.interpK (fun r => rd2 T r l) (rdN i0 j n) (rd2 fr j n)

def TlK (tau : FVec Ideal S600 .f32) (s0 s1 s2 : FVec Ideal S1024x600 .f32) (t0 t1 t2 : FVec Ideal S20000x48 .f32)
    (i0 : IVec S1024x600 32) (fr : FVec Ideal S1024x600 .f32) (l j : ℕ) : EReal :=
  Cert.Spec.intK 599 (fun n =>
    Cert.Spec.srcT (rd2 s0 j n) (rd2 s1 j n) (rd2 s2 j n) (interpAtK t0 i0 fr l j n) (interpAtK t1 i0 fr l j n) (interpAtK t2 i0 fr l j n))
    (Cert.Spec.trapzK (rd1 tau) 599)

def ElK (tau : FVec Ideal S600 .f32) (se : FVec Ideal S1024x600 .f32) (t3 : FVec Ideal S20000x48 .f32)
    (i0 : IVec S1024x600 32) (fr : FVec Ideal S1024x600 .f32) (l j : ℕ) : EReal :=
  Cert.Spec.intK 599 (fun n => rd2 se j n * interpAtK t3 i0 fr l j n) (Cert.Spec.trapzK (rd1 tau) 599)

def KCore (k : FVec Ideal S1024 .f32) (tau : FVec Ideal S600 .f32) (s0 s1 s2 se : FVec Ideal S1024x600 .f32)
    (t0 t1 t2 t3 : FVec Ideal S20000x48 .f32) (i0 : IVec S1024x600 32) (fr : FVec Ideal S1024x600 .f32)
    (pr : FVec Ideal S1024 .f32) : FVec Ideal S3x48 .f32 := fun i =>
  Cert.Spec.clK twoOverPi (Cert.Spec.wK (Cert.Spec.trapzK (rd1 k) 1023) (rd1 k) (rd1 pr))
    (fun j => if (i 0).val = 1 then ElK tau se t3 i0 fr (i 1).val j else TlK tau s0 s1 s2 t0 t1 t2 i0 fr (i 1).val j)
    (fun j => if (i 0).val = 0 then TlK tau s0 s1 s2 t0 t1 t2 i0 fr (i 1).val j else ElK tau se t3 i0 fr (i 1).val j)

def KForm (a0 : FVec Ideal S1024 .f32) (a1 : FVec Ideal S600 .f32) (a2 : FVec Ideal S_ .f32)
    (a3 a4 a5 a6 : FVec Ideal S1024x600 .f32) (a7 : FVec Ideal S20000 .f32) (a8 a9 a10 a11 : FVec Ideal S20000x48 .f32)
    (a12 a13 : FVec Ideal S_ .f32) : FVec Ideal S3x48 .f32 :=
  KCore a0 a1 a3 a4 a5 a6 a8 a9 a10 a11 (Cert.Shared.i0V a0 a1 a2 a7) (Cert.Shared.fracV a0 a1 a2 a7) (Cert.Shared.prV a0 a12 a13)

/-- Over arrays read as families over ℕ the sum over the 1024 rows is the sum over `range 1024`. -/
theorem clOf_eq_clK (tl el : Vec Ideal S1024x48 .f32) (w : Vec Ideal S1024x1 .f32) (T E : ℕ → ℕ → EReal) (W : ℕ → EReal)
    (htl : ∀ (j : Fin 1024) (l : Fin 48), tl (ix2 j l) = T l.val j.val)
    (hel : ∀ (j : Fin 1024) (l : Fin 48), el (ix2 j l) = E l.val j.val)
    (hw : ∀ j : Fin 1024, w (ix2 j (0 : Fin 1)) = W j.val) (i : S3x48.Idx) :
    clOf tl el w i
      = Cert.Spec.clK twoOverPi W (fun j => if (i 0).val = 1 then E (i 1).val j else T (i 1).val j)
          (fun j => if (i 0).val = 0 then T (i 1).val j else E (i 1).val j) := by
  unfold clOf Cert.Spec.clK
  refine congrArg (twoOverPi * ·) ((Finset.sum_congr rfl fun j _ => ?_).trans (Fin.sum_univ_eq_sum_range _ 1024))
  rw [hw j, htl j (i 1), hel j (i 1)]

theorem intK_congr (N : ℕ) (y y' w w' : ℕ → EReal) (hy : ∀ n, n < N + 1 → y n = y' n) (hw : ∀ n, n < N + 1 → w n = w' n) :
    Cert.Spec.intK N y w = Cert.Spec.intK N y' w' := by
  unfold Cert.Spec.intK
  exact Finset.sum_congr rfl fun n hn => by rw [hy n (Finset.mem_range.mp hn), hw n (Finset.mem_range.mp hn)]

section Run

variable (m : (ℓ : Loc nD τ sig) → Buf (Elt Ideal) ℓ) (ρ : Dev nD → PrngReg)

/-- The stretches between the two calls leave a buffer they do not write as the first call left it. -/
theorem V13_of (c : Dev nD) (r : Ref sig .tc) (h : r ∉ midW) : V13 m ρ c r = W10 m ρ c (Proc.devRef .tc r) := by
  simp only [midW, List.mem_append, not_or] at h
  exact (StableHlo.after_of_writes_sub hostOps1_2 _ hostOps1_2_writes h.2.2).trans
    ((StableHlo.after_of_writes_sub hostOps1_1 _ hostOps1_1_writes h.2.1).trans
      (StableHlo.after_of_writes_sub hostOps1 _ hostOps1_writes h.1))

/-- An argument no host operation writes is, entering the first call, as launched. -/
theorem V9_of (c : Dev nD) (r : Ref sig .tc) (h : r ∉ preW) : V9 m ρ c r = m ((c : Thread nD τ).loc r) := W9_of m ρ c r h

set_option quotPrecheck false in
local notation "𝔸[" c "]" b:max => m ((c : Thread nD τ).loc b)

/-- The shared position chain of the arguments as launched: the lower table rows and the interpolation weights. -/
abbrev i0A (c : Dev nD) : IVec S1024x600 32 := Cert.Shared.i0V (𝔸[c] main_arg0) (𝔸[c] main_arg1) (𝔸[c] main_arg2) (𝔸[c] main_arg7)

abbrev frA (c : Dev nD) : FVec Ideal S1024x600 .f32 := Cert.Shared.fracV (𝔸[c] main_arg0) (𝔸[c] main_arg1) (𝔸[c] main_arg2) (𝔸[c] main_arg7)

/-- Table `s`'s interpolated column as the first call reads it is the closed form's over the argument arrays. -/
theorem PhiAt_eq (c : Dev nD) (s : ℕ) (hs : s < 4) (j n l : ℕ) (hl : l < 48) :
    PhiAt (V9 m ρ) c s j n l
      = interpAtK (tabs m c ⟨s, hs⟩) (i0A m c) (frA m c) l j n := by
  have e21 : V9 m ρ c main_v21 = _ := W9_main_v21 m ρ c
  have e23 : V9 m ρ c main_v23 = _ := W9_main_v23 m ρ c
  unfold PhiAt interpAtK
  rw [e21, e23]
  exact congrArg (fun P => Cert.Spec.interpK P _ _) (funext fun r => W9_main_v26_tab m ρ c s hs r l hl)

theorem TlAt_eq (c : Dev nD) (j l : ℕ) (hl : l < 48) :
    TlAt (V9 m ρ) c j l
      = TlK (𝔸[c] main_arg1) (𝔸[c] main_arg3) (𝔸[c] main_arg4) (𝔸[c] main_arg5) (𝔸[c] main_arg8) (𝔸[c] main_arg9) (𝔸[c] main_arg10)
          (i0A m c) (frA m c) l j := by
  unfold TlAt TlK
  refine intK_congr 599 _ _ _ _ (fun n _ => ?_) (fun n hn => W9_main_v40 m ρ c n hn)
  rw [V9_of m ρ c main_arg3 (by decide), V9_of m ρ c main_arg4 (by decide), V9_of m ρ c main_arg5 (by decide),
    PhiAt_eq m ρ c 0 (by decide) j n l hl, PhiAt_eq m ρ c 1 (by decide) j n l hl, PhiAt_eq m ρ c 2 (by decide) j n l hl]
  rfl

theorem ElAt_eq (c : Dev nD) (j l : ℕ) (hl : l < 48) :
    ElAt (V9 m ρ) c j l
      = ElK (𝔸[c] main_arg1) (𝔸[c] main_arg6) (𝔸[c] main_arg11)
          (i0A m c) (frA m c) l j := by
  unfold ElAt ElK
  refine intK_congr 599 _ _ _ _ (fun n _ => ?_) (fun n hn => W9_main_v40 m ρ c n hn)
  rw [V9_of m ρ c main_arg6 (by decide), PhiAt_eq m ρ c 3 (by decide) j n l hl]
  rfl

theorem i0_small (c : Dev nD) (x : S1024x600.Idx) : ((V9 m ρ c main_v21 : Vec Ideal S1024x600 .i32) x).toNat + 1 < 2 ^ 32 := by
  have e21 : V9 m ρ c main_v21 = _ := W9_main_v21 m ρ c
  rw [e21]
  exact Cert.Shared.i0V_succ_lt_two_pow _ _ _ _ x

theorem kernel_value (c : Dev nD) :
    (dat1 (V13 m ρ) c).arrAt 3 cfg1.N
      = KForm (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) := by
  rw [arrAt1_3]
  funext i
  refine clOf_eq_clK _ _ _ _ _ _ (fun j l => ?_) (fun j l => ?_) (fun j => v70_at m ρ c j) i
  · rw [V13_of m ρ c main_v41_0 (by decide), W10_main_v41_0, arrAt0_8_apply (V9 m ρ) c (i0_small m ρ c) j l]
    exact TlAt_eq m ρ c j.val l.val l.isLt
  · rw [V13_of m ρ c main_v41_1 (by decide), W10_main_v41_1, arrAt0_9_apply (V9 m ρ) c (i0_small m ρ c) j l]
    exact ElAt_eq m ρ c j.val l.val l.isLt

end Run

end Cert.KernelIdeal.HandV

end
-- ==== Proof.RefOps.lean ====
import proofs.«179317_j25280177504693_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations as lists, one per window, a called function's operations in its call's place. -/
abbrev ops0 : List (HloOp τ sig (Elt F)) :=
  [ StableHlo.unary main_arg7 main_v0 (extractStridedSlice S1 ![0] · slices_S20000_S1_0),
    StableHlo.reshape main_v0 main_v1 rfl shapeCasts_S1_S_,
    StableHlo.unary main_arg7 main_v2 (extractStridedSlice S1 ![19999] · slices_S20000_S1_19999),
    StableHlo.reshape main_v2 main_v3 rfl shapeCasts_S1_S_,
    StableHlo.unary main_arg0 main_v4 (broadcastInDim S1024x1 ![0] bcast_S1024_S1024x1_0),
    StableHlo.unary main_arg2 main_v5 (broadcastInDim S600 ![] bcast_S_S600),
    StableHlo.binary main_v5 main_arg1 main_v6 subf,
    StableHlo.unary main_v6 main_v7 (broadcastInDim S1x600 ![1] bcast_S600_S1x600_1),
    StableHlo.unary main_v4 main_v8 (broadcastInDim S1024x600 ![0, 1] bcast_S1024x1_S1024x600_0_1),
    StableHlo.unary main_v7 main_v9 (broadcastInDim S1024x600 ![0, 1] bcast_S1x600_S1024x600_0_1),
    StableHlo.binary main_v8 main_v9 main_v10 mulf,
    StableHlo.unary main_v1 main_v11 (broadcastInDim S1024x600 ![] bcast_S_S1024x600),
    StableHlo.binary main_v10 main_v11 main_v12 subf,
    StableHlo.binary main_v3 main_v1 main_v13 subf,
    StableHlo.unary main_v13 main_v14 (broadcastInDim S1024x600 ![] bcast_S_S1024x600),
    StableHlo.binary main_v12 main_v14 main_v15 Host.divf,
    StableHlo.nullary main_cst (constant S_ .f32 0x469C3E00#32),
    StableHlo.unary main_cst main_v16 (broadcastInDim S1024x600 ![] bcast_S_S1024x600),
    StableHlo.binary main_v15 main_v16 main_v17 mulf,
    StableHlo.nullary main_cst_0 (constant S_ .f32 0x00000000#32),
    StableHlo.nullary main_cst_1 (constant S_ .f32 0x469C3E00#32),
    StableHlo.TRef.unary (.of main_cst_0 : StableHlo.TRef sig ⟨S_, .f32⟩) main_call0.v0 id,
    StableHlo.TRef.unary main_call0.v0 main_call0.v1 (broadcastInDim S1024x600 ![] bcast_S_S1024x600),
    StableHlo.TRef.binary main_call0.v1 (.of main_v17 : StableHlo.TRef sig ⟨S1024x600, .f32⟩) main_call0.v2 maximumf,
    StableHlo.TRef.unary (.of main_cst_1 : StableHlo.TRef sig ⟨S_, .f32⟩) main_call0.v3 id,
    StableHlo.TRef.unary main_call0.v3 main_call0.v4 (broadcastInDim S1024x600 ![] bcast_S_S1024x600),
    StableHlo.TRef.binary main_call0.v4 main_call0.v2 main_call0.v5 minimumf,
    StableHlo.unary main_v18 main_v19 Host.floor,
    StableHlo.unary main_v19 main_v20 (fptosi 32),
    StableHlo.nullary main_c (constantI S_ 32 0#32),
    StableHlo.nullary main_c_2 (constantI S_ 32 19998#32),
    StableHlo.TRef.unary (.of main_c : StableHlo.TRef sig ⟨S_, .i32⟩) main_call1.v0 id,
    StableHlo.TRef.unary main_call1.v0 main_call1.v1 (broadcastInDim S1024x600 ![] bcast_S_S1024x600),
    StableHlo.TRef.binary main_call1.v1 (.of main_v20 : StableHlo.TRef sig ⟨S1024x600, .i32⟩) main_call1.v2 maxsi,
    StableHlo.TRef.unary (.of main_c_2 : StableHlo.TRef sig ⟨S_, .i32⟩) main_call1.v3 id,
    StableHlo.TRef.unary main_call1.v3 main_call1.v4 (broadcastInDim S1024x600 ![] bcast_S_S1024x600),
    StableHlo.TRef.binary main_call1.v4 main_call1.v2 main_call1.v5 minsi,
    StableHlo.unary main_v21 main_v22 (sitofp .f32),
    StableHlo.binary main_v18 main_v22 main_v23 subf,
    StableHlo.nullary main_c_3 (constantI S_ 32 0#32),
    StableHlo.unary main_c_3 main_v24 (broadcastInDim S1024x600 ![] bcast_S_S1024x600),
    StableHlo.binary main_v21 main_v24 main_v25 (cmpi .slt),
    StableHlo.nullary main_c_4 (constantI S_ 32 20000#32),
    StableHlo.unary main_c_4 main_v26 (broadcastInDim S1024x600 ![] bcast_S_S1024x600),
    StableHlo.binary main_v21 main_v26 main_v27 addi,
    StableHlo.ternary main_v25 main_v27 main_v21 main_v28 select,
    StableHlo.unary main_v28 main_v29 (broadcastInDim S1024x600x1 ![0, 1] bcast_S1024x600_S1024x600x1_0_1),
    StableHlo.unary main_arg8 main_v30 ((transpose S48x20000 [1, 0] · transposes_S20000x48_S48x20000_1_0)),
    StableHlo.binary main_v30 main_v29 main_v31 ((fun x i => Host.gather gather_S48x20000_S1024x600x1_S48x1024x600_0_1_n_n_1_2_481 x i)),
    StableHlo.nullary main_cst_5 (constant S_ .f32 0x3F800000#32),
    StableHlo.unary main_cst_5 main_v32 (broadcastInDim S1024x600 ![] bcast_S_S1024x600),
    StableHlo.binary main_v32 main_v23 main_v33 subf,
    StableHlo.unary main_v33 main_v34 (broadcastInDim S1x1024x600 ![1, 2] bcast_S1024x600_S1x1024x600_1_2),
    StableHlo.unary main_v34 main_v35 (broadcastInDim S48x1024x600 ![0, 1, 2] bcast_S1x1024x600_S48x1024x600_0_1_2),
    StableHlo.binary main_v31 main_v35 main_v36 mulf,
    StableHlo.nullary main_c_6 (constantI S_ 32 1#32),
    StableHlo.unary main_c_6 main_v37 (broadcastInDim S1024x600 ![] bcast_S_S1024x600),
    StableHlo.binary main_v21 main_v37 main_v38 addi,
    StableHlo.nullary main_c_7 (constantI S_ 32 0#32),
    StableHlo.unary main_c_7 main_v39 (broadcastInDim S1024x600 ![] bcast_S_S1024x600),
    StableHlo.binary main_v38 main_v39 main_v40 (cmpi .slt),
    StableHlo.nullary main_c_8 (constantI S_ 32 20000#32),
    StableHlo.unary main_c_8 main_v41 (broadcastInDim S1024x600 ![] bcast_S_S1024x600),
    StableHlo.binary main_v38 main_v41 main_v42 addi,
    StableHlo.ternary main_v40 main_v42 main_v38 main_v43 select,
    StableHlo.unary main_v43 main_v44 (broadcastInDim S1024x600x1 ![0, 1] bcast_S1024x600_S1024x600x1_0_1),
    StableHlo.unary main_arg8 main_v45 ((transpose S48x20000 [1, 0] · transposes_S20000x48_S48x20000_1_0)),
    StableHlo.binary main_v45 main_v44 main_v46 ((fun x i => Host.gather gather_S48x20000_S1024x600x1_S48x1024x600_0_1_n_n_1_2_481 x i)),
    StableHlo.unary main_v23 main_v47 (broadcastInDim S1x1024x600 ![1, 2] bcast_S1024x600_S1x1024x600_1_2),
    StableHlo.unary main_v47 main_v48 (broadcastInDim S48x1024x600 ![0, 1, 2] bcast_S1x1024x600_S48x1024x600_0_1_2) ]

abbrev ops0_W : List (Ref sig .tc) :=
  [main_v0, main_v1, main_v2, main_v3, main_v4, main_v5, main_v6, main_v7, main_v8, main_v9, main_v10, main_v11, main_v12, main_v13, main_v14, main_v15, main_cst, main_v16, main_v17, main_cst_0, main_cst_1, main_call0.v0.ref, main_call0.v1.ref, main_call0.v2.ref, main_call0.v3.ref, main_call0.v4.ref, main_call0.v5.ref, main_v19, main_v20, main_c, main_c_2, main_call1.v0.ref, main_call1.v1.ref, main_call1.v2.ref, main_call1.v3.ref, main_call1.v4.ref, main_call1.v5.ref, main_v22, main_v23, main_c_3, main_v24, main_v25, main_c_4, main_v26, main_v27, main_v28, main_v29, main_v30, main_v31, main_cst_5, main_v32, main_v33, main_v34, main_v35, main_v36, main_c_6, main_v37, main_v38, main_c_7, main_v39, main_v40, main_c_8, main_v41, main_v42, main_v43, main_v44, main_v45, main_v46, main_v47, main_v48]

abbrev ops1 : List (HloOp τ sig (Elt F)) :=
  [ StableHlo.binary main_v46 main_v48 main_v49 mulf,
    StableHlo.binary main_v36 main_v49 main_v50 addf,
    StableHlo.unary main_arg3 main_v51 (broadcastInDim S1x1024x600 ![1, 2] bcast_S1024x600_S1x1024x600_1_2),
    StableHlo.unary main_v51 main_v52 (broadcastInDim S48x1024x600 ![0, 1, 2] bcast_S1x1024x600_S48x1024x600_0_1_2),
    StableHlo.binary main_v52 main_v50 main_v53 mulf,
    StableHlo.unary main_v1 main_v54 (broadcastInDim S1024x600 ![] bcast_S_S1024x600),
    StableHlo.binary main_v10 main_v54 main_v55 subf,
    StableHlo.binary main_v3 main_v1 main_v56 subf,
    StableHlo.unary main_v56 main_v57 (broadcastInDim S1024x600 ![] bcast_S_S1024x600),
    StableHlo.binary main_v55 main_v57 main_v58 Host.divf,
    StableHlo.nullary main_cst_9 (constant S_ .f32 0x469C3E00#32),
    StableHlo.unary main_cst_9 main_v59 (broadcastInDim S1024x600 ![] bcast_S_S1024x600),
    StableHlo.binary main_v58 main_v59 main_v60 mulf,
    StableHlo.nullary main_cst_10 (constant S_ .f32 0x00000000#32),
    StableHlo.nullary main_cst_11 (constant S_ .f32 0x469C3E00#32),
    StableHlo.TRef.unary (.of main_cst_10 : StableHlo.TRef sig ⟨S_, .f32⟩) main_call2.v0 id,
    StableHlo.TRef.unary main_call2.v0 main_call2.v1 (broadcastInDim S1024x600 ![] bcast_S_S1024x600),
    StableHlo.TRef.binary main_call2.v1 (.of main_v60 : StableHlo.TRef sig ⟨S1024x600, .f32⟩) main_call2.v2 maximumf,
    StableHlo.TRef.unary (.of main_cst_11 : StableHlo.TRef sig ⟨S_, .f32⟩) main_call2.v3 id,
    StableHlo.TRef.unary main_call2.v3 main_call2.v4 (broadcastInDim S1024x600 ![] bcast_S_S1024x600),
    StableHlo.TRef.binary main_call2.v4 main_call2.v2 main_call2.v5 minimumf,
    StableHlo.unary main_v61 main_v62 Host.floor,
    StableHlo.unary main_v62 main_v63 (fptosi 32),
    StableHlo.nullary main_c_12 (constantI S_ 32 0#32),
    StableHlo.nullary main_c_13 (constantI S_ 32 19998#32),
    StableHlo.TRef.unary (.of main_c_12 : StableHlo.TRef sig ⟨S_, .i32⟩) main_call3.v0 id,
    StableHlo.TRef.unary main_call3.v0 main_call3.v1 (broadcastInDim S1024x600 ![] bcast_S_S1024x600),
    StableHlo.TRef.binary main_call3.v1 (.of main_v63 : StableHlo.TRef sig ⟨S1024x600, .i32⟩) main_call3.v2 maxsi,
    StableHlo.TRef.unary (.of main_c_13 : StableHlo.TRef sig ⟨S_, .i32⟩) main_call3.v3 id,
    StableHlo.TRef.unary main_call3.v3 main_call3.v4 (broadcastInDim S1024x600 ![] bcast_S_S1024x600),
    StableHlo.TRef.binary main_call3.v4 main_call3.v2 main_call3.v5 minsi,
    StableHlo.unary main_v64 main_v65 (sitofp .f32),
    StableHlo.binary main_v61 main_v65 main_v66 subf,
    StableHlo.nullary main_c_14 (constantI S_ 32 0#32),
    StableHlo.unary main_c_14 main_v67 (broadcastInDim S1024x600 ![] bcast_S_S1024x600),
    StableHlo.binary main_v64 main_v67 main_v68 (cmpi .slt),
    StableHlo.nullary main_c_15 (constantI S_ 32 20000#32),
    StableHlo.unary main_c_15 main_v69 (broadcastInDim S1024x600 ![] bcast_S_S1024x600),
    StableHlo.binary main_v64 main_v69 main_v70 addi,
    StableHlo.ternary main_v68 main_v70 main_v64 main_v71 select,
    StableHlo.unary main_v71 main_v72 (broadcastInDim S1024x600x1 ![0, 1] bcast_S1024x600_S1024x600x1_0_1),
    StableHlo.unary main_arg9 main_v73 ((transpose S48x20000 [1, 0] · transposes_S20000x48_S48x20000_1_0)),
    StableHlo.binary main_v73 main_v72 main_v74 ((fun x i => Host.gather gather_S48x20000_S1024x600x1_S48x1024x600_0_1_n_n_1_2_481 x i)),
    StableHlo.nullary main_cst_16 (constant S_ .f32 0x3F800000#32),
    StableHlo.unary main_cst_16 main_v75 (broadcastInDim S1024x600 ![] bcast_S_S1024x600),
    StableHlo.binary main_v75 main_v66 main_v76 subf,
    StableHlo.unary main_v76 main_v77 (broadcastInDim S1x1024x600 ![1, 2] bcast_S1024x600_S1x1024x600_1_2),
    StableHlo.unary main_v77 main_v78 (broadcastInDim S48x1024x600 ![0, 1, 2] bcast_S1x1024x600_S48x1024x600_0_1_2),
    StableHlo.binary main_v74 main_v78 main_v79 mulf,
    StableHlo.nullary main_c_17 (constantI S_ 32 1#32),
    StableHlo.unary main_c_17 main_v80 (broadcastInDim S1024x600 ![] bcast_S_S1024x600),
    StableHlo.binary main_v64 main_v80 main_v81 addi,
    StableHlo.nullary main_c_18 (constantI S_ 32 0#32),
    StableHlo.unary main_c_18 main_v82 (broadcastInDim S1024x600 ![] bcast_S_S1024x600),
    StableHlo.binary main_v81 main_v82 main_v83 (cmpi .slt),
    StableHlo.nullary main_c_19 (constantI S_ 32 20000#32),
    StableHlo.unary main_c_19 main_v84 (broadcastInDim S1024x600 ![] bcast_S_S1024x600),
    StableHlo.binary main_v81 main_v84 main_v85 addi,
    StableHlo.ternary main_v83 main_v85 main_v81 main_v86 select,
    StableHlo.unary main_v86 main_v87 (broadcastInDim S1024x600x1 ![0, 1] bcast_S1024x600_S1024x600x1_0_1),
    StableHlo.unary main_arg9 main_v88 ((transpose S48x20000 [1, 0] · transposes_S20000x48_S48x20000_1_0)),
    StableHlo.binary main_v88 main_v87 main_v89 ((fun x i => Host.gather gather_S48x20000_S1024x600x1_S48x1024x600_0_1_n_n_1_2_481 x i)),
    StableHlo.unary main_v66 main_v90 (broadcastInDim S1x1024x600 ![1, 2] bcast_S1024x600_S1x1024x600_1_2),
    StableHlo.unary main_v90 main_v91 (broadcastInDim S48x1024x600 ![0, 1, 2] bcast_S1x1024x600_S48x1024x600_0_1_2),
    StableHlo.binary main_v89 main_v91 main_v92 mulf,
    StableHlo.binary main_v79 main_v92 main_v93 addf,
    StableHlo.unary main_arg4 main_v94 (broadcastInDim S1x1024x600 ![1, 2] bcast_S1024x600_S1x1024x600_1_2),
    StableHlo.unary main_v94 main_v95 (broadcastInDim S48x1024x600 ![0, 1, 2] bcast_S1x1024x600_S48x1024x600_0_1_2),
    StableHlo.binary main_v95 main_v93 main_v96 mulf,
    StableHlo.binary main_v53 main_v96 main_v97 addf ]

abbrev ops1_W : List (Ref sig .tc) :=
  [main_v49, main_v50, main_v51, main_v52, main_v53, main_v54, main_v55, main_v56, main_v57, main_v58, main_cst_9, main_v59, main_v60, main_cst_10, main_cst_11, main_call2.v0.ref, main_call2.v1.ref, main_call2.v2.ref, main_call2.v3.ref, main_call2.v4.ref, main_call2.v5.ref, main_v62, main_v63, main_c_12, main_c_13, main_call3.v0.ref, main_call3.v1.ref, main_call3.v2.ref, main_call3.v3.ref, main_call3.v4.ref, main_call3.v5.ref, main_v65, main_v66, main_c_14, main_v67, main_v68, main_c_15, main_v69, main_v70, main_v71, main_v72, main_v73, main_v74, main_cst_16, main_v75, main_v76, main_v77, main_v78, main_v79, main_c_17, main_v80, main_v81, main_c_18, main_v82, main_v83, main_c_19, main_v84, main_v85, main_v86, main_v87, main_v88, main_v89, main_v90, main_v91, main_v92, main_v93, main_v94, main_v95, main_v96, main_v97]

abbrev ops2 : List (HloOp τ sig (Elt F)) :=
  [ StableHlo.unary main_v1 main_v98 (broadcastInDim S1024x600 ![] bcast_S_S1024x600),
    StableHlo.binary main_v10 main_v98 main_v99 subf,
    StableHlo.binary main_v3 main_v1 main_v100 subf,
    StableHlo.unary main_v100 main_v101 (broadcastInDim S1024x600 ![] bcast_S_S1024x600),
    StableHlo.binary main_v99 main_v101 main_v102 Host.divf,
    StableHlo.nullary main_cst_20 (constant S_ .f32 0x469C3E00#32),
    StableHlo.unary main_cst_20 main_v103 (broadcastInDim S1024x600 ![] bcast_S_S1024x600),
    StableHlo.binary main_v102 main_v103 main_v104 mulf,
    StableHlo.nullary main_cst_21 (constant S_ .f32 0x00000000#32),
    StableHlo.nullary main_cst_22 (constant S_ .f32 0x469C3E00#32),
    StableHlo.TRef.unary (.of main_cst_21 : StableHlo.TRef sig ⟨S_, .f32⟩) main_call4.v0 id,
    StableHlo.TRef.unary main_call4.v0 main_call4.v1 (broadcastInDim S1024x600 ![] bcast_S_S1024x600),
    StableHlo.TRef.binary main_call4.v1 (.of main_v104 : StableHlo.TRef sig ⟨S1024x600, .f32⟩) main_call4.v2 maximumf,
    StableHlo.TRef.unary (.of main_cst_22 : StableHlo.TRef sig ⟨S_, .f32⟩) main_call4.v3 id,
    StableHlo.TRef.unary main_call4.v3 main_call4.v4 (broadcastInDim S1024x600 ![] bcast_S_S1024x600),
    StableHlo.TRef.binary main_call4.v4 main_call4.v2 main_call4.v5 minimumf,
    StableHlo.unary main_v105 main_v106 Host.floor,
    StableHlo.unary main_v106 main_v107 (fptosi 32),
    StableHlo.nullary main_c_23 (constantI S_ 32 0#32),
    StableHlo.nullary main_c_24 (constantI S_ 32 19998#32),
    StableHlo.TRef.unary (.of main_c_23 : StableHlo.TRef sig ⟨S_, .i32⟩) main_call5.v0 id,
    StableHlo.TRef.unary main_call5.v0 main_call5.v1 (broadcastInDim S1024x600 ![] bcast_S_S1024x600),
    StableHlo.TRef.binary main_call5.v1 (.of main_v107 : StableHlo.TRef sig ⟨S1024x600, .i32⟩) main_call5.v2 maxsi,
    StableHlo.TRef.unary (.of main_c_24 : StableHlo.TRef sig ⟨S_, .i32⟩) main_call5.v3 id,
    StableHlo.TRef.unary main_call5.v3 main_call5.v4 (broadcastInDim S1024x600 ![] bcast_S_S1024x600),
    StableHlo.TRef.binary main_call5.v4 main_call5.v2 main_call5.v5 minsi,
    StableHlo.unary main_v108 main_v109 (sitofp .f32),
    StableHlo.binary main_v105 main_v109 main_v110 subf,
    StableHlo.nullary main_c_25 (constantI S_ 32 0#32),
    StableHlo.unary main_c_25 main_v111 (broadcastInDim S1024x600 ![] bcast_S_S1024x600),
    StableHlo.binary main_v108 main_v111 main_v112 (cmpi .slt),
    StableHlo.nullary main_c_26 (constantI S_ 32 20000#32),
    StableHlo.unary main_c_26 main_v113 (broadcastInDim S1024x600 ![] bcast_S_S1024x600),
    StableHlo.binary main_v108 main_v113 main_v114 addi,
    StableHlo.ternary main_v112 main_v114 main_v108 main_v115 select,
    StableHlo.unary main_v115 main_v116 (broadcastInDim S1024x600x1 ![0, 1] bcast_S1024x600_S1024x600x1_0_1),
    StableHlo.unary main_arg10 main_v117 ((transpose S48x20000 [1, 0] · transposes_S20000x48_S48x20000_1_0)),
    StableHlo.binary main_v117 main_v116 main_v118 ((fun x i => Host.gather gather_S48x20000_S1024x600x1_S48x1024x600_0_1_n_n_1_2_481 x i)),
    StableHlo.nullary main_cst_27 (constant S_ .f32 0x3F800000#32),
    StableHlo.unary main_cst_27 main_v119 (broadcastInDim S1024x600 ![] bcast_S_S1024x600),
    StableHlo.binary main_v119 main_v110 main_v120 subf,
    StableHlo.unary main_v120 main_v121 (broadcastInDim S1x1024x600 ![1, 2] bcast_S1024x600_S1x1024x600_1_2),
    StableHlo.unary main_v121 main_v122 (broadcastInDim S48x1024x600 ![0, 1, 2] bcast_S1x1024x600_S48x1024x600_0_1_2),
    StableHlo.binary main_v118 main_v122 main_v123 mulf,
    StableHlo.nullary main_c_28 (constantI S_ 32 1#32),
    StableHlo.unary main_c_28 main_v124 (broadcastInDim S1024x600 ![] bcast_S_S1024x600),
    StableHlo.binary main_v108 main_v124 main_v125 addi,
    StableHlo.nullary main_c_29 (constantI S_ 32 0#32),
    StableHlo.unary main_c_29 main_v126 (broadcastInDim S1024x600 ![] bcast_S_S1024x600),
    StableHlo.binary main_v125 main_v126 main_v127 (cmpi .slt),
    StableHlo.nullary main_c_30 (constantI S_ 32 20000#32),
    StableHlo.unary main_c_30 main_v128 (broadcastInDim S1024x600 ![] bcast_S_S1024x600),
    StableHlo.binary main_v125 main_v128 main_v129 addi,
    StableHlo.ternary main_v127 main_v129 main_v125 main_v130 select,
    StableHlo.unary main_v130 main_v131 (broadcastInDim S1024x600x1 ![0, 1] bcast_S1024x600_S1024x600x1_0_1),
    StableHlo.unary main_arg10 main_v132 ((transpose S48x20000 [1, 0] · transposes_S20000x48_S48x20000_1_0)),
    StableHlo.binary main_v132 main_v131 main_v133 ((fun x i => Host.gather gather_S48x20000_S1024x600x1_S48x1024x600_0_1_n_n_1_2_481 x i)),
    StableHlo.unary main_v110 main_v134 (broadcastInDim S1x1024x600 ![1, 2] bcast_S1024x600_S1x1024x600_1_2),
    StableHlo.unary main_v134 main_v135 (broadcastInDim S48x1024x600 ![0, 1, 2] bcast_S1x1024x600_S48x1024x600_0_1_2),
    StableHlo.binary main_v133 main_v135 main_v136 mulf,
    StableHlo.binary main_v123 main_v136 main_v137 addf,
    StableHlo.unary main_arg5 main_v138 (broadcastInDim S1x1024x600 ![1, 2] bcast_S1024x600_S1x1024x600_1_2),
    StableHlo.unary main_v138 main_v139 (broadcastInDim S48x1024x600 ![0, 1, 2] bcast_S1x1024x600_S48x1024x600_0_1_2),
    StableHlo.binary main_v139 main_v137 main_v140 mulf,
    StableHlo.binary main_v97 main_v140 main_v141 addf,
    StableHlo.TRef.unary (.of main_arg1 : StableHlo.TRef sig ⟨S600, .f32⟩) main_call6.call0.v0 (extractStridedSlice S599 ![1] · slices_S600_S599_1),
    StableHlo.TRef.unary (.of main_arg1 : StableHlo.TRef sig ⟨S600, .f32⟩) main_call6.call0.v1 (extractStridedSlice S599 ![0] · slices_S600_S599_0),
    StableHlo.TRef.binary main_call6.call0.v0 main_call6.call0.v1 main_call6.call0.v2 subf,
    StableHlo.TRef.unary (.of main_v141 : StableHlo.TRef sig ⟨S48x1024x600, .f32⟩) main_call6.v1 (extractStridedSlice S48x1024x599 ![0, 0, 1] · slices_S48x1024x600_S48x1024x599_0_0_1),
    StableHlo.TRef.unary (.of main_v141 : StableHlo.TRef sig ⟨S48x1024x600, .f32⟩) main_call6.v2 (extractStridedSlice S48x1024x599 ![0, 0, 0] · slices_S48x1024x600_S48x1024x599_0_0_0),
    StableHlo.TRef.binary main_call6.v1 main_call6.v2 main_call6.v3 addf,
    StableHlo.TRef.unary main_call6.call0.v2 main_call6.v4 (broadcastInDim S1x599 ![1] bcast_S599_S1x599_1),
    StableHlo.TRef.unary main_call6.v4 main_call6.v5 (broadcastInDim S1x1x599 ![1, 2] bcast_S1x599_S1x1x599_1_2),
    StableHlo.TRef.unary main_call6.v5 main_call6.v6 (broadcastInDim S48x1024x599 ![0, 1, 2] bcast_S1x1x599_S48x1024x599_0_1_2),
    StableHlo.TRef.binary main_call6.v6 main_call6.v3 main_call6.v7 mulf,
    StableHlo.TRef.nullary main_call6.cst (constant S_ .f32 0x00000000#32),
    StableHlo.TRef.binary main_call6.v7 main_call6.cst main_call6.v8 (fun x v => Host.reduceAdd x v reducesTo_S48x1024x599_S48x1024_d2 h_S_),
    StableHlo.TRef.nullary main_call6.cst_0 (constant S_ .f32 0x3F000000#32),
    StableHlo.TRef.unary main_call6.cst_0 main_call6.v9 (broadcastInDim S48x1024 ![] bcast_S_S48x1024),
    StableHlo.TRef.binary main_call6.v9 main_call6.v8 main_call6.v10 mulf,
    StableHlo.unary main_v1 main_v143 (broadcastInDim S1024x600 ![] bcast_S_S1024x600),
    StableHlo.binary main_v10 main_v143 main_v144 subf,
    StableHlo.binary main_v3 main_v1 main_v145 subf,
    StableHlo.unary main_v145 main_v146 (broadcastInDim S1024x600 ![] bcast_S_S1024x600) ]

abbrev ops2_W : List (Ref sig .tc) :=
  [main_v98, main_v99, main_v100, main_v101, main_v102, main_cst_20, main_v103, main_v104, main_cst_21, main_cst_22, main_call4.v0.ref, main_call4.v1.ref, main_call4.v2.ref, main_call4.v3.ref, main_call4.v4.ref, main_call4.v5.ref, main_v106, main_v107, main_c_23, main_c_24, main_call5.v0.ref, main_call5.v1.ref, main_call5.v2.ref, main_call5.v3.ref, main_call5.v4.ref, main_call5.v5.ref, main_v109, main_v110, main_c_25, main_v111, main_v112, main_c_26, main_v113, main_v114, main_v115, main_v116, main_v117, main_v118, main_cst_27, main_v119, main_v120, main_v121, main_v122, main_v123, main_c_28, main_v124, main_v125, main_c_29, main_v126, main_v127, main_c_30, main_v128, main_v129, main_v130, main_v131, main_v132, main_v133, main_v134, main_v135, main_v136, main_v137, main_v138, main_v139, main_v140, main_v141, main_call6.call0.v0.ref, main_call6.call0.v1.ref, main_call6.call0.v2.ref, main_call6.v1.ref, main_call6.v2.ref, main_call6.v3.ref, main_call6.v4.ref, main_call6.v5.ref, main_call6.v6.ref, main_call6.v7.ref, main_call6.cst.ref, main_call6.v8.ref, main_call6.cst_0.ref, main_call6.v9.ref, main_call6.v10.ref, main_v143, main_v144, main_v145, main_v146]

abbrev ops3 : List (HloOp τ sig (Elt F)) :=
  [ StableHlo.binary main_v144 main_v146 main_v147 Host.divf,
    StableHlo.nullary main_cst_31 (constant S_ .f32 0x469C3E00#32),
    StableHlo.unary main_cst_31 main_v148 (broadcastInDim S1024x600 ![] bcast_S_S1024x600),
    StableHlo.binary main_v147 main_v148 main_v149 mulf,
    StableHlo.nullary main_cst_32 (constant S_ .f32 0x00000000#32),
    StableHlo.nullary main_cst_33 (constant S_ .f32 0x469C3E00#32),
    StableHlo.TRef.unary (.of main_cst_32 : StableHlo.TRef sig ⟨S_, .f32⟩) main_call7.v0 id,
    StableHlo.TRef.unary main_call7.v0 main_call7.v1 (broadcastInDim S1024x600 ![] bcast_S_S1024x600),
    StableHlo.TRef.binary main_call7.v1 (.of main_v149 : StableHlo.TRef sig ⟨S1024x600, .f32⟩) main_call7.v2 maximumf,
    StableHlo.TRef.unary (.of main_cst_33 : StableHlo.TRef sig ⟨S_, .f32⟩) main_call7.v3 id,
    StableHlo.TRef.unary main_call7.v3 main_call7.v4 (broadcastInDim S1024x600 ![] bcast_S_S1024x600),
    StableHlo.TRef.binary main_call7.v4 main_call7.v2 main_call7.v5 minimumf,
    StableHlo.unary main_v150 main_v151 Host.floor,
    StableHlo.unary main_v151 main_v152 (fptosi 32),
    StableHlo.nullary main_c_34 (constantI S_ 32 0#32),
    StableHlo.nullary main_c_35 (constantI S_ 32 19998#32),
    StableHlo.TRef.unary (.of main_c_34 : StableHlo.TRef sig ⟨S_, .i32⟩) main_call8.v0 id,
    StableHlo.TRef.unary main_call8.v0 main_call8.v1 (broadcastInDim S1024x600 ![] bcast_S_S1024x600),
    StableHlo.TRef.binary main_call8.v1 (.of main_v152 : StableHlo.TRef sig ⟨S1024x600, .i32⟩) main_call8.v2 maxsi,
    StableHlo.TRef.unary (.of main_c_35 : StableHlo.TRef sig ⟨S_, .i32⟩) main_call8.v3 id,
    StableHlo.TRef.unary main_call8.v3 main_call8.v4 (broadcastInDim S1024x600 ![] bcast_S_S1024x600),
    StableHlo.TRef.binary main_call8.v4 main_call8.v2 main_call8.v5 minsi,
    StableHlo.unary main_v153 main_v154 (sitofp .f32),
    StableHlo.binary main_v150 main_v154 main_v155 subf,
    StableHlo.nullary main_c_36 (constantI S_ 32 0#32),
    StableHlo.unary main_c_36 main_v156 (broadcastInDim S1024x600 ![] bcast_S_S1024x600),
    StableHlo.binary main_v153 main_v156 main_v157 (cmpi .slt),
    StableHlo.nullary main_c_37 (constantI S_ 32 20000#32),
    StableHlo.unary main_c_37 main_v158 (broadcastInDim S1024x600 ![] bcast_S_S1024x600),
    StableHlo.binary main_v153 main_v158 main_v159 addi,
    StableHlo.ternary main_v157 main_v159 main_v153 main_v160 select,
    StableHlo.unary main_v160 main_v161 (broadcastInDim S1024x600x1 ![0, 1] bcast_S1024x600_S1024x600x1_0_1),
    StableHlo.unary main_arg11 main_v162 ((transpose S48x20000 [1, 0] · transposes_S20000x48_S48x20000_1_0)),
    StableHlo.binary main_v162 main_v161 main_v163 ((fun x i => Host.gather gather_S48x20000_S1024x600x1_S48x1024x600_0_1_n_n_1_2_481 x i)),
    StableHlo.nullary main_cst_38 (constant S_ .f32 0x3F800000#32),
    StableHlo.unary main_cst_38 main_v164 (broadcastInDim S1024x600 ![] bcast_S_S1024x600),
    StableHlo.binary main_v164 main_v155 main_v165 subf,
    StableHlo.unary main_v165 main_v166 (broadcastInDim S1x1024x600 ![1, 2] bcast_S1024x600_S1x1024x600_1_2),
    StableHlo.unary main_v166 main_v167 (broadcastInDim S48x1024x600 ![0, 1, 2] bcast_S1x1024x600_S48x1024x600_0_1_2),
    StableHlo.binary main_v163 main_v167 main_v168 mulf,
    StableHlo.nullary main_c_39 (constantI S_ 32 1#32),
    StableHlo.unary main_c_39 main_v169 (broadcastInDim S1024x600 ![] bcast_S_S1024x600),
    StableHlo.binary main_v153 main_v169 main_v170 addi,
    StableHlo.nullary main_c_40 (constantI S_ 32 0#32),
    StableHlo.unary main_c_40 main_v171 (broadcastInDim S1024x600 ![] bcast_S_S1024x600),
    StableHlo.binary main_v170 main_v171 main_v172 (cmpi .slt),
    StableHlo.nullary main_c_41 (constantI S_ 32 20000#32),
    StableHlo.unary main_c_41 main_v173 (broadcastInDim S1024x600 ![] bcast_S_S1024x600),
    StableHlo.binary main_v170 main_v173 main_v174 addi,
    StableHlo.ternary main_v172 main_v174 main_v170 main_v175 select,
    StableHlo.unary main_v175 main_v176 (broadcastInDim S1024x600x1 ![0, 1] bcast_S1024x600_S1024x600x1_0_1),
    StableHlo.unary main_arg11 main_v177 ((transpose S48x20000 [1, 0] · transposes_S20000x48_S48x20000_1_0)),
    StableHlo.binary main_v177 main_v176 main_v178 ((fun x i => Host.gather gather_S48x20000_S1024x600x1_S48x1024x600_0_1_n_n_1_2_481 x i)),
    StableHlo.unary main_v155 main_v179 (broadcastInDim S1x1024x600 ![1, 2] bcast_S1024x600_S1x1024x600_1_2),
    StableHlo.unary main_v179 main_v180 (broadcastInDim S48x1024x600 ![0, 1, 2] bcast_S1x1024x600_S48x1024x600_0_1_2),
    StableHlo.binary main_v178 main_v180 main_v181 mulf,
    StableHlo.binary main_v168 main_v181 main_v182 addf,
    StableHlo.unary main_arg6 main_v183 (broadcastInDim S1x1024x600 ![1, 2] bcast_S1024x600_S1x1024x600_1_2),
    StableHlo.unary main_v183 main_v184 (broadcastInDim S48x1024x600 ![0, 1, 2] bcast_S1x1024x600_S48x1024x600_0_1_2),
    StableHlo.binary main_v184 main_v182 main_v185 mulf,
    StableHlo.TRef.unary (.of main_arg1 : StableHlo.TRef sig ⟨S600, .f32⟩) main_call9.call0.v0 (extractStridedSlice S599 ![1] · slices_S600_S599_1),
    StableHlo.TRef.unary (.of main_arg1 : StableHlo.TRef sig ⟨S600, .f32⟩) main_call9.call0.v1 (extractStridedSlice S599 ![0] · slices_S600_S599_0),
    StableHlo.TRef.binary main_call9.call0.v0 main_call9.call0.v1 main_call9.call0.v2 subf,
    StableHlo.TRef.unary (.of main_v185 : StableHlo.TRef sig ⟨S48x1024x600, .f32⟩) main_call9.v1 (extractStridedSlice S48x1024x599 ![0, 0, 1] · slices_S48x1024x600_S48x1024x599_0_0_1),
    StableHlo.TRef.unary (.of main_v185 : StableHlo.TRef sig ⟨S48x1024x600, .f32⟩) main_call9.v2 (extractStridedSlice S48x1024x599 ![0, 0, 0] · slices_S48x1024x600_S48x1024x599_0_0_0),
    StableHlo.TRef.binary main_call9.v1 main_call9.v2 main_call9.v3 addf,
    StableHlo.TRef.unary main_call9.call0.v2 main_call9.v4 (broadcastInDim S1x599 ![1] bcast_S599_S1x599_1),
    StableHlo.TRef.unary main_call9.v4 main_call9.v5 (broadcastInDim S1x1x599 ![1, 2] bcast_S1x599_S1x1x599_1_2),
    StableHlo.TRef.unary main_call9.v5 main_call9.v6 (broadcastInDim S48x1024x599 ![0, 1, 2] bcast_S1x1x599_S48x1024x599_0_1_2),
    StableHlo.TRef.binary main_call9.v6 main_call9.v3 main_call9.v7 mulf,
    StableHlo.TRef.nullary main_call9.cst (constant S_ .f32 0x00000000#32),
    StableHlo.TRef.binary main_call9.v7 main_call9.cst main_call9.v8 (fun x v => Host.reduceAdd x v reducesTo_S48x1024x599_S48x1024_d2 h_S_),
    StableHlo.TRef.nullary main_call9.cst_0 (constant S_ .f32 0x3F000000#32),
    StableHlo.TRef.unary main_call9.cst_0 main_call9.v9 (broadcastInDim S48x1024 ![] bcast_S_S48x1024),
    StableHlo.TRef.binary main_call9.v9 main_call9.v8 main_call9.v10 mulf,
    StableHlo.nullary main_cst_42 (constant S_ .f32 0x3D4CCCCD#32),
    StableHlo.unary main_cst_42 main_v187 (broadcastInDim S1024 ![] bcast_S_S1024),
    StableHlo.binary main_arg0 main_v187 main_v188 Host.divf,
    StableHlo.nullary main_cst_43 (constant S_ .f32 0x3F800000#32),
    StableHlo.binary main_arg13 main_cst_43 main_v189 subf,
    StableHlo.unary main_v189 main_v190 (broadcastInDim S1024 ![] bcast_S_S1024),
    StableHlo.binary main_v188 main_v190 main_v191 Host.powf,
    StableHlo.unary main_arg12 main_v192 (broadcastInDim S1024 ![] bcast_S_S1024),
    StableHlo.binary main_v192 main_v191 main_v193 mulf ]

abbrev ops3_W : List (Ref sig .tc) :=
  [main_v147, main_cst_31, main_v148, main_v149, main_cst_32, main_cst_33, main_call7.v0.ref, main_call7.v1.ref, main_call7.v2.ref, main_call7.v3.ref, main_call7.v4.ref, main_call7.v5.ref, main_v151, main_v152, main_c_34, main_c_35, main_call8.v0.ref, main_call8.v1.ref, main_call8.v2.ref, main_call8.v3.ref, main_call8.v4.ref, main_call8.v5.ref, main_v154, main_v155, main_c_36, main_v156, main_v157, main_c_37, main_v158, main_v159, main_v160, main_v161, main_v162, main_v163, main_cst_38, main_v164, main_v165, main_v166, main_v167, main_v168, main_c_39, main_v169, main_v170, main_c_40, main_v171, main_v172, main_c_41, main_v173, main_v174, main_v175, main_v176, main_v177, main_v178, main_v179, main_v180, main_v181, main_v182, main_v183, main_v184, main_v185, main_call9.call0.v0.ref, main_call9.call0.v1.ref, main_call9.call0.v2.ref, main_call9.v1.ref, main_call9.v2.ref, main_call9.v3.ref, main_call9.v4.ref, main_call9.v5.ref, main_call9.v6.ref, main_call9.v7.ref, main_call9.cst.ref, main_call9.v8.ref, main_call9.cst_0.ref, main_call9.v9.ref, main_call9.v10.ref, main_cst_42, main_v187, main_v188, main_cst_43, main_v189, main_v190, main_v191, main_v192, main_v193]

abbrev ops4 : List (HloOp τ sig (Elt F)) :=
  [ StableHlo.binary main_arg0 main_arg0 main_v194 mulf,
    StableHlo.binary main_v194 main_arg0 main_v195 mulf,
    StableHlo.nullary main_cst_44 (constant S_ .f32 0x419DE9E6#32),
    StableHlo.unary main_cst_44 main_v196 (broadcastInDim S1024 ![] bcast_S_S1024),
    StableHlo.binary main_v196 main_v195 main_v197 Host.divf,
    StableHlo.binary main_v193 main_v197 main_v198 mulf,
    StableHlo.binary main_arg0 main_arg0 main_v199 mulf,
    StableHlo.binary main_v199 main_v198 main_v200 mulf,
    StableHlo.unary main_v200 main_v201 (broadcastInDim S1x1024 ![1] bcast_S1024_S1x1024_1),
    StableHlo.unary main_v201 main_v202 (broadcastInDim S48x1024 ![0, 1] bcast_S1x1024_S48x1024_0_1),
    StableHlo.binary main_v202 main_v142 main_v203 mulf,
    StableHlo.binary main_v203 main_v142 main_v204 mulf,
    StableHlo.TRef.unary (.of main_arg0 : StableHlo.TRef sig ⟨S1024, .f32⟩) main_call10.call0.v0 (extractStridedSlice S1023 ![1] · slices_S1024_S1023_1),
    StableHlo.TRef.unary (.of main_arg0 : StableHlo.TRef sig ⟨S1024, .f32⟩) main_call10.call0.v1 (extractStridedSlice S1023 ![0] · slices_S1024_S1023_0),
    StableHlo.TRef.binary main_call10.call0.v0 main_call10.call0.v1 main_call10.call0.v2 subf,
    StableHlo.TRef.unary (.of main_v204 : StableHlo.TRef sig ⟨S48x1024, .f32⟩) main_call10.v1 (extractStridedSlice S48x1023 ![0, 1] · slices_S48x1024_S48x1023_0_1),
    StableHlo.TRef.unary (.of main_v204 : StableHlo.TRef sig ⟨S48x1024, .f32⟩) main_call10.v2 (extractStridedSlice S48x1023 ![0, 0] · slices_S48x1024_S48x1023_0_0),
    StableHlo.TRef.binary main_call10.v1 main_call10.v2 main_call10.v3 addf,
    StableHlo.TRef.unary main_call10.call0.v2 main_call10.v4 (broadcastInDim S1x1023 ![1] bcast_S1023_S1x1023_1),
    StableHlo.TRef.unary main_call10.v4 main_call10.v5 (broadcastInDim S48x1023 ![0, 1] bcast_S1x1023_S48x1023_0_1),
    StableHlo.TRef.binary main_call10.v5 main_call10.v3 main_call10.v6 mulf,
    StableHlo.TRef.nullary main_call10.cst (constant S_ .f32 0x00000000#32),
    StableHlo.TRef.binary main_call10.v6 main_call10.cst main_call10.v7 (fun x v => Host.reduceAdd x v reducesTo_S48x1023_S48_d1 h_S_),
    StableHlo.TRef.nullary main_call10.cst_0 (constant S_ .f32 0x3F000000#32),
    StableHlo.TRef.unary main_call10.cst_0 main_call10.v8 (broadcastInDim S48 ![] bcast_S_S48),
    StableHlo.TRef.binary main_call10.v8 main_call10.v7 main_call10.v9 mulf,
    StableHlo.nullary main_cst_45 (constant S_ .f32 0x3F22F983#32),
    StableHlo.unary main_cst_45 main_v206 (broadcastInDim S48 ![] bcast_S_S48),
    StableHlo.binary main_v206 main_v205 main_v207 mulf,
    StableHlo.unary main_v200 main_v208 (broadcastInDim S1x1024 ![1] bcast_S1024_S1x1024_1),
    StableHlo.unary main_v208 main_v209 (broadcastInDim S48x1024 ![0, 1] bcast_S1x1024_S48x1024_0_1),
    StableHlo.binary main_v209 main_v186 main_v210 mulf,
    StableHlo.binary main_v210 main_v186 main_v211 mulf,
    StableHlo.TRef.unary (.of main_arg0 : StableHlo.TRef sig ⟨S1024, .f32⟩) main_call11.call0.v0 (extractStridedSlice S1023 ![1] · slices_S1024_S1023_1),
    StableHlo.TRef.unary (.of main_arg0 : StableHlo.TRef sig ⟨S1024, .f32⟩) main_call11.call0.v1 (extractStridedSlice S1023 ![0] · slices_S1024_S1023_0),
    StableHlo.TRef.binary main_call11.call0.v0 main_call11.call0.v1 main_call11.call0.v2 subf,
    StableHlo.TRef.unary (.of main_v211 : StableHlo.TRef sig ⟨S48x1024, .f32⟩) main_call11.v1 (extractStridedSlice S48x1023 ![0, 1] · slices_S48x1024_S48x1023_0_1),
    StableHlo.TRef.unary (.of main_v211 : StableHlo.TRef sig ⟨S48x1024, .f32⟩) main_call11.v2 (extractStridedSlice S48x1023 ![0, 0] · slices_S48x1024_S48x1023_0_0),
    StableHlo.TRef.binary main_call11.v1 main_call11.v2 main_call11.v3 addf,
    StableHlo.TRef.unary main_call11.call0.v2 main_call11.v4 (broadcastInDim S1x1023 ![1] bcast_S1023_S1x1023_1),
    StableHlo.TRef.unary main_call11.v4 main_call11.v5 (broadcastInDim S48x1023 ![0, 1] bcast_S1x1023_S48x1023_0_1),
    StableHlo.TRef.binary main_call11.v5 main_call11.v3 main_call11.v6 mulf,
    StableHlo.TRef.nullary main_call11.cst (constant S_ .f32 0x00000000#32),
    StableHlo.TRef.binary main_call11.v6 main_call11.cst main_call11.v7 (fun x v => Host.reduceAdd x v reducesTo_S48x1023_S48_d1 h_S_),
    StableHlo.TRef.nullary main_call11.cst_0 (constant S_ .f32 0x3F000000#32),
    StableHlo.TRef.unary main_call11.cst_0 main_call11.v8 (broadcastInDim S48 ![] bcast_S_S48),
    StableHlo.TRef.binary main_call11.v8 main_call11.v7 main_call11.v9 mulf,
    StableHlo.nullary main_cst_46 (constant S_ .f32 0x3F22F983#32),
    StableHlo.unary main_cst_46 main_v213 (broadcastInDim S48 ![] bcast_S_S48),
    StableHlo.binary main_v213 main_v212 main_v214 mulf,
    StableHlo.unary main_v200 main_v215 (broadcastInDim S1x1024 ![1] bcast_S1024_S1x1024_1),
    StableHlo.unary main_v215 main_v216 (broadcastInDim S48x1024 ![0, 1] bcast_S1x1024_S48x1024_0_1),
    StableHlo.binary main_v216 main_v142 main_v217 mulf,
    StableHlo.binary main_v217 main_v186 main_v218 mulf,
    StableHlo.TRef.unary (.of main_arg0 : StableHlo.TRef sig ⟨S1024, .f32⟩) main_call12.call0.v0 (extractStridedSlice S1023 ![1] · slices_S1024_S1023_1),
    StableHlo.TRef.unary (.of main_arg0 : StableHlo.TRef sig ⟨S1024, .f32⟩) main_call12.call0.v1 (extractStridedSlice S1023 ![0] · slices_S1024_S1023_0),
    StableHlo.TRef.binary main_call12.call0.v0 main_call12.call0.v1 main_call12.call0.v2 subf,
    StableHlo.TRef.unary (.of main_v218 : StableHlo.TRef sig ⟨S48x1024, .f32⟩) main_call12.v1 (extractStridedSlice S48x1023 ![0, 1] · slices_S48x1024_S48x1023_0_1),
    StableHlo.TRef.unary (.of main_v218 : StableHlo.TRef sig ⟨S48x1024, .f32⟩) main_call12.v2 (extractStridedSlice S48x1023 ![0, 0] · slices_S48x1024_S48x1023_0_0),
    StableHlo.TRef.binary main_call12.v1 main_call12.v2 main_call12.v3 addf,
    StableHlo.TRef.unary main_call12.call0.v2 main_call12.v4 (broadcastInDim S1x1023 ![1] bcast_S1023_S1x1023_1),
    StableHlo.TRef.unary main_call12.v4 main_call12.v5 (broadcastInDim S48x1023 ![0, 1] bcast_S1x1023_S48x1023_0_1),
    StableHlo.TRef.binary main_call12.v5 main_call12.v3 main_call12.v6 mulf,
    StableHlo.TRef.nullary main_call12.cst (constant S_ .f32 0x00000000#32),
    StableHlo.TRef.binary main_call12.v6 main_call12.cst main_call12.v7 (fun x v => Host.reduceAdd x v reducesTo_S48x1023_S48_d1 h_S_),
    StableHlo.TRef.nullary main_call12.cst_0 (constant S_ .f32 0x3F000000#32),
    StableHlo.TRef.unary main_call12.cst_0 main_call12.v8 (broadcastInDim S48 ![] bcast_S_S48),
    StableHlo.TRef.binary main_call12.v8 main_call12.v7 main_call12.v9 mulf,
    StableHlo.nullary main_cst_47 (constant S_ .f32 0x3F22F983#32),
    StableHlo.unary main_cst_47 main_v220 (broadcastInDim S48 ![] bcast_S_S48),
    StableHlo.binary main_v220 main_v219 main_v221 mulf,
    StableHlo.unary main_v207 main_v222 (broadcastInDim S1x48 ![1] bcast_S48_S1x48_1),
    StableHlo.unary main_v214 main_v223 (broadcastInDim S1x48 ![1] bcast_S48_S1x48_1),
    StableHlo.unary main_v221 main_v224 (broadcastInDim S1x48 ![1] bcast_S48_S1x48_1),
    StableHlo.nary ![main_v222, main_v223, main_v224] main_v225 (fun u => concatenate S3x48 0 [⟨S1x48, u 0⟩, ⟨S1x48, u 1⟩, ⟨S1x48, u 2⟩] concatenates_S1x48_S1x48_S1x48_S3x48_d0) ]

abbrev ops4_W : List (Ref sig .tc) :=
  [main_v194, main_v195, main_cst_44, main_v196, main_v197, main_v198, main_v199, main_v200, main_v201, main_v202, main_v203, main_v204, main_call10.call0.v0.ref, main_call10.call0.v1.ref, main_call10.call0.v2.ref, main_call10.v1.ref, main_call10.v2.ref, main_call10.v3.ref, main_call10.v4.ref, main_call10.v5.ref, main_call10.v6.ref, main_call10.cst.ref, main_call10.v7.ref, main_call10.cst_0.ref, main_call10.v8.ref, main_call10.v9.ref, main_cst_45, main_v206, main_v207, main_v208, main_v209, main_v210, main_v211, main_call11.call0.v0.ref, main_call11.call0.v1.ref, main_call11.call0.v2.ref, main_call11.v1.ref, main_call11.v2.ref, main_call11.v3.ref, main_call11.v4.ref, main_call11.v5.ref, main_call11.v6.ref, main_call11.cst.ref, main_call11.v7.ref, main_call11.cst_0.ref, main_call11.v8.ref, main_call11.v9.ref, main_cst_46, main_v213, main_v214, main_v215, main_v216, main_v217, main_v218, main_call12.call0.v0.ref, main_call12.call0.v1.ref, main_call12.call0.v2.ref, main_call12.v1.ref, main_call12.v2.ref, main_call12.v3.ref, main_call12.v4.ref, main_call12.v5.ref, main_call12.v6.ref, main_call12.cst.ref, main_call12.v7.ref, main_call12.cst_0.ref, main_call12.v8.ref, main_call12.v9.ref, main_cst_47, main_v220, main_v221, main_v222, main_v223, main_v224, main_v225]

abbrev ops : List (HloOp τ sig (Elt F)) :=
  ops0 ++ (ops1 ++ (ops2 ++ (ops3 ++ (ops4))))

end Cert.ReferenceIdeal.Hand

end
-- ==== Proof.RefRun.lean ====
import proofs.«179317_j25280177504693_1_alg».proof.Proof.RefOps
import Idealize.ShloMosaic.Lib.Pipeline.Frame

noncomputable section

namespace Cert.ReferenceIdeal.Hand

open Idealize.ShloMosaic Idealize.ShloMosaic.TcCoe Idealize.SL.Sem Idealize.ShloMosaic.StableHlo

variable {F : FTy → Type} [FloatOps F] {Val : EltTy → Type}

-- `W` lists, position by position, the one reference each operation of the line `l` writes.
@[reducible] def Writes (l : List (HloOp τ sig Val)) (W : List (Ref sig .tc)) : Prop :=
  l.map (·.writes) = W.map fun y => ({Proc.devRef (τ := τ) .tc y} : Finset (DevRef τ sig))

-- A reference outside that list is written by no operation, so the line leaves it as it found it.
theorem Writes.keep {l : List (HloOp τ sig Val)} {W : List (Ref sig .tc)} (h : Writes l W) (V : Valuation τ sig Val)
    {r : Ref sig .tc} (hr : r ∉ W) : after l V (no_index (Proc.devRef .tc r)) = V (Proc.devRef .tc r) :=
  after_of_forall_not_mem l V fun op hop hb => by
    have hm : op.writes ∈ W.map fun y => ({Proc.devRef (τ := τ) .tc y} : Finset (DevRef τ sig)) := by
      rw [← h]; exact List.mem_map_of_mem hop
    obtain ⟨y, hy, he⟩ := List.mem_map.mp hm
    rw [← he, Finset.mem_singleton] at hb
    exact hr (Proc.devRef_injective _ hb ▸ hy)

theorem forall_fresh (l : List (HloOp τ sig Val)) (h : l.map (·.fresh) = List.replicate l.length ∅) : ∀ op ∈ l, op.fresh = ∅ :=
  fun op hop => List.eq_of_mem_replicate (by rw [← h]; exact List.mem_map_of_mem hop)

-- Each window of @main is the chain of its listed operations, and a line run after a line is their concatenation run as one.
theorem main_eq (c : Dev nD) : main (F := F) c = seq ops := by chain_rfl

theorem ops_sub : (ops : List (HloOp τ sig (Elt F))).Forall fun op => op.bufs ⊆ tcRefs τ sig := by
  simp only [ops, List.forall_append, List.Forall, nullary_bufs_sub, unary_bufs_sub, binary_bufs_sub, ternary_bufs_sub, reshape_bufs_sub, nary_bufs_sub, and_self]

theorem ops_fresh : ∀ op ∈ (ops : List (HloOp τ sig (Elt F))), op.fresh = ∅ := by
  simp only [ops, List.mem_append]
  rintro op (h | h | h | h | h) <;> exact forall_fresh _ rfl op h

theorem w0 : Writes (ops0 (F := F)) ops0_W := rfl
theorem w1 : Writes (ops1 (F := F)) ops1_W := rfl
theorem w2 : Writes (ops2 (F := F)) ops2_W := rfl
theorem w3 : Writes (ops3 (F := F)) ops3_W := rfl
theorem w4 : Writes (ops4 (F := F)) ops4_W := rfl

-- A reference that no window writes keeps its contents through the whole line.
theorem ops_keep (V : Valuation τ sig (Elt F)) {r : Ref sig .tc} (h0 : r ∉ ops0_W) (h1 : r ∉ ops1_W) (h2 : r ∉ ops2_W)
    (h3 : r ∉ ops3_W) (h4 : r ∉ ops4_W) : after ops V (Proc.devRef .tc r) = V (Proc.devRef .tc r) := by
  simp only [ops, after_append]
  rw [w4.keep _ h4, w3.keep _ h3, w2.keep _ h2, w1.keep _ h1, w0.keep _ h0]

def res (m : (ℓ : Loc nD τ sig) → Buf (Elt F) ℓ) (c : Dev nD) : Buf (Elt F) ((c.tc : Thread nD τ).loc main_v225) :=
  after ops (launchContents m c) (Proc.devRef .tc main_v225)

-- The line terminates with the result at the fold of the operations over the launch contents, and no operation writes an argument.
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v225) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => by
      refine ⟨h c _, ?_, ?_, ?_, ?_, ?_, ?_, ?_, ?_, ?_, ?_, ?_, ?_, ?_, ?_⟩ <;>
        exact (h c _).trans (ops_keep _ (by decide) (by decide) (by decide) (by decide) (by decide)))
    (run_seq (by decide) (by decide) defs main (fun _ => ops) main_eq (fun _ => ops_sub) m ρ fun _ => ops_fresh)

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => (h c).2) (run m ρ)

end Cert.ReferenceIdeal.Hand

end
-- ==== Proof.RefArr.lean ====
import proofs.«179317_j25280177504693_1_alg».proof.Proof.Gen.ReferenceIdeal
import proofs.«179317_j25280177504693_1_alg».proof.Proof.Shared
import Idealize.ShloMosaic.PureOps

noncomputable section

namespace Cert.ReferenceIdeal.HandV

open Cert.ReferenceIdeal.Gen Idealize.ShloMosaic

def spread (x : FVec Ideal S_ .f32) : FVec Ideal S1024x600 .f32 := broadcastInDim S1024x600 ![] bcast_S_S1024x600 x

def spreadI (x : IVec S_ 32) : IVec S1024x600 32 := broadcastInDim S1024x600 ![] bcast_S_S1024x600 x

-- x = k (tau0 - tau) at every (k, tau).
def xArr (a0 : FVec Ideal S1024 .f32) (a1 : FVec Ideal S600 .f32) (a2 : FVec Ideal S_ .f32) : FVec Ideal S1024x600 .f32 :=
  mulf (broadcastInDim S1024x600 ![0, 1] bcast_S1024x1_S1024x600_0_1 (broadcastInDim S1024x1 ![0] bcast_S1024_S1024x1_0 a0))
    (broadcastInDim S1024x600 ![0, 1] bcast_S1x600_S1024x600_0_1
      (broadcastInDim S1x600 ![1] bcast_S600_S1x600_1 (subf (broadcastInDim S600 ![] bcast_S_S600 a2) a1)))

-- The table position 19999 (x - x_0) / (x_N - x_0), held in [0, 19999].
def posFrom (num den : FVec Ideal S1024x600 .f32) : FVec Ideal S1024x600 .f32 :=
  minimumf (spread (constant S_ .f32 0x469C3E00#32))
    (maximumf (spread (constant S_ .f32 0x00000000#32)) (mulf (Host.divf num den) (spread (constant S_ .f32 0x469C3E00#32))))

-- The row below a position: its floor, held in [0, 19998].
def i0From (pos : FVec Ideal S1024x600 .f32) : IVec S1024x600 32 :=
  minsi (spreadI (constantI S_ 32 19998#32)) (maxsi (spreadI (constantI S_ 32 0#32)) (fptosi 32 (Host.floor pos)))

-- How far the position lies above that row.
def fracFrom (pos : FVec Ideal S1024x600 .f32) : FVec Ideal S1024x600 .f32 := subf pos (sitofp .f32 (i0From pos))

-- A negative row counts back from the table's end.
def selIdx (i : IVec S1024x600 32) : IVec S1024x600x1 32 :=
  broadcastInDim S1024x600x1 ![0, 1] bcast_S1024x600_S1024x600x1_0_1
    (select (cmpi .slt i (spreadI (constantI S_ 32 0#32))) (addi i (spreadI (constantI S_ 32 20000#32))) i)

-- Rows i of a table, every column.
def gatherT (T : FVec Ideal S20000x48 .f32) (i : IVec S1024x600 32) : FVec Ideal S48x1024x600 .f32 :=
  Host.gather gather_S48x20000_S1024x600x1_S48x1024x600_0_1_n_n_1_2_481
    (transpose S48x20000 [1, 0] T transposes_S20000x48_S48x20000_1_0) (selIdx i)

def bb (x : FVec Ideal S1024x600 .f32) : FVec Ideal S48x1024x600 .f32 :=
  broadcastInDim S48x1024x600 ![0, 1, 2] bcast_S1x1024x600_S48x1024x600_0_1_2
    (broadcastInDim S1x1024x600 ![1, 2] bcast_S1024x600_S1x1024x600_1_2 x)

def incr (i : IVec S1024x600 32) : IVec S1024x600 32 := addi i (spreadI (constantI S_ 32 1#32))

-- Rows i and i + 1 of a table mixed with weight fr.
def interpArr (T : FVec Ideal S20000x48 .f32) (i : IVec S1024x600 32) (fr : FVec Ideal S1024x600 .f32) :
    FVec Ideal S48x1024x600 .f32 :=
  addf (mulf (gatherT T i) (bb (subf (spread (constant S_ .f32 0x3F800000#32)) fr))) (mulf (gatherT T (incr i)) (bb fr))

-- The trapezoid rule along tau.
def trapzTau (tau : FVec Ideal S600 .f32) (y : FVec Ideal S48x1024x600 .f32) : FVec Ideal S48x1024 .f32 :=
  mulf (broadcastInDim S48x1024 ![] bcast_S_S48x1024 (constant S_ .f32 0x3F000000#32))
    (Host.reduceAdd
      (mulf
        (broadcastInDim S48x1024x599 ![0, 1, 2] bcast_S1x1x599_S48x1024x599_0_1_2
          (broadcastInDim S1x1x599 ![1, 2] bcast_S1x599_S1x1x599_1_2
            (broadcastInDim S1x599 ![1] bcast_S599_S1x599_1
              (subf (extractStridedSlice S599 ![1] tau slices_S600_S599_1) (extractStridedSlice S599 ![0] tau slices_S600_S599_0)))))
        (addf (extractStridedSlice S48x1024x599 ![0, 0, 1] y slices_S48x1024x600_S48x1024x599_0_0_1)
          (extractStridedSlice S48x1024x599 ![0, 0, 0] y slices_S48x1024x600_S48x1024x599_0_0_0)))
      (constant S_ .f32 0x00000000#32) reducesTo_S48x1024x599_S48x1024_d2 h_S_)

-- The power law a12 (k / 0.05)^(a13 - 1) of the primordial spectrum, and below it that law over k³.
def pr1 (a0 : FVec Ideal S1024 .f32) (a12 a13 : FVec Ideal S_ .f32) : FVec Ideal S1024 .f32 :=
  mulf (broadcastInDim S1024 ![] bcast_S_S1024 a12)
    (Host.powf (Host.divf a0 (broadcastInDim S1024 ![] bcast_S_S1024 (constant S_ .f32 0x3D4CCCCD#32)))
      (broadcastInDim S1024 ![] bcast_S_S1024 (subf a13 (constant S_ .f32 0x3F800000#32))))

def prFrom (p : FVec Ideal S1024 .f32) (a0 : FVec Ideal S1024 .f32) : FVec Ideal S1024 .f32 :=
  mulf p (Host.divf (broadcastInDim S1024 ![] bcast_S_S1024 (constant S_ .f32 0x419DE9E6#32)) (mulf (mulf a0 a0) a0))

def bk (w : FVec Ideal S1024 .f32) : FVec Ideal S48x1024 .f32 :=
  broadcastInDim S48x1024 ![0, 1] bcast_S1x1024_S48x1024_0_1 (broadcastInDim S1x1024 ![1] bcast_S1024_S1x1024_1 w)

-- The trapezoid rule along k.
def trapzK (k : FVec Ideal S1024 .f32) (y : FVec Ideal S48x1024 .f32) : FVec Ideal S48 .f32 :=
  mulf (broadcastInDim S48 ![] bcast_S_S48 (constant S_ .f32 0x3F000000#32))
    (Host.reduceAdd
      (mulf
        (broadcastInDim S48x1023 ![0, 1] bcast_S1x1023_S48x1023_0_1
          (broadcastInDim S1x1023 ![1] bcast_S1023_S1x1023_1
            (subf (extractStridedSlice S1023 ![1] k slices_S1024_S1023_1) (extractStridedSlice S1023 ![0] k slices_S1024_S1023_0))))
        (addf (extractStridedSlice S48x1023 ![0, 1] y slices_S48x1024_S48x1023_0_1)
          (extractStridedSlice S48x1023 ![0, 0] y slices_S48x1024_S48x1023_0_0)))
      (constant S_ .f32 0x00000000#32) reducesTo_S48x1023_S48_d1 h_S_)

-- One spectrum: 2/π times the integral over k of (w·X)·Y.
def clRow (k w : FVec Ideal S1024 .f32) (X Y : FVec Ideal S48x1024 .f32) : FVec Ideal S1x48 .f32 :=
  broadcastInDim S1x48 ![1] bcast_S48_S1x48_1
    (mulf (broadcastInDim S48 ![] bcast_S_S48 (constant S_ .f32 0x3F22F983#32)) (trapzK k (mulf (mulf (bk w) X) Y)))

def out3 (k pr : FVec Ideal S1024 .f32) (Tl El : FVec Ideal S48x1024 .f32) : FVec Ideal S3x48 .f32 :=
  concatenate S3x48 0
    [⟨S1x48, clRow k (mulf (mulf k k) pr) Tl Tl⟩, ⟨S1x48, clRow k (mulf (mulf k k) pr) El El⟩, ⟨S1x48, clRow k (mulf (mulf k k) pr) Tl El⟩]
    concatenates_S1x48_S1x48_S1x48_S3x48_d0

-- The temperature integrand: three sources against three interpolated tables.
def srcArr (s0 s1 s2 : FVec Ideal S1024x600 .f32) (t0 t1 t2 : FVec Ideal S20000x48 .f32) (i : IVec S1024x600 32)
    (fr : FVec Ideal S1024x600 .f32) : FVec Ideal S48x1024x600 .f32 :=
  addf (addf (mulf (bb s0) (interpArr t0 i fr)) (mulf (bb s1) (interpArr t1 i fr))) (mulf (bb s2) (interpArr t2 i fr))

def RArr (k : FVec Ideal S1024 .f32) (tau : FVec Ideal S600 .f32) (s0 s1 s2 se : FVec Ideal S1024x600 .f32)
    (t0 t1 t2 t3 : FVec Ideal S20000x48 .f32) (i : IVec S1024x600 32) (fr : FVec Ideal S1024x600 .f32)
    (pr : FVec Ideal S1024 .f32) : FVec Ideal S3x48 .f32 :=
  out3 k pr (trapzTau tau (srcArr s0 s1 s2 t0 t1 t2 i fr)) (trapzTau tau (mulf (bb se) (interpArr t3 i fr)))

-- Each copy of the position chain the program computes again is the shared one.
theorem posArr_eq (a0 : FVec Ideal S1024 .f32) (a1 : FVec Ideal S600 .f32) (a2 : FVec Ideal S_ .f32) (a7 : FVec Ideal S20000 .f32) :
    posFrom (subf (xArr a0 a1 a2) (spread (Cert.Shared.x0V a7))) (spread (subf (Cert.Shared.xNV a7) (Cert.Shared.x0V a7)))
      = Cert.Shared.posV a0 a1 a2 a7 := rfl
theorem i0Arr_eq (a0 : FVec Ideal S1024 .f32) (a1 : FVec Ideal S600 .f32) (a2 : FVec Ideal S_ .f32) (a7 : FVec Ideal S20000 .f32) :
    i0From (Cert.Shared.posV a0 a1 a2 a7) = Cert.Shared.i0V a0 a1 a2 a7 := rfl
theorem fracArr_eq (a0 : FVec Ideal S1024 .f32) (a1 : FVec Ideal S600 .f32) (a2 : FVec Ideal S_ .f32) (a7 : FVec Ideal S20000 .f32) :
    fracFrom (Cert.Shared.posV a0 a1 a2 a7) = Cert.Shared.fracV a0 a1 a2 a7 := rfl
theorem prArr_eq (a0 : FVec Ideal S1024 .f32) (a12 a13 : FVec Ideal S_ .f32) :
    prFrom (pr1 a0 a12 a13) a0 = Cert.Shared.prV a0 a12 a13 := rfl

end Cert.ReferenceIdeal.HandV

end
-- ==== Proof.RefStage0.lean ====
import proofs.«179317_j25280177504693_1_alg».proof.Proof.RefRun
import proofs.«179317_j25280177504693_1_alg».proof.Proof.RefArr

noncomputable section

namespace Cert.ReferenceIdeal.HandV

open Cert.ReferenceIdeal.Hand Cert.Shared Idealize.ShloMosaic Idealize.ShloMosaic.TcCoe Idealize.ShloMosaic.StableHlo

variable (V : Valuation τ sig (Elt Ideal))

theorem st0_v1 : after ops0 V main_v1 = x0V (V main_arg7) := by
  after_results_simp; rfl
theorem st0_v3 : after ops0 V main_v3 = xNV (V main_arg7) := by
  after_results_simp; rfl
theorem st0_v10 : after ops0 V main_v10 = xArr (V main_arg0) (V main_arg1) (V main_arg2) := by
  after_results_simp; rfl
theorem st0_v36 : after ops0 V main_v36 = mulf (gatherT (V main_arg8) (i0V (V main_arg0) (V main_arg1) (V main_arg2) (V main_arg7))) (bb (subf (spread (constant S_ .f32 0x3F800000#32)) (fracV (V main_arg0) (V main_arg1) (V main_arg2) (V main_arg7)))) := by
  after_results_simp; rfl
theorem st0_v46 : after ops0 V main_v46 = gatherT (V main_arg8) (incr (i0V (V main_arg0) (V main_arg1) (V main_arg2) (V main_arg7))) := by
  after_results_simp; rfl
theorem st0_v48 : after ops0 V main_v48 = bb (fracV (V main_arg0) (V main_arg1) (V main_arg2) (V main_arg7)) := by
  after_results_simp; rfl

end Cert.ReferenceIdeal.HandV

end
-- ==== Proof.RefStage1.lean ====
import proofs.«179317_j25280177504693_1_alg».proof.Proof.RefRun
import proofs.«179317_j25280177504693_1_alg».proof.Proof.RefArr

set_option maxHeartbeats 1600000

noncomputable section

namespace Cert.ReferenceIdeal.HandV

open Cert.ReferenceIdeal Cert.ReferenceIdeal.Gen Cert.ReferenceIdeal.Hand Cert.Shared
open Idealize.ShloMosaic Idealize.ShloMosaic.TcCoe Idealize.SL.Sem Idealize.ShloMosaic.StableHlo

variable (V : Valuation τ sig (Elt Ideal))

theorem st1_v97 : after ops1 V main_v97 = addf (mulf (bb (V main_arg3)) (addf (V main_v36) (mulf (V main_v46) (V main_v48)))) (mulf (bb (V main_arg4)) (interpArr (V main_arg9) (i0From (posFrom (subf (V main_v10) (spread (V main_v1))) (spread (subf (V main_v3) (V main_v1))))) (fracFrom (posFrom (subf (V main_v10) (spread (V main_v1))) (spread (subf (V main_v3) (V main_v1))))))) := by
  after_results_simp; rfl

end Cert.ReferenceIdeal.HandV

end
-- ==== Proof.RefStage2.lean ====
import proofs.«179317_j25280177504693_1_alg».proof.Proof.RefRun
import proofs.«179317_j25280177504693_1_alg».proof.Proof.RefArr

set_option maxHeartbeats 1600000

noncomputable section

namespace Cert.ReferenceIdeal.HandV

open Cert.ReferenceIdeal Cert.ReferenceIdeal.Gen Cert.ReferenceIdeal.Hand Cert.Shared
open Idealize.ShloMosaic Idealize.ShloMosaic.TcCoe Idealize.SL.Sem Idealize.ShloMosaic.StableHlo

variable (V : Valuation τ sig (Elt Ideal))

theorem st2_v142 : after ops2 V main_v142 = trapzTau (V main_arg1) (addf (V main_v97) (mulf (bb (V main_arg5)) (interpArr (V main_arg10) (i0From (posFrom (subf (V main_v10) (spread (V main_v1))) (spread (subf (V main_v3) (V main_v1))))) (fracFrom (posFrom (subf (V main_v10) (spread (V main_v1))) (spread (subf (V main_v3) (V main_v1)))))))) := by
  after_results_simp; rfl
theorem st2_v144 : after ops2 V main_v144 = subf (V main_v10) (spread (V main_v1)) := by
  after_results_simp; rfl
theorem st2_v146 : after ops2 V main_v146 = spread (subf (V main_v3) (V main_v1)) := by
  after_results_simp; rfl

end Cert.ReferenceIdeal.HandV

end
-- ==== Proof.RefStage3.lean ====
import proofs.«179317_j25280177504693_1_alg».proof.Proof.RefRun
import proofs.«179317_j25280177504693_1_alg».proof.Proof.RefArr

noncomputable section

namespace Cert.ReferenceIdeal.HandV

open Cert.ReferenceIdeal.Hand Cert.Shared Idealize.ShloMosaic Idealize.ShloMosaic.TcCoe Idealize.ShloMosaic.StableHlo

variable (V : Valuation τ sig (Elt Ideal))

theorem st3_v186 : after ops3 V main_v186 = trapzTau (V main_arg1) (mulf (bb (V main_arg6)) (interpArr (V main_arg11) (i0From (posFrom (V main_v144) (V main_v146))) (fracFrom (posFrom (V main_v144) (V main_v146))))) := by
  after_results_simp; rfl
theorem st3_v193 : after ops3 V main_v193 = pr1 (V main_arg0) (V main_arg12) (V main_arg13) := by
  after_results_simp; rfl

end Cert.ReferenceIdeal.HandV

end
-- ==== Proof.RefStage4.lean ====
import proofs.«179317_j25280177504693_1_alg».proof.Proof.RefRun
import proofs.«179317_j25280177504693_1_alg».proof.Proof.RefArr
import proofs.«179317_j25280177504693_1_alg».proof.Proof.LibNary3

noncomputable section

namespace Cert.ReferenceIdeal.HandV

open Cert.ReferenceIdeal.Hand Cert.Shared Idealize.ShloMosaic Idealize.ShloMosaic.TcCoe Idealize.ShloMosaic.StableHlo

variable (V : Valuation τ sig (Elt Ideal))

theorem st4_v225 : after ops4 V main_v225 = out3 (V main_arg0) (prFrom (V main_v193) (V main_arg0)) (V main_v142) (V main_v186) := by
  after_results_simp3; rfl

end Cert.ReferenceIdeal.HandV

end
-- ==== Proof.RefForm.lean ====
import proofs.«179317_j25280177504693_1_alg».proof.ReferenceIdeal
import proofs.«179317_j25280177504693_1_alg».proof.Proof.Shared
import proofs.«179317_j25280177504693_1_alg».proof.Proof.Spec
import proofs.«179317_j25280177504693_1_alg».proof.Proof.Readers
import Idealize.ShloMosaic.Lib.ValueIdx

noncomputable section

namespace Cert.ReferenceIdeal.HandV

open Cert.Rd Idealize.ShloMosaic Idealize.ShloMosaic.ValueIdx

def half : EReal := Ideal.ofBits .f32 0x3F000000#32

def twoOverPi : EReal := Ideal.ofBits .f32 0x3F22F983#32

def interpAt (T : FVec Ideal S20000x48 .f32) (i0 : IVec S1024x600 32) (fr : FVec Ideal S1024x600 .f32) (l j n : ℕ) : EReal :=
  Cert.Spec.interpR (fun r => rd2 T r l) (rdN i0 j n) (rd2 fr j n)

-- Tl and El at column l and wavenumber j: the trapezoid rule over tau of the sources against the interpolated table columns.
def TlR (tau : FVec Ideal S600 .f32) (s0 s1 s2 : FVec Ideal S1024x600 .f32) (t0 t1 t2 : FVec Ideal S20000x48 .f32)
    (i0 : IVec S1024x600 32) (fr : FVec Ideal S1024x600 .f32) (l j : ℕ) : EReal :=
  Cert.Spec.intR 599 half (rd1 tau) fun n =>
    Cert.Spec.srcT (rd2 s0 j n) (rd2 s1 j n) (rd2 s2 j n) (interpAt t0 i0 fr l j n) (interpAt t1 i0 fr l j n) (interpAt t2 i0 fr l j n)

def ElR (tau : FVec Ideal S600 .f32) (se : FVec Ideal S1024x600 .f32) (t3 : FVec Ideal S20000x48 .f32)
    (i0 : IVec S1024x600 32) (fr : FVec Ideal S1024x600 .f32) (l j : ℕ) : EReal :=
  Cert.Spec.intR 599 half (rd1 tau) fun n => rd2 se j n * interpAt t3 i0 fr l j n

-- Row r of the result pairs (Tl, Tl), (El, El), (Tl, El) for r = 0, 1, 2.
def RCore (k : FVec Ideal S1024 .f32) (tau : FVec Ideal S600 .f32) (s0 s1 s2 se : FVec Ideal S1024x600 .f32)
    (t0 t1 t2 t3 : FVec Ideal S20000x48 .f32) (i0 : IVec S1024x600 32) (fr : FVec Ideal S1024x600 .f32)
    (pr : FVec Ideal S1024 .f32) : FVec Ideal S3x48 .f32 := fun i =>
  Cert.Spec.clR twoOverPi half (rd1 k) (Cert.Spec.wR (rd1 k) (rd1 pr))
    (fun j => if (i 0).val = 1 then ElR tau se t3 i0 fr (i 1).val j else TlR tau s0 s1 s2 t0 t1 t2 i0 fr (i 1).val j)
    (fun j => if (i 0).val = 0 then TlR tau s0 s1 s2 t0 t1 t2 i0 fr (i 1).val j else ElR tau se t3 i0 fr (i 1).val j)

def RForm (a0 : FVec Ideal S1024 .f32) (a1 : FVec Ideal S600 .f32) (a2 : FVec Ideal S_ .f32)
    (a3 a4 a5 a6 : FVec Ideal S1024x600 .f32) (a7 : FVec Ideal S20000 .f32) (a8 a9 a10 a11 : FVec Ideal S20000x48 .f32)
    (a12 a13 : FVec Ideal S_ .f32) : FVec Ideal S3x48 .f32 :=
  RCore a0 a1 a3 a4 a5 a6 a8 a9 a10 a11 (Cert.Shared.i0V a0 a1 a2 a7) (Cert.Shared.fracV a0 a1 a2 a7) (Cert.Shared.prV a0 a12 a13)

end Cert.ReferenceIdeal.HandV

end
-- ==== Proof.RefIndex.lean ====
import proofs.«179317_j25280177504693_1_alg».proof.Proof.RefArr
import proofs.«179317_j25280177504693_1_alg».proof.Proof.RefForm
import proofs.«179317_j25280177504693_1_alg».proof.Proof.Readers
import Idealize.ShloMosaic.Lib.ValueIdx
import Idealize.ShloMosaic.Lib.IdealHost
import Idealize.ShloMosaic.Lib.ValueLayout
import Idealize.ShloMosaic.Lib.Pipeline.Value
import Idealize.ShloMosaic.PureOps.Ideal.Laws
import Mathlib.Algebra.BigOperators.Fin

noncomputable section

namespace Cert.ReferenceIdeal.HandV

open Cert.ReferenceIdeal.Gen Cert.Rd Idealize.ShloMosaic Idealize.ShloMosaic.ValueIdx

-- A statement about every coordinate of an index of rank one, two or three holds if it holds at each.
theorem fin1 {P : Fin 1 → Prop} (h0 : P 0) : ∀ a, P a | ⟨0, _⟩ => h0
theorem fin2 {P : Fin 2 → Prop} (h0 : P 0) (h1 : P 1) : ∀ a, P a | ⟨0, _⟩ => h0 | ⟨1, _⟩ => h1
theorem fin3 {P : Fin 3 → Prop} (h0 : P 0) (h1 : P 1) (h2 : P 2) : ∀ a, P a | ⟨0, _⟩ => h0 | ⟨1, _⟩ => h1 | ⟨2, _⟩ => h2

theorem spread_apply (x : FVec Ideal S_ .f32) (i : S1024x600.Idx) : spread x i = x ix0 := by
  unfold spread; exact broadcastInDim_scalar_apply _ x i

theorem bb_apply (x : FVec Ideal S1024x600 .f32) (l : Fin 48) (j : Fin 1024) (n : Fin 600) : bb x (ix3 l j n) = x (ix2 j n) := by
  unfold bb
  rw [broadcastInDim_apply _ _ _ (ix3 l j n) (ix3 (0 : Fin 1) j n)
    (fin3 rfl rfl rfl)]
  exact broadcastInDim_apply _ _ _ (ix3 (0 : Fin 1) j n) (ix2 j n) (fin2 rfl rfl)

theorem bk_apply (w : FVec Ideal S1024 .f32) (l : Fin 48) (j : Fin 1024) : bk w (ix2 l j) = w (ix1 j) := by
  unfold bk
  rw [broadcastInDim_apply _ _ _ (ix2 l j) (ix2 (0 : Fin 1) j) (fin2 rfl rfl)]
  exact broadcastInDim_apply _ _ _ (ix2 (0 : Fin 1) j) (ix1 j) (fin1 rfl)

theorem selIdx_apply (i : IVec S1024x600 32) (j : Fin 1024) (n : Fin 600) :
    selIdx i (ix3 j n (0 : Fin 1))
      = Scalar.select (IntOp.cmpi .slt (i (ix2 j n)) 0#32) (IntOp.addi (i (ix2 j n)) 20000#32) (i (ix2 j n)) := by
  unfold selIdx
  rw [broadcastInDim_apply _ _ _ (ix3 j n (0 : Fin 1)) (ix2 j n) (fin2 rfl rfl)]
  rfl

-- The gather at (l, j, n) is column l of the row the start index of (j, n) names, read signed and clamped into the table.
theorem gatherRaw_apply (x : FVec Ideal S48x20000 .f32) (idx : IVec S1024x600x1 32) (l : Fin 48) (j : Fin 1024) (n : Fin 600) :
    Host.gather gather_S48x20000_S1024x600x1_S48x1024x600_0_1_n_n_1_2_481 x idx (ix3 l j n)
      = x (ix2 l ⟨min (idx (ix3 j n (0 : Fin 1))).toInt.toNat 19999, by omega⟩) := by
  unfold Host.gather
  congr 1
  funext a
  refine Fin.ext ?_
  match a with
  | ⟨0, _⟩ =>
    show GatherDims.start _ _ idx _ + GatherDims.batchCoord _ _ _ + GatherDims.offCoord _ _ _ = l.val
    rw [GatherDims.batchCoord_eq_zero _ _ _ List.not_mem_nil]
    unfold GatherDims.start GatherDims.offCoord
    rw [dif_neg (by decide +revert), dif_pos (by decide +revert)]
    simp only [Nat.zero_add, Nat.add_zero]
    rfl
  | ⟨1, _⟩ =>
    show GatherDims.start _ _ idx _ + GatherDims.batchCoord _ _ _ + GatherDims.offCoord _ _ _ = _
    rw [GatherDims.batchCoord_eq_zero _ _ _ List.not_mem_nil,
      GatherDims.offCoord_eq_zero _ _ _ (by decide +revert)]
    simp only [Nat.add_zero]
    unfold GatherDims.start
    rw [dif_pos (by decide +revert)]
    have hsi : ∀ c, (gather_S48x20000_S1024x600x1_S48x1024x600_0_1_n_n_1_2_481).siIdx (ix3 l j n) c = ix3 j n (0 : Fin 1) := by
      intro c
      funext b; refine Fin.ext ?_
      match b with
      | ⟨0, _⟩ => rfl
      | ⟨1, _⟩ => rfl
      | ⟨2, _⟩ =>
        show c.val = 0
        have hc : c.val < 1 := c.isLt
        omega
    rw [hsi]
    rfl

theorem gatherT_apply (T : FVec Ideal S20000x48 .f32) (i : IVec S1024x600 32) (l : Fin 48) (j : Fin 1024) (n : Fin 600) :
    gatherT T i (ix3 l j n)
      = rd2 T (min (Scalar.select (IntOp.cmpi .slt (i (ix2 j n)) 0#32) (IntOp.addi (i (ix2 j n)) 20000#32) (i (ix2 j n))).toInt.toNat 19999) l.val := by
  unfold gatherT
  rw [gatherRaw_apply, transpose_ix2_apply]
  refine (rd2_lt T _ _ (by omega) l.isLt).symm.trans ?_
  rw [selIdx_apply]

theorem toInt_eq_toNat_of_nonneg (x : BitVec 32) (h : 0 ≤ x.toInt) : x.toInt = (x.toNat : ℤ) := by
  rw [BitVec.toInt_eq_toNat_cond] at h ⊢
  split at h <;> rename_i hc
  · rw [if_pos hc]
  · exfalso; have := x.isLt; omega

-- A row in [0, 19999] is its own start index.
theorem row_lo (x : BitVec 32) (h0 : 0 ≤ x.toInt) (h1 : x.toInt ≤ 19999) :
    min (Scalar.select (IntOp.cmpi .slt x 0#32) (IntOp.addi x 20000#32) x).toInt.toNat 19999 = x.toNat := by
  have hx := toInt_eq_toNat_of_nonneg x h0
  have hlt : x.slt 0#32 = false := by
    simp only [BitVec.slt, BitVec.toInt_zero, decide_eq_false_iff_not, Int.not_lt]; exact h0
  have hs : Scalar.select (IntOp.cmpi .slt x 0#32) (IntOp.addi x 20000#32) x = x := by
    show (if BitVec.ofBool (x.slt 0#32) = 1 then _ else _) = _
    rw [hlt]; rfl
  rw [hs, hx]
  omega

-- After a row in [0, 19998] the next row is in range, and is the row plus one.
theorem row_hi (x : BitVec 32) (h0 : 0 ≤ x.toInt) (h1 : x.toInt ≤ 19998) :
    min (Scalar.select (IntOp.cmpi .slt (IntOp.addi x 1#32) 0#32) (IntOp.addi (IntOp.addi x 1#32) 20000#32) (IntOp.addi x 1#32)).toInt.toNat 19999
      = x.toNat + 1 := by
  have hx := toInt_eq_toNat_of_nonneg x h0
  have hy : (IntOp.addi x 1#32).toNat = x.toNat + 1 := by
    show (x + 1#32).toNat = _
    rw [BitVec.toNat_add]
    have : (1#32 : BitVec 32).toNat = 1 := by decide
    rw [this]; omega
  have hyi : (IntOp.addi x 1#32).toInt = (x.toNat : ℤ) + 1 := by
    have h2 : 2 * (x.toNat + 1) < 2 ^ 32 := by omega
    rw [BitVec.toInt_eq_toNat_cond, hy, if_pos h2]; push_cast; ring
  exact (row_lo (IntOp.addi x 1#32) (by omega) (by omega)).trans hy

-- Where the row lies in [0, 19998] the interpolated table is the two neighbouring rows of its column.
theorem interpArr_apply (T : FVec Ideal S20000x48 .f32) (i : IVec S1024x600 32) (fr : FVec Ideal S1024x600 .f32)
    (l : Fin 48) (j : Fin 1024) (n : Fin 600) (h0 : 0 ≤ (i (ix2 j n)).toInt) (h1 : (i (ix2 j n)).toInt ≤ 19998) :
    interpArr T i fr (ix3 l j n) = interpAt T i fr l.val j.val n.val := by
  have hinc : incr i (ix2 j n) = IntOp.addi (i (ix2 j n)) 1#32 := rfl
  unfold interpArr interpAt Cert.Spec.interpR
  rw [addf_apply, mulf_apply, mulf_apply, gatherT_apply, gatherT_apply, bb_apply, bb_apply, subf_apply, spread_apply,
    constant_apply, Ideal.ofBits_one_f32, rdN_fin, rd2_fin, hinc, row_lo _ h0 (by omega), row_hi _ h0 h1]

theorem lift3 (h : S48x1024x599.Reduces [2] S48x1024) (l : Fin 48) (j : Fin 1024) (q : Fin 599) :
    h.lift (ix2 l j) q = ix3 l j q := by
  funext c; refine Fin.ext ?_
  match c with
  | ⟨0, _⟩ => rfl
  | ⟨1, _⟩ => rfl
  | ⟨2, _⟩ => rfl

theorem lift2 (h : S48x1023.Reduces [1] S48) (l : Fin 48) (q : Fin 1023) : h.lift (ix1 l) q = ix2 l q := by
  funext c; refine Fin.ext ?_
  match c with
  | ⟨0, _⟩ => rfl
  | ⟨1, _⟩ => rfl

-- The trapezoid rule over tau: one half of the sum, over the intervals, of the step times the sum of the two ordinates.
theorem trapzTau_apply (tau : FVec Ideal S600 .f32) (y : FVec Ideal S48x1024x600 .f32) (l : Fin 48) (j : Fin 1024)
    (Y : ℕ → EReal) (hY : ∀ n : Fin 600, y (ix3 l j n) = Y n.val) :
    trapzTau tau y (ix2 l j) = Cert.Spec.intR 599 half (rd1 tau) Y := by
  have hR : S48x1024x599.Reduces [2] S48x1024 := by decide
  unfold trapzTau Cert.Spec.intR
  rw [mulf_apply, broadcastInDim_scalar_apply, constant_apply, hostReduceAdd_apply, Ideal.hostReduceAdd_single _ hR,
    constant_apply, Ideal.ofBits_zero_f32, zero_add, ← Fin.sum_univ_eq_sum_range]
  refine congrArg (fun z => Ideal.ofBits .f32 0x3F000000#32 * z) (Finset.sum_congr rfl fun (q : Fin 599) _ => ?_)
  rw [lift3, mulf_apply, addf_apply,
    broadcastInDim_apply _ _ _ (ix3 l j q) (ix3 (0 : Fin 1) (0 : Fin 1) q)
      (fin3 rfl rfl rfl),
    broadcastInDim_apply _ _ _ (ix3 (0 : Fin 1) (0 : Fin 1) q) (ix2 (0 : Fin 1) q)
      (fin2 rfl rfl),
    broadcastInDim_apply _ _ _ (ix2 (0 : Fin 1) q) (ix1 q) (fin1 rfl),
    subf_apply,
    extractStridedSlice_apply _ tau _ (ix1 q) (ix1 ⟨q.val + 1, by omega⟩) (fin1 (Nat.add_comm _ _)),
    extractStridedSlice_apply _ tau _ (ix1 q) (ix1 ⟨q.val, by omega⟩) (fin1 (Nat.zero_add _).symm),
    extractStridedSlice_apply _ y _ (ix3 l j q) (ix3 l j ⟨q.val + 1, by omega⟩)
      (fin3 (Nat.zero_add _).symm (Nat.zero_add _).symm (Nat.add_comm _ _)),
    extractStridedSlice_apply _ y _ (ix3 l j q) (ix3 l j ⟨q.val, by omega⟩)
      (fin3 (Nat.zero_add _).symm (Nat.zero_add _).symm (Nat.zero_add _).symm),
    hY, hY, rd1_lt tau (q.val + 1) (by omega), rd1_lt tau q.val (by omega)]

-- The same rule over the wavenumbers.
theorem trapzK_apply (k : FVec Ideal S1024 .f32) (y : FVec Ideal S48x1024 .f32) (l : Fin 48)
    (Y : ℕ → EReal) (hY : ∀ j : Fin 1024, y (ix2 l j) = Y j.val) :
    trapzK k y (ix1 l) = Cert.Spec.intR 1023 half (rd1 k) Y := by
  have hR : S48x1023.Reduces [1] S48 := by decide
  unfold trapzK Cert.Spec.intR
  rw [mulf_apply, broadcastInDim_scalar_apply, constant_apply, hostReduceAdd_apply, Ideal.hostReduceAdd_single _ hR,
    constant_apply, Ideal.ofBits_zero_f32, zero_add, ← Fin.sum_univ_eq_sum_range]
  refine congrArg (fun z => Ideal.ofBits .f32 0x3F000000#32 * z) (Finset.sum_congr rfl fun (q : Fin 1023) _ => ?_)
  rw [lift2, mulf_apply, addf_apply,
    broadcastInDim_apply _ _ _ (ix2 l q) (ix2 (0 : Fin 1) q) (fin2 rfl rfl),
    broadcastInDim_apply _ _ _ (ix2 (0 : Fin 1) q) (ix1 q) (fin1 rfl),
    subf_apply,
    extractStridedSlice_apply _ k _ (ix1 q) (ix1 ⟨q.val + 1, by omega⟩) (fin1 (Nat.add_comm _ _)),
    extractStridedSlice_apply _ k _ (ix1 q) (ix1 ⟨q.val, by omega⟩) (fin1 (Nat.zero_add _).symm),
    extractStridedSlice_apply _ y _ (ix2 l q) (ix2 l ⟨q.val + 1, by omega⟩)
      (fin2 (Nat.zero_add _).symm (Nat.add_comm _ _)),
    extractStridedSlice_apply _ y _ (ix2 l q) (ix2 l ⟨q.val, by omega⟩)
      (fin2 (Nat.zero_add _).symm (Nat.zero_add _).symm),
    hY, hY, rd1_lt k (q.val + 1) (by omega), rd1_lt k q.val (by omega)]

-- A result row at column l: 2/π times the trapezoid rule over k of (k²·P·X)·Y.
theorem clRow_apply (k pr : FVec Ideal S1024 .f32) (X Y : FVec Ideal S48x1024 .f32) (u : Fin 1) (l : Fin 48)
    (Xf Yf : ℕ → EReal) (hX : ∀ j : Fin 1024, X (ix2 l j) = Xf j.val) (hY : ∀ j : Fin 1024, Y (ix2 l j) = Yf j.val) :
    clRow k (mulf (mulf k k) pr) X Y (ix2 u l)
      = Cert.Spec.clR twoOverPi half (rd1 k) (Cert.Spec.wR (rd1 k) (rd1 pr)) Xf Yf := by
  unfold clRow Cert.Spec.clR
  rw [broadcastInDim_apply _ _ _ (ix2 u l) (ix1 l) (fin1 rfl),
    mulf_apply, broadcastInDim_scalar_apply, constant_apply,
    trapzK_apply k _ l (fun j => (Cert.Spec.wR (rd1 k) (rd1 pr) j * Xf j) * Yf j) (fun j => by
      rw [mulf_apply, mulf_apply, bk_apply, mulf_apply, mulf_apply, hX, hY]
      unfold Cert.Spec.wR
      rw [rd1_fin, rd1_fin])]
  rfl

-- Row 0 pairs (Tl, Tl), row 1 (El, El), row 2 (Tl, El).
theorem out3_apply (k pr : FVec Ideal S1024 .f32) (Tl El : FVec Ideal S48x1024 .f32) (r : Fin 3) (l : Fin 48)
    (TlF ElF : ℕ → EReal) (hTl : ∀ j : Fin 1024, Tl (ix2 l j) = TlF j.val) (hEl : ∀ j : Fin 1024, El (ix2 l j) = ElF j.val) :
    out3 k pr Tl El (ix2 r l)
      = Cert.Spec.clR twoOverPi half (rd1 k) (Cert.Spec.wR (rd1 k) (rd1 pr))
          (fun j => if r.val = 1 then ElF j else TlF j) (fun j => if r.val = 0 then TlF j else ElF j) := by
  have hoff : ∀ (r : Fin 3) (b : Fin S1x48.rank), b.cast (rfl : S1x48.rank = S3x48.rank) ≠ (0 : Fin S3x48.rank) →
      ((ix2 (0 : Fin 1) l : S1x48.Idx) b).val = ((ix2 r l : S3x48.Idx) (b.cast rfl)).val := fun r b hb => by
    match b with
    | ⟨0, _⟩ => exact absurd rfl hb
    | ⟨1, _⟩ => rfl
  unfold out3
  match r with
  | ⟨0, _⟩ =>
    rw [concatenate_apply_piece (0 : Fin S3x48.rank) _ _ (ix2 ⟨0, _⟩ l) 0 (by show (0 : ℕ) < 3; omega) S1x48 _ rfl rfl 0 rfl
      (ix2 (0 : Fin 1) l) (hoff _) rfl]
    exact (clRow_apply k pr Tl Tl (0 : Fin 1) l TlF TlF hTl hTl).trans rfl
  | ⟨1, _⟩ =>
    rw [concatenate_apply_piece (0 : Fin S3x48.rank) _ _ (ix2 ⟨1, _⟩ l) 1 (by show (1 : ℕ) < 3; omega) S1x48 _ rfl rfl 1 rfl
      (ix2 (0 : Fin 1) l) (hoff _) rfl]
    exact (clRow_apply k pr El El (0 : Fin 1) l ElF ElF hEl hEl).trans rfl
  | ⟨2, _⟩ =>
    rw [concatenate_apply_piece (0 : Fin S3x48.rank) _ _ (ix2 ⟨2, _⟩ l) 2 (by show (2 : ℕ) < 3; omega) S1x48 _ rfl rfl 2 rfl
      (ix2 (0 : Fin 1) l) (hoff _) rfl]
    exact (clRow_apply k pr Tl El (0 : Fin 1) l TlF ElF hTl hEl).trans rfl

-- Where every row lies in [0, 19998] the result arrays are the closed form.
theorem RArr_eq_RCore (k : FVec Ideal S1024 .f32) (tau : FVec Ideal S600 .f32) (s0 s1 s2 se : FVec Ideal S1024x600 .f32)
    (t0 t1 t2 t3 : FVec Ideal S20000x48 .f32) (i : IVec S1024x600 32) (fr : FVec Ideal S1024x600 .f32)
    (pr : FVec Ideal S1024 .f32) (hi : ∀ idx : S1024x600.Idx, 0 ≤ (i idx).toInt ∧ (i idx).toInt ≤ 19998) :
    RArr k tau s0 s1 s2 se t0 t1 t2 t3 i fr pr = RCore k tau s0 s1 s2 se t0 t1 t2 t3 i fr pr := by
  funext x
  obtain ⟨r, l, rfl⟩ : ∃ (r : Fin 3) (l : Fin 48), x = ix2 r l := ⟨x 0, x 1, eq_ix2 x⟩
  unfold RArr RCore
  refine (out3_apply k pr _ _ r l (TlR tau s0 s1 s2 t0 t1 t2 i fr l.val) (ElR tau se t3 i fr l.val)
    (fun j => ?_) (fun j => ?_)).trans rfl
  · unfold TlR
    refine trapzTau_apply tau _ l j _ (fun n => ?_)
    unfold srcArr Cert.Spec.srcT
    rw [addf_apply, addf_apply, mulf_apply, mulf_apply, mulf_apply, bb_apply, bb_apply, bb_apply,
      interpArr_apply t0 i fr l j n (hi _).1 (hi _).2, interpArr_apply t1 i fr l j n (hi _).1 (hi _).2,
      interpArr_apply t2 i fr l j n (hi _).1 (hi _).2, rd2_fin, rd2_fin, rd2_fin]
  · unfold ElR
    refine trapzTau_apply tau _ l j _ (fun n => ?_)
    rw [mulf_apply, bb_apply, interpArr_apply t3 i fr l j n (hi _).1 (hi _).2, rd2_fin]

end Cert.ReferenceIdeal.HandV

end
-- ==== Proof.RefValue.lean ====
import proofs.«179317_j25280177504693_1_alg».proof.Proof.RefStage0
import proofs.«179317_j25280177504693_1_alg».proof.Proof.RefStage1
import proofs.«179317_j25280177504693_1_alg».proof.Proof.RefStage2
import proofs.«179317_j25280177504693_1_alg».proof.Proof.RefStage3
import proofs.«179317_j25280177504693_1_alg».proof.Proof.RefStage4
import proofs.«179317_j25280177504693_1_alg».proof.Proof.RefIndex
import proofs.«179317_j25280177504693_1_alg».proof.Proof.SharedFacts

noncomputable section

namespace Cert.ReferenceIdeal.HandV

open Cert.ReferenceIdeal.Hand Cert.Shared Idealize.ShloMosaic Idealize.ShloMosaic.TcCoe Idealize.ShloMosaic.StableHlo

-- Window after window, each value read later is the named array function of what the window found, or was not written at all.
theorem arr_eq (V : Valuation τ sig (Elt Ideal)) :
    after ops V main_v225
      = RArr (V main_arg0) (V main_arg1) (V main_arg3) (V main_arg4) (V main_arg5) (V main_arg6) (V main_arg8) (V main_arg9) (V main_arg10) (V main_arg11)
          (i0V (V main_arg0) (V main_arg1) (V main_arg2) (V main_arg7)) (fracV (V main_arg0) (V main_arg1) (V main_arg2) (V main_arg7)) (prV (V main_arg0) (V main_arg12) (V main_arg13)) := by
  simp only [ops, after_append]
  repeat (first
    | rw [st4_v225] | rw [st3_v186] | rw [st3_v193] | rw [st2_v142] | rw [st2_v144] | rw [st2_v146] | rw [st1_v97]
    | rw [st0_v1] | rw [st0_v3] | rw [st0_v10] | rw [st0_v36] | rw [st0_v46] | rw [st0_v48]
    | (rw [w3.keep]; rotate_left; decide) | (rw [w2.keep]; rotate_left; decide) | (rw [w1.keep]; rotate_left; decide) | (rw [w0.keep]; rotate_left; decide))
  rw [posArr_eq, i0Arr_eq, fracArr_eq, prArr_eq]
  rfl

-- Every row the shared position chain produces lies in [0, 19998], where the arrays are the closed form.
theorem res_eq (m : (ℓ : Loc nD τ sig) → Buf (Elt Ideal) ℓ) (c : Dev nD) :
    res (F := Ideal) m c = RForm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (arr_eq _).trans (RArr_eq_RCore _ _ _ _ _ _ _ _ _ _ _ _ _ fun idx => i0V_range _ _ _ _ idx)

end Cert.ReferenceIdeal.HandV

end
-- ==== Proof.LibTwoHot.lean ====
import Mathlib.Algebra.BigOperators.Group.Finset.Basic

namespace Cert.Lib

/-- `Q` chunks of `C` consecutive indices are the first `Q * C` indices. -/
theorem sum_chunks {M : Type*} [AddCommMonoid M] (g : ℕ → M) (Q C : ℕ) :
    ∑ q ∈ Finset.range Q, ∑ c ∈ Finset.range C, g (C * q + c) = ∑ r ∈ Finset.range (Q * C), g r := by
  induction Q with
  | zero => simp
  | succ Q ih => rw [Finset.sum_range_succ, ih, Nat.succ_mul, Finset.sum_range_add, Nat.mul_comm C Q]

end Cert.Lib
-- ==== Proof.Bridge.lean ====
import proofs.«179317_j25280177504693_1_alg».proof.Proof.Spec
import proofs.«179317_j25280177504693_1_alg».proof.Proof.LibTwoHot

namespace Cert.Bridge

open Cert.Spec Cert.Lib Finset

/-- All the weight sits on rows `i0` and `i0 + 1`, and `0 * z = 0` for every extended real `z`. -/
theorem interp_bridge (P : ℕ → EReal) (i0 : ℕ) (f : EReal) (h : i0 + 1 < 79 * 256) : interpK P i0 f = interpR P i0 f := by
  unfold interpK interpR
  rw [sum_chunks (fun r => hot i0 f r * P r), sum_eq_add_of_mem i0 (i0 + 1) (mem_range.2 (by omega)) (mem_range.2 h) (by omega)
    fun c _ hc => by simp only [hot, if_neg hc.1, if_neg hc.2, zero_mul]]
  unfold hot
  rw [if_pos rfl, if_neg (by omega), if_pos rfl, EReal.mul_comm, EReal.mul_comm f]

end Cert.Bridge
-- ==== Proof.LibTrapz.lean ====
import Mathlib.Data.EReal.Basic
import Mathlib.Algebra.BigOperators.Ring.Finset
import Mathlib.Tactic.Ring

namespace Cert.Lib

/-- The trapezoid weight of node `t` among the nodes `0 … n`: half the steps next to it. -/
noncomputable def trapzW (x : ℕ → ℝ) (n t : ℕ) : ℝ :=
  if t = 0 then (x 1 - x 0) / 2
  else if t = n then (x n - x (n - 1)) / 2
  else ((x t - x (t - 1)) + (x (t + 1) - x t)) / 2

/-- Each weight is the half-step to the right of its node plus the half-step to its left; shift the second sum by one. -/
theorem trapz_real (x y : ℕ → ℝ) (n : ℕ) (hn : 1 ≤ n) :
    ∑ t ∈ Finset.range (n + 1), y t * trapzW x n t
      = (1 / 2 : ℝ) * ∑ t ∈ Finset.range n, (x (t + 1) - x t) * (y (t + 1) + y t) := by
  have hw : ∀ t ∈ Finset.range (n + 1), y t * trapzW x n t
      = (if t < n then y t * ((x (t + 1) - x t) / 2) else 0) + (if 0 < t then y t * ((x t - x (t - 1)) / 2) else 0) := by
    intro t ht
    rcases Nat.eq_zero_or_pos t with rfl | h0
    · rw [trapzW, if_pos rfl, if_pos (by omega), if_neg (lt_irrefl 0), add_zero]
    · rcases (Nat.lt_succ_iff.1 (Finset.mem_range.1 ht)).eq_or_lt with rfl | h1
      · rw [trapzW, if_neg (by omega), if_pos rfl, if_neg (lt_irrefl t), if_pos h0, zero_add]
      · rw [trapzW, if_neg (by omega), if_neg (by omega), if_pos h1, if_pos h0]; ring
  rw [Finset.sum_congr rfl hw, Finset.sum_add_distrib, Finset.sum_range_succ, Finset.sum_range_succ' (fun t => if 0 < t then _ else _),
    if_neg (lt_irrefl n), if_neg (lt_irrefl 0), add_zero, add_zero, Finset.mul_sum, ← Finset.sum_add_distrib]
  refine Finset.sum_congr rfl fun t ht => ?_
  rw [if_pos (Finset.mem_range.1 ht), if_pos t.succ_pos, Nat.add_sub_cancel]
  ring

theorem coe_sum {ι : Type*} (s : Finset ι) (f : ι → ℝ) : ((∑ i ∈ s, f i : ℝ) : EReal) = ∑ i ∈ s, (f i : EReal) := by
  induction s using Finset.cons_induction with
  | empty => rfl
  | cons a s ha ih => rw [Finset.sum_cons, Finset.sum_cons, EReal.coe_add, ih]

end Cert.Lib
-- ==== Proof.FormBridge.lean ====
import proofs.«179317_j25280177504693_1_alg».proof.Proof.SpecHost
import proofs.«179317_j25280177504693_1_alg».proof.Proof.Bridge
import proofs.«179317_j25280177504693_1_alg».proof.Proof.LibFinite
import proofs.«179317_j25280177504693_1_alg».proof.Proof.LibTrapz
import proofs.«179317_j25280177504693_1_alg».proof.Proof.Readers

noncomputable section

namespace Cert.FormBridge

open Cert.Spec Cert.Lib Cert.Rd Idealize.ShloMosaic

theorem two_eq : Ideal.ofBits .f32 0x40000000#32 = ((2 : ℝ) : EReal) := by
  simp [Ideal.ofBits, Ideal.ieee, -EReal.coe_mul]; norm_num

theorem half_eq : Ideal.ofBits .f32 0x3F000000#32 = ((1 / 2 : ℝ) : EReal) := by
  simp [Ideal.ofBits, Ideal.ieee, -EReal.coe_mul]; norm_num

/-- On finite data the sum against the weights `trapzK` is the trapezoid rule, and finite: both sides are coerced reals. -/
theorem int_eq (N : ℕ) (hN : 1 ≤ N) (x y : ℕ → EReal) (hx : ∀ n, IsReal (x n)) (hy : ∀ n, IsReal (y n)) :
    intK N y (trapzK x N) = intR N (Ideal.ofBits .f32 0x3F000000#32) x y
      ∧ IsReal (intR N (Ideal.ofBits .f32 0x3F000000#32) x y) := by
  choose xr hx using hx
  choose yr hy using hy
  obtain rfl : x = fun n => (xr n : EReal) := funext hx
  obtain rfl : y = fun n => (yr n : EReal) := funext hy
  have hw : ∀ t, trapzK (fun n => (xr n : EReal)) N t = ((trapzW xr N t : ℝ) : EReal) := fun t => by
    unfold trapzK trapzW twoK
    rw [two_eq]
    split_ifs <;> simp only [← EReal.coe_sub, ← EReal.coe_add, Ideal.div_coe two_ne_zero, ← EReal.coe_mul, mul_one_div]
  unfold intK intR
  simp only [hw, half_eq, ← EReal.coe_sub, ← EReal.coe_add, ← EReal.coe_mul, ← coe_sum]
  exact ⟨congrArg _ (trapz_real xr yr N hN), isReal_coe _⟩

/-- A result row: where `k j = 0` the integrand is `0` whatever `pr j` is, elsewhere every factor is finite. -/
theorem cl_eq (c0 : EReal) (k pr X Y : ℕ → EReal) (hk : ∀ j, IsReal (k j)) (hpr : ∀ j, k j ≠ 0 → IsReal (pr j))
    (hX : ∀ j, IsReal (X j)) (hY : ∀ j, IsReal (Y j)) :
    clK c0 (wK (trapzK k 1023) k pr) X Y = clR c0 (Ideal.ofBits .f32 0x3F000000#32) k (wR k pr) X Y := by
  have hy : ∀ j, IsReal ((wR k pr j * X j) * Y j) := fun j => by
    unfold wR
    by_cases h0 : k j = 0
    · rw [h0, zero_mul, zero_mul, zero_mul, zero_mul]; exact isReal_zero
    · exact ((((hk j).mul (hk j)).mul (hpr j h0)).mul (hX j)).mul (hY j)
  unfold clK clR
  rw [← (int_eq 1023 (by norm_num) k _ hk hy).1]
  simp only [intK, wK, wR]
  exact congrArg _ (Finset.sum_congr rfl fun j _ => by ac_rfl)

theorem isReal_rd1 {n : ℕ} {x : (⟨1, ![n]⟩ : Shape).Idx → EReal} (hx : ∀ i, IsReal (x i)) (j : ℕ) : IsReal (rd1 x j) := by
  unfold rd1; split
  exacts [hx _, isReal_zero]

theorem isReal_rd2 {n0 n1 : ℕ} {x : (⟨2, ![n0, n1]⟩ : Shape).Idx → EReal} (hx : ∀ i, IsReal (x i)) (i j : ℕ) :
    IsReal (rd2 x i j) := by
  unfold rd2; split
  exacts [hx _, isReal_zero]

end Cert.FormBridge

end
-- ==== Proof.FiniteInputs.lean ====
import proofs.«179317_j25280177504693_1_alg».proof.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.Proof.Finite

open Idealize.ShloMosaic Idealize.ShloMosaic.ValueIdx Cert.Pre_finite_inputs

theorem inf_eq : (FloatOps.ofBits (F := Ideal) .f32 0x7F800000#32 : Ideal .f32) = (⊤ : EReal) := by
  simp [Ideal.ofBits, Ideal.ieee]

variable {s : Shape} {axes : List (Fin s.rank)}

/-- |x| = max x (-x) is +∞ at both infinities, so |x| < +∞ leaves x a real; the conjunction over an argument gives it at every entry. -/
theorem real_of_all (x : FVec Ideal s .f32) {y : FVec Ideal s .f32} (hy : ∀ i, y i = (⊤ : EReal)) {init : IVec S_ 1}
    {hr : s.ReducesTo axes S_} {h0 : 0 < S_.numel} (e : Host.reduce IntOp.andi (cmpf .olt (Host.absf x) y) init hr h0 ix0 = 1#1) (i : s.Idx) :
    ∃ r : ℝ, x i = (r : EReal) := by
  have h : BitVec.ofBool (decide (max (x i) (-x i) < y i)) = 1#1 := Host.reduce_andi_all _ init hr h0 ix0 e i
  rw [hy i, StableHlo.Predicate.ofBool_eq_one_iff, decide_eq_true_eq] at h
  generalize x i = z at h ⊢
  induction z using EReal.rec with
  | bot => simp at h
  | coe r => exact ⟨r, rfl⟩
  | top => simp at h

theorem bcast_top (hb : S_.BroadcastsInDim s (![] : Fin 0 → Fin s.rank)) (i : s.Idx) :
    broadcastInDim (α := Ideal .f32) s ![] hb (constant (F := Ideal) S_ .f32 0x7F800000#32) i = (⊤ : EReal) := by
  rw [StableHlo.Predicate.bcast_scalar hb (by decide)]
  exact inf_eq

/-- Every entry of each of the fourteen arguments is a real. -/
theorem of_pre [Cert.Pre_finite_inputs.Facts] {a0 a1 a2 a3 a4 a5 a6 a7 a8 a9 a10 a11 a12 a13}
    (h : fn (F := Ideal) a0 a1 a2 a3 a4 a5 a6 a7 a8 a9 a10 a11 a12 a13 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧ (∀ i, ∃ r : ℝ, a8 i = (r : EReal)) ∧
    (∀ i, ∃ r : ℝ, a9 i = (r : EReal)) ∧ (∀ i, ∃ r : ℝ, a10 i = (r : EReal)) ∧ (∀ i, ∃ r : ℝ, a11 i = (r : EReal)) ∧
    (∀ i, ∃ r : ℝ, a12 i = (r : EReal)) ∧ (∀ i, ∃ r : ℝ, a13 i = (r : EReal)) := by
  have h1 := congrFun h ix0
  dsimp only [fn, fn_part1, fn_part2, fn_part3, andi] at h1
  simp only [IntOp.andi_eq_one] at h1
  obtain ⟨⟨⟨⟨⟨⟨⟨⟨⟨⟨⟨⟨⟨e0, e1⟩, e2⟩, e3⟩, e4⟩, e5⟩, e6⟩, e7⟩, e8⟩, e9⟩, e10⟩, e11⟩, e12⟩, e13⟩ := h1
  exact ⟨real_of_all a0 (bcast_top _) e0, real_of_all a1 (bcast_top _) e1, real_of_all a2 (fun _ => inf_eq) e2,
    real_of_all a3 (bcast_top _) e3, real_of_all a4 (bcast_top _) e4, real_of_all a5 (bcast_top _) e5,
    real_of_all a6 (bcast_top _) e6, real_of_all a7 (bcast_top _) e7, real_of_all a8 (bcast_top _) e8,
    real_of_all a9 (bcast_top _) e9, real_of_all a10 (bcast_top _) e10, real_of_all a11 (bcast_top _) e11,
    real_of_all a12 (fun _ => inf_eq) e12, real_of_all a13 (fun _ => inf_eq) e13⟩

end Cert.Proof.Finite

end
-- ==== Proof.Algebraic.lean ====
import proofs.«179317_j25280177504693_1_alg».proof.Defs
import proofs.«179317_j25280177504693_1_alg».proof.Proof.Gen.KernelIdeal
import proofs.«179317_j25280177504693_1_alg».proof.Proof.Gen.ReferenceIdeal
import proofs.«179317_j25280177504693_1_alg».proof.Proof.Gen.Pre_finite_inputs
import proofs.«179317_j25280177504693_1_alg».proof.Proof.KI.KernelValue
import proofs.«179317_j25280177504693_1_alg».proof.Proof.RefValue
import proofs.«179317_j25280177504693_1_alg».proof.Proof.SharedFacts
import proofs.«179317_j25280177504693_1_alg».proof.Proof.FormBridge
import proofs.«179317_j25280177504693_1_alg».proof.Proof.FiniteInputs

noncomputable section

namespace Cert.Proof

open Cert.Spec Cert.Lib Cert.Bridge Cert.FormBridge Cert.Rd Cert.Shared Idealize.ShloMosaic Idealize.SL.Sem
open Cert.ReferenceIdeal.HandV (RCore TlR ElR interpAt RForm)
open Cert.KernelIdeal.HandV (KCore TlK ElK interpAtK KForm)

section Core

variable {k : FVec Ideal S1024 .f32} {tau : FVec Ideal S600 .f32} {s0 s1 s2 se : FVec Ideal S1024x600 .f32}
  {t0 t1 t2 t3 T : FVec Ideal (⟨2, ![20000, 48]⟩ : Shape) .f32} {i0 : IVec S1024x600 32}
  {fr : FVec Ideal S1024x600 .f32} {pr : FVec Ideal S1024 .f32}
  (htau : ∀ i, IsReal (tau i)) (hfr : ∀ i, IsReal (fr i)) (hi0 : ∀ j n, rdN i0 j n + 1 < 79 * 256)

include hi0 in
theorem interpAt_eq (l j n : ℕ) : interpAtK T i0 fr l j n = interpAt T i0 fr l j n := interp_bridge _ _ _ (hi0 j n)

include hfr in
theorem isReal_interpAt (hT : ∀ i, IsReal (T i)) (l j n : ℕ) : IsReal (interpAt T i0 fr l j n) :=
  ((isReal_rd2 hT _ _).mul (isReal_one.sub (isReal_rd2 hfr _ _))).add ((isReal_rd2 hT _ _).mul (isReal_rd2 hfr _ _))

include htau hfr hi0

/-- The quadrature over tau of three sources against three interpolated columns: the two forms agree, and the value is finite. -/
theorem tl_eq (hs0 : ∀ i, IsReal (s0 i)) (hs1 : ∀ i, IsReal (s1 i)) (hs2 : ∀ i, IsReal (s2 i))
    (ht0 : ∀ i, IsReal (t0 i)) (ht1 : ∀ i, IsReal (t1 i)) (ht2 : ∀ i, IsReal (t2 i)) (l j : ℕ) :
    TlK tau s0 s1 s2 t0 t1 t2 i0 fr l j = TlR tau s0 s1 s2 t0 t1 t2 i0 fr l j ∧ IsReal (TlR tau s0 s1 s2 t0 t1 t2 i0 fr l j) := by
  unfold TlK TlR
  simp only [interpAt_eq hi0]
  exact int_eq 599 (by norm_num) _ _ (isReal_rd1 htau) fun n =>
    (((isReal_rd2 hs0 _ _).mul (isReal_interpAt hfr ht0 _ _ _)).add ((isReal_rd2 hs1 _ _).mul (isReal_interpAt hfr ht1 _ _ _))).add
      ((isReal_rd2 hs2 _ _).mul (isReal_interpAt hfr ht2 _ _ _))

/-- The same for one source against one column. -/
theorem el_eq (hse : ∀ i, IsReal (se i)) (ht3 : ∀ i, IsReal (t3 i)) (l j : ℕ) :
    ElK tau se t3 i0 fr l j = ElR tau se t3 i0 fr l j ∧ IsReal (ElR tau se t3 i0 fr l j) := by
  unfold ElK ElR
  simp only [interpAt_eq hi0]
  exact int_eq 599 (by norm_num) _ _ (isReal_rd1 htau) fun n => (isReal_rd2 hse _ _).mul (isReal_interpAt hfr ht3 _ _ _)

/-- Each result row pairs two of these quadratures, equal and finite on both sides. -/
theorem core_eq (hk : ∀ i, IsReal (k i)) (hs0 : ∀ i, IsReal (s0 i)) (hs1 : ∀ i, IsReal (s1 i)) (hs2 : ∀ i, IsReal (s2 i))
    (hse : ∀ i, IsReal (se i)) (ht0 : ∀ i, IsReal (t0 i)) (ht1 : ∀ i, IsReal (t1 i)) (ht2 : ∀ i, IsReal (t2 i))
    (ht3 : ∀ i, IsReal (t3 i)) (hpr : ∀ j, rd1 k j ≠ 0 → IsReal (rd1 pr j)) :
    KCore k tau s0 s1 s2 se t0 t1 t2 t3 i0 fr pr = RCore k tau s0 s1 s2 se t0 t1 t2 t3 i0 fr pr := by
  have hT := tl_eq htau hfr hi0 hs0 hs1 hs2 ht0 ht1 ht2
  have hE := el_eq htau hfr hi0 hse ht3
  funext i
  unfold KCore RCore
  simp only [fun l j => (hT l j).1, fun l j => (hE l j).1]
  exact cl_eq _ _ _ _ _ (isReal_rd1 hk) hpr (fun j => by split_ifs; exacts [(hE _ j).2, (hT _ j).2])
    (fun j => by split_ifs; exacts [(hT _ j).2, (hE _ j).2])

end Core

/-- Both programs run; on memories that agree on the arguments their results are one array; the arguments stay as launched. -/
theorem algebraic : Cert.algebraic_KernelIdeal_ReferenceIdeal := fun m ρ m' ρ' hpre hagree => by
  have key : ∀ c, Cert.ReferenceIdeal.Hand.res (F := Ideal) m' c
      = Cert.KernelIdeal.Hand.W14 (F := Ideal) m ρ c (Proc.devRef .tc Cert.KernelIdeal.main_v71) := fun c => by
    obtain ⟨h0, h1, -, h3, h4, h5, h6, -, h8, h9, h10, h11, h12, h13⟩ := Finite.of_pre (hpre c)
    obtain ⟨e0, e1, e2, e3, e4, e5, e6, e7, e8, e9, e10, e11, e12, e13⟩ := hagree c
    rw [Cert.ReferenceIdeal.HandV.res_eq m' c, e0, e1, e2, e3, e4, e5, e6, e7, e8, e9, e10, e11, e12, e13, Cert.KernelIdeal.Hand.W14_main_v71,
      Cert.KernelIdeal.HandV.kernel_value m ρ c]
    refine (core_eq h1 (fracV_isReal _ _ _ _) (fun j n => ?_) h0 h3 h4 h5 h6 h8 h9 h10 h11 fun j hj => ?_).symm
    · unfold rdN; split
      · exact (Nat.succ_le_succ (i0V_toNat_le _ _ _ _ _)).trans_lt (by norm_num)
      · norm_num
    · unfold rd1 at hj ⊢; split
      · next hlt => rw [dif_pos hlt] at hj; exact prV_isReal _ _ _ h0 h12 h13 _ hj
      · exact isReal_zero
  exact ⟨_, (θ_run _ _ _).mono (fun _ h c => ⟨h c _ (Cert.KernelIdeal.Hand.mem_uc Cert.KernelIdeal.main_v71 (by decide)), by
      and_intros <;> exact (h c _ (Cert.KernelIdeal.Hand.mem_uc _ (by decide))).trans (Cert.KernelIdeal.Hand.W14_arg m ρ c _ (by decide))⟩)
      (Cert.KernelIdeal.Hand.run_main (F := Ideal) m ρ),
    (θ_run _ _ _).mono (fun _ h c => ⟨(h c).1.trans (key c), (h c).2⟩) (Cert.ReferenceIdeal.Hand.run (F := Ideal) m' ρ')⟩

end Cert.Proof

end
-- ==== Proof.lean ====
import proofs.«179317_j25280177504693_1_alg».proof.Proof.Gen.Kernel
import proofs.«179317_j25280177504693_1_alg».proof.Proof.K.Run
import proofs.«179317_j25280177504693_1_alg».proof.Proof.Algebraic

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ => Cert.ReferenceIdeal.Hand.frame (F := Ideal) m ρ

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.algebraic⟩

end Cert.Proof

end
